-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2208 : Shape := ⟨2, ![10000, 2208]⟩
abbrev S2x160000 : Shape := ⟨2, ![2, 160000]⟩
abbrev S10000 : Shape := ⟨1, ![10000]⟩
abbrev S2208x512 : Shape := ⟨2, ![2208, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S_ : Shape := ⟨0, ![]⟩

class Facts : Prop where
  bcast_S_S10000x2208 : S_.BroadcastsInDim S10000x2208 (![] : Fin 0 → Fin S10000x2208.rank)
  reducesTo_S10000x2208_S_d0_1 : S10000x2208.ReducesTo [0, 1] S_
  h_S_ : 0 < S_.numel
  bcast_S_S2208x512 : S_.BroadcastsInDim S2208x512 (![] : Fin 0 → Fin S2208x512.rank)
  reducesTo_S2208x512_S_d0_1 : S2208x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_arg9 : FVec F S512x2 .f32) (main_arg10 : FVec F S2 .f32) (main_v33 : IVec S_ 1) : IVec S_ 1 :=
  let main_v34 : FVec F S512x2 .f32 := Host.absf main_arg9
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S2x160000 32 := broadcastInDim S2x160000 ![] bcast_S_S2x160000 main_c_16
  let main_v45 : IVec S2x160000 1 := cmpi .sge main_arg1 main_v44
  let main_c_17 : IVec S_ 32 := constantI S_ 32 10000#32
  let main_v46 : IVec S2x160000 32 := broadcastInDim S2x160000 ![] bcast_S_S2x160000 main_c_17
  let main_v47 : IVec S2x160000 1 := cmpi .slt main_arg1 main_v46
  let main_v48 : IVec S2x160000 1 := andi main_v45 main_v47
  let main_c_18 : IVec S_ 1 := constantI S_ 1 1#1
  let main_v49 : IVec S_ 1 := (fun x v => Host.reduce IntOp.andi x v reducesTo_S2x160000_S_d0_1 h_S_) main_v48 main_c_18
  let main_v50 : IVec S_ 1 := andi main_v43 main_v49
  main_v50

def fn_part1 {F : FTy → Type} [FloatOps F] (main_arg1 : IVec S2x160000 32) (main_arg6 : FVec F S512 .f32) (main_arg7 : FVec F S512x512 .f32) (main_arg8 : FVec F S512 .f32) (main_arg9 : FVec F S512x2 .f32) (main_arg10 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg9 main_arg10 main_v33

def fn {F : FTy → Type} [FloatOps F] (main_arg0 : FVec F S10000x2208 .f32) (main_arg1 : IVec S2x160000 32) (main_arg2 : IVec S10000 32) (main_arg3 : FVec F S2208x512 .f32) (main_arg4 : FVec F S512 .f32) (main_arg5 : FVec F S512x512 .f32) (main_arg6 : FVec F S512 .f32) (main_arg7 : FVec F S512x512 .f32) (main_arg8 : FVec F S512 .f32) (main_arg9 : FVec F S512x2 .f32) (main_arg10 : FVec F S2 .f32) : IVec S_ 1 :=
  let main_v0 : FVec F S10000x2208 .f32 := Host.absf main_arg0
  let main_cst : FVec F S_ .f32 := constant S_ .f32 0x7F800000#32
  let main_v1 : FVec F S10000x2208 .f32 := broadcastInDim S10000x2208 ![] bcast_S_S10000x2208 main_cst
  let main_v2 : IVec S10000x2208 1 := cmpf .olt main_v0 main_v1
  let main_c : IVec S_ 1 := constantI S_ 1 1#1
  let main_v3 : IVec S_ 1 := (fun x v => Host.reduce IntOp.andi x v reducesTo_S10000x2208_S_d0_1 h_S_) main_v2 main_c
  let main_v4 : FVec F S2208x512 .f32 := Host.absf main_arg3
  let main_cst_0 : FVec F S_ .f32 := constant S_ .f32 0x7F800000#32
  let main_v5 : FVec F S2208x512 .f32 := broadcastInDim S2208x512 ![] bcast_S_S2208x512 main_cst_0
  let main_v6 : IVec S2208x512 1 := cmpf .olt main_v4 main_v5
  let main_c_1 : IVec S_ 1 := constantI S_ 1 1#1
  let main_v7 : IVec S_ 1 := (fun x v => Host.reduce IntOp.andi x v reducesTo_S2208x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg6 main_arg7 main_arg8 main_arg9 main_arg10 main_v13 main_v16
-- ==== Kernel.lean ====
abbrev S10000x2208 : Shape := ⟨2, ![10000, 2208]⟩
abbrev S2x160000 : Shape := ⟨2, ![2, 160000]⟩
abbrev S10000 : Shape := ⟨1, ![10000]⟩
abbrev S2208x512 : Shape := ⟨2, ![2208, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x2208 : Shape := ⟨2, ![10240, 2208]⟩
abbrev S1 : Shape := ⟨1, ![1]⟩
abbrev S10240x512 : Shape := ⟨2, ![10240, 512]⟩
abbrev S2560x2208 : Shape := ⟨2, ![2560, 2208]⟩
abbrev S2560x512 : Shape := ⟨2, ![2560, 512]⟩
abbrev S1x512 : Shape := ⟨2, ![1, 512]⟩
abbrev S5120x1024 : Shape := ⟨2, ![5120, 1024]⟩
abbrev S1024x512 : Shape := ⟨2, ![1024, 512]⟩
abbrev S5120x512 : Shape := ⟨2, ![5120, 512]⟩
abbrev S10240x2 : Shape := ⟨2, ![10240, 2]⟩
abbrev S5120x2 : Shape := ⟨2, ![5120, 2]⟩
abbrev S10000x2 : Shape := ⟨2, ![10000, 2]⟩
abbrev S1x2 : Shape := ⟨2, ![1, 2]⟩
abbrev S10000x1 : Shape := ⟨2, ![10000, 1]⟩

abbrev nBuf : Space → Nat
  | .hbm => 127
  | .vmem => 44
  | .smem => 0
  | _ => 0

abbrev bufTy : (tb : Table) → Fin (tcTables nBuf tb) → BufTy
  | .hbm, ⟨0, _⟩ => ⟨S10000x2208, .f32⟩
  | .hbm, ⟨1, _⟩ => ⟨S2x160000, .i32⟩
  | .hbm, ⟨2, _⟩ => ⟨S10000, .i32⟩
  | .hbm, ⟨3, _⟩ => ⟨S2208x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x2, .f32⟩
  | .hbm, ⟨10, _⟩ => ⟨S2, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S160000, .i32⟩
  | .hbm, ⟨15, _⟩ => ⟨S10000, .i32⟩
  | .hbm, ⟨16, _⟩ => ⟨S170000, .i32⟩
  | .hbm, ⟨17, _⟩ => ⟨S170000, .i32⟩
  | .hbm, ⟨18, _⟩ => ⟨S_, .f32⟩
  | .hbm, ⟨19, _⟩ => ⟨S170000, .f32⟩
  | .hbm, ⟨20, _⟩ => ⟨S_, .f32⟩
  | .hbm, ⟨21, _⟩ => ⟨S10000, .f32⟩
  | .hbm, ⟨22, _⟩ => ⟨S170000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S170000, .i32⟩
  | .hbm, ⟨34, _⟩ => ⟨S170000, .i1⟩
  | .hbm, ⟨35, _⟩ => ⟨S_, .i32⟩
  | .hbm, ⟨36, _⟩ => ⟨S170000, .i32⟩
  | .hbm, ⟨37, _⟩ => ⟨S170000, .i32⟩
  | .hbm, ⟨38, _⟩ => ⟨S170000, .i32⟩
  | .hbm, ⟨39, _⟩ => ⟨S170000x1, .i32⟩
  | .hbm, ⟨40, _⟩ => ⟨S170000, .f32⟩
  | .hbm, ⟨41, _⟩ => ⟨S_, .i32⟩
  | .hbm, ⟨42, _⟩ => ⟨S170000, .i32⟩
  | .hbm, ⟨43, _⟩ => ⟨S170000, .i1⟩
  | .hbm, ⟨44, _⟩ => ⟨S_, .i32⟩
  | .hbm, ⟨45, _⟩ => ⟨S170000, .i32⟩
  | .hbm, ⟨46, _⟩ => ⟨S170000, .i32⟩
  | .hbm, ⟨47, _⟩ => ⟨S170000, .i32⟩
  | .hbm, ⟨48, _⟩ => ⟨S170000x1, .i32⟩
  | .hbm, ⟨49, _⟩ => ⟨S170000, .f32⟩
  | .hbm, ⟨50, _⟩ => ⟨S170000, .f32⟩
  | .hbm, ⟨51, _⟩ => ⟨S_, .f32⟩
  | .hbm, ⟨52, _⟩ => ⟨S10240x10240, .f32⟩
  | .hbm, ⟨53, _⟩ => ⟨S_, .i32⟩
  | .hbm, ⟨54, _⟩ => ⟨S170000, .i32⟩
  | .hbm, ⟨55, _⟩ => ⟨S170000, .i1⟩
  | .hbm, ⟨56, _⟩ => ⟨S_, .i32⟩
  | .hbm, ⟨57, _⟩ => ⟨S170000, .i32⟩
  | .hbm, ⟨58, _⟩ => ⟨S170000, .i32⟩
  | .hbm, ⟨59, _⟩ => ⟨S170000, .i32⟩
  | .hbm, ⟨60, _⟩ => ⟨S_, .i32⟩
  | .hbm, ⟨61, _⟩ => ⟨S170000, .i32⟩
  | .hbm, ⟨62, _⟩ => ⟨S170000, .i1⟩
  | .hbm, ⟨63, _⟩ => ⟨S_, .i32⟩
  | .hbm, ⟨64, _⟩ => ⟨S170000, .i32⟩
  | .hbm, ⟨65, _⟩ => ⟨S170000, .i32⟩
  | .hbm, ⟨66, _⟩ => ⟨S170000, .i32⟩
  | .hbm, ⟨67, _⟩ => ⟨S170000x1, .i32⟩
  | .hbm, ⟨68, _⟩ => ⟨S170000x1, .i32⟩
  | .hbm, ⟨69, _⟩ => ⟨S170000x2, .i32⟩
  | .hbm, ⟨70, _⟩ => ⟨S10240x10240, .f32⟩
  | .hbm, ⟨71, _⟩ => ⟨S10240x10240, .bf16⟩
  | .hbm, ⟨72, _⟩ => ⟨S_, .f32⟩
  | .hbm, ⟨73, _⟩ => ⟨S10240x2208, .f32⟩
  | .hbm, ⟨74, _⟩ => ⟨S_, .i32⟩
  | .hbm, ⟨75, _⟩ => ⟨S1, .i32⟩
  | .hbm, ⟨76, _⟩ => ⟨S10240x2208, .f32⟩
  | .hbm, ⟨77, _⟩ => ⟨S10240x2208, .bf16⟩
  | .hbm, ⟨78, _⟩ => ⟨S2208x512, .bf16⟩
  | .hbm, ⟨79, _⟩ => ⟨S512x512, .bf16⟩
  | .hbm, ⟨80, _⟩ => ⟨S512x512, .bf16⟩
  | .hbm, ⟨81, _⟩ => ⟨S512x2, .bf16⟩
  | .hbm, ⟨82, _⟩ => ⟨S10240x512, .bf16⟩
  | .hbm, ⟨83, _⟩ => ⟨S1x512, .f32⟩
  | .hbm, ⟨84, _⟩ => ⟨S10240x512, .bf16⟩
  | .hbm, ⟨85, _⟩ => ⟨S10240x512, .bf16⟩
  | .hbm, ⟨86, _⟩ => ⟨S1x512, .f32⟩
  | .hbm, ⟨87, _⟩ => ⟨S10240x512, .bf16⟩
  | .hbm, ⟨88, _⟩ => ⟨S10240x512, .bf16⟩
  | .hbm, ⟨89, _⟩ => ⟨S1x512, .f32⟩
  | .hbm, ⟨90, _⟩ => ⟨S10240x512, .bf16⟩
  | .hbm, ⟨91, _⟩ => ⟨S10240x2, .f32⟩
  | .hbm, ⟨92, _⟩ => ⟨S10000x2, .f32⟩
  | .hbm, ⟨93, _⟩ => ⟨S_, .i32⟩
  | .hbm, ⟨94, _⟩ => ⟨S170000, .i32⟩
  | .hbm, ⟨95, _⟩ => ⟨S170000, .i1⟩
  | .hbm, ⟨96, _⟩ => ⟨S_, .i32⟩
  | .hbm, ⟨97, _⟩ => ⟨S170000, .i32⟩
  | .hbm, ⟨98, _⟩ => ⟨S170000, .i32⟩
  | .hbm, ⟨99, _⟩ => ⟨S170000, .i32⟩
  | .hbm, ⟨100, _⟩ => ⟨S170000x1, .i32⟩
  | .hbm, ⟨101, _⟩ => ⟨S170000x2, .f32⟩
  | .hbm, ⟨102, _⟩ => ⟨S170000x1, .f32⟩
  | .hbm, ⟨103, _⟩ => ⟨S170000x2, .f32⟩
  | .hbm, ⟨104, _⟩ => ⟨S170000x2, .f32⟩
  | .hbm, ⟨105, _⟩ => ⟨S_, .f32⟩
  | .hbm, ⟨106, _⟩ => ⟨S10000x2, .f32⟩
  | .hbm, ⟨107, _⟩ => ⟨S170000x1, .i32⟩
  | .hbm, ⟨108, _⟩ => ⟨S10000x2, .f32⟩
  | .hbm, ⟨109, _⟩ => ⟨S1x2, .f32⟩
  | .hbm, ⟨110, _⟩ => ⟨S10000x2, .f32⟩
  | .hbm, ⟨111, _⟩ => ⟨S10000x2, .f32⟩
  | .hbm, ⟨112, _⟩ => ⟨S_, .f32⟩
  | .hbm, ⟨113, _⟩ => ⟨S10000, .f32⟩
  | .hbm, ⟨114, _⟩ => ⟨S_, .f32⟩
  | .hbm, ⟨115, _⟩ => ⟨S10000, .f32⟩
  | .hbm, ⟨116, _⟩ => ⟨S10000, .f32⟩
  | .hbm, ⟨117, _⟩ => ⟨S10000x1, .f32⟩
  | .hbm, ⟨118, _⟩ => ⟨S10000x2, .f32⟩
  | .hbm, ⟨119, _⟩ => ⟨S10000x2, .f32⟩
  | .hbm, ⟨120, _⟩ => ⟨S10000x2, .f32⟩
  | .hbm, ⟨121, _⟩ => ⟨S_, .f32⟩
  | .hbm, ⟨122, _⟩ => ⟨S10000, .f32⟩
  | .hbm, ⟨123, _⟩ => ⟨S10000x1, .f32⟩
  | .hbm, ⟨124, _⟩ => ⟨S10000x1, .f32⟩
  | .hbm, ⟨125, _⟩ => ⟨S10000x2, .f32⟩
  | .hbm, ⟨126, _⟩ => ⟨S10000x2, .f32⟩
  | .local _ .vmem, ⟨0, _⟩ => ⟨S2560x2208, .bf16⟩
  | .local _ .vmem, ⟨1, _⟩ => ⟨S2560x2208, .bf16⟩
  | .local _ .vmem, ⟨2, _⟩ => ⟨S2208x512, .bf16⟩
  | .local _ .vmem, ⟨3, _⟩ => ⟨S2560x512, .bf16⟩
  | .local _ .vmem, ⟨4, _⟩ => ⟨S2560x512, .bf16⟩
  | .local _ .vmem, ⟨5, _⟩ => ⟨S5120x1024, .bf16⟩
  | .local _ .vmem, ⟨6, _⟩ => ⟨S5120x1024, .bf16⟩
  | .local _ .vmem, ⟨7, _⟩ => ⟨S1024x512, .bf16⟩
  | .local _ .vmem, ⟨8, _⟩ => ⟨S1024x512, .bf16⟩
  | .local _ .vmem, ⟨9, _⟩ => ⟨S1x512, .f32⟩
  | .local _ .vmem, ⟨10, _⟩ => ⟨S5120x512, .bf16⟩
  | .local _ .vmem, ⟨11, _⟩ => ⟨S5120x512, .bf16⟩
  | .local _ .vmem, ⟨12, _⟩ => ⟨S5120x512, .f32⟩
  | .local _ .vmem, ⟨13, _⟩ => ⟨S5120x512, .bf16⟩
  | .local _ .vmem, ⟨14, _⟩ => ⟨S5120x512, .bf16⟩
  | .local _ .vmem, ⟨15, _⟩ => ⟨S512x512, .bf16⟩
  | .local _ .vmem, ⟨16, _⟩ => ⟨S5120x512, .bf16⟩
  | .local _ .vmem, ⟨17, _⟩ => ⟨S5120x512, .bf16⟩
  | .local _ .vmem, ⟨18, _⟩ => ⟨S5120x1024, .bf16⟩
  | .local _ .vmem, ⟨19, _⟩ => ⟨S5120x1024, .bf16⟩
  | .local _ .vmem, ⟨20, _⟩ => ⟨S1024x512, .bf16⟩
  | .local _ .vmem, ⟨21, _⟩ => ⟨S1024x512, .bf16⟩
  | .local _ .vmem, ⟨22, _⟩ => ⟨S1x512, .f32⟩
  | .local _ .vmem, ⟨23, _⟩ => ⟨S5120x512, .bf16⟩
  | .local _ .vmem, ⟨24, _⟩ => ⟨S5120x512, .bf16⟩
  | .local _ .vmem, ⟨25, _⟩ => ⟨S5120x512, .f32⟩
  | .local _ .vmem, ⟨26, _⟩ => ⟨S5120x512, .bf16⟩
  | .local _ .vmem, ⟨27, _⟩ => ⟨S5120x512, .bf16⟩
  | .local _ .vmem, ⟨28, _⟩ => ⟨S512x512, .bf16⟩
  | .local _ .vmem, ⟨29, _⟩ => ⟨S5120x512, .bf16⟩
  | .local _ .vmem, ⟨30, _⟩ => ⟨S5120x512, .bf16⟩
  | .local _ .vmem, ⟨31, _⟩ => ⟨S5120x1024, .bf16⟩
  | .local _ .vmem, ⟨32, _⟩ => ⟨S5120x1024, .bf16⟩
  | .local _ .vmem, ⟨33, _⟩ => ⟨S1024x512, .bf16⟩
  | .local _ .vmem, ⟨34, _⟩ => ⟨S1024x512, .bf16⟩
  | .local _ .vmem, ⟨35, _⟩ => ⟨S1x512, .f32⟩
  | .local _ .vmem, ⟨36, _⟩ => ⟨S5120x512, .bf16⟩
  | .local _ .vmem, ⟨37, _⟩ => ⟨S5120x512, .bf16⟩
  | .local _ .vmem, ⟨38, _⟩ => ⟨S5120x512, .f32⟩
  | .local _ .vmem, ⟨39, _⟩ => ⟨S5120x512, .bf16⟩
  | .local _ .vmem, ⟨40, _⟩ => ⟨S5120x512, .bf16⟩
  | .local _ .vmem, ⟨41, _⟩ => ⟨S512x2, .bf16⟩
  | .local _ .vmem, ⟨42, _⟩ => ⟨S5120x2, .f32⟩
  | .local _ .vmem, ⟨43, _⟩ => ⟨S5120x2, .f32⟩
  | _, _ => ⟨S10000x2208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call1_cst : Ref sig .tc := ⟨.hbm, 112, rfl⟩
abbrev main_call1_v0 : Ref sig .tc := ⟨.hbm, 113, rfl⟩
abbrev main_call1_cst_0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_cst_1 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_v81 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x2208 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2208x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5120x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S5120x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5120x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5120x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 10], ![false, false]⟩

def k3_cond2 (i : grid3.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S5120x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S5120x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5120x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5120x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![2, 10], ![false, false]⟩

def k5_cond2 (i : grid5.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S5120x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S5120x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5120x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x2 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5120x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  bcast_S_S10240x2208 : S_.BroadcastsInDim S10240x2208 (![] : Fin 0 → Fin S10240x2208.rank)
  bcast_S_S1 : S_.BroadcastsInDim S1 (![] : Fin 0 → Fin S1.rank)
  inb_S2560x2208_S2560x2208_0_0 : ∀ a, (![0, 0] : Fin 2 → Nat) a + S2560x2208.size a ≤ S2560x2208.size a
  h_S2560x2208 : 0 < S2560x2208.numel
  shapeCasts_S2560x2208_S2560x2208 : S2560x2208.ShapeCasts S2560x2208
  inb_S2208x512_S2208x512_0_0 : ∀ a, (![0, 0] : Fin 2 → Nat) a + S2208x512.size a ≤ S2208x512.size a
  h_S2208x512 : 0 < S2208x512.numel
  shapeCasts_S2208x512_S2208x512 : S2208x512.ShapeCasts S2208x512
  inb_S2560x512_S2560x512_0_0 : ∀ a, (![0, 0] : Fin 2 → Nat) a + S2560x512.size a ≤ S2560x512.size a
  h_S2560x512 : 0 < S2560x512.numel
  packedbf16_S2560x512_S2560x512_0_0 : (Rect.unit (s := S2560x512) ![0, 0] S2560x512.size inb_S2560x512_S2560x512_0_0).PackedRows (EltTy.packing .bf16)
  shapeCasts_S512_S1x512 : S512.ShapeCasts S1x512
  inb_S5120x512_S5120x512_0_0 : ∀ a, (![0, 0] : Fin 2 → Nat) a + S5120x512.size a ≤ S5120x512.size a
  h_S5120x512 : 0 < S5120x512.numel
  shapeCasts_S5120x512_S5120x512 : S5120x512.ShapeCasts S5120x512
  inb_S5120x1024_S5120x1024_0_0 : ∀ a, (![0, 0] : Fin 2 → Nat) a + S5120x1024.size a ≤ S5120x1024.size a
  h_S5120x1024 : 0 < S5120x1024.numel
  shapeCasts_S5120x1024_S5120x1024 : S5120x1024.ShapeCasts S5120x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5120x512 : S1x512.Broadcasts S5120x512
  packedbf16_S5120x512_S5120x512_0_0 : (Rect.unit (s := S5120x512) ![0, 0] S5120x512.size inb_S5120x512_S5120x512_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S5120x2_S5120x2_0_0 : ∀ a, (![0, 0] : Fin 2 → Nat) a + S5120x2.size a ≤ S5120x2.size a
  h_S5120x2 : 0 < S5120x2.numel
  slices_S10240x2_S10000x2_0_0 : S10240x2.Slices ![0, 0] S10000x2
  bcast_S170000x1_S170000x2_0_1 : S170000x1.BroadcastsInDim S170000x2 (![0, 1] : Fin 2 → Fin S170000x2.rank)
  bcast_S_S10000x2 : S_.BroadcastsInDim S10000x2 (![] : Fin 0 → Fin S10000x2.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  reducesTo_S10000x2_S10000_d1 : S10000x2.ReducesTo [1] S10000
  h_S_ : 0 < S_.numel
  bcast_S10000_S10000x1_0 : S10000.BroadcastsInDim S10000x1 (![0] : Fin 1 → Fin S10000x1.rank)
  bcast_S10000x1_S10000x2_0_1 : S10000x1.BroadcastsInDim S10000x2 (![0, 1] : Fin 2 → Fin S10000x2.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  scatter_S10240x2208_S1_S10000x2208_01_n_0_0_wf : ScatterDims.WF S10240x2208 S1 S10000x2208 [0, 1] [] [0] 0
  dot_S2560x2208_S2208x512_S2560x512_1_0_0_1_n_n_wf : DotDims.WF S2560x2208 S2208x512 S2560x512 [1] [0] [0] [1] [] []
  dot_S5120x1024_S1024x512_S5120x512_1_0_0_1_n_n_wf : DotDims.WF S5120x1024 S1024x512 S5120x512 [1] [0] [0] [1] [] []
  dot_S5120x512_S512x512_S5120x512_1_0_0_1_n_n_wf : DotDims.WF S5120x512 S512x512 S5120x512 [1] [0] [0] [1] [] []
  dot_S5120x512_S512x2_S5120x2_1_0_0_1_n_n_wf : DotDims.WF S5120x512 S512x2 S5120x2 [1] [0] [0] [1] [] []
  gather_S10000x2_S170000x1_S170000x2_1_0_n_n_0_1_12_wf : GatherDims.WF S10000x2 S170000x1 S170000x2 [1] [0] [] [0] [] 1 ![1, 2]
  scatter_S10000x2_S170000x1_S170000x2_1_0_0_1_wf : ScatterDims.WF S10000x2 S170000x1 S170000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x2208.size a ≤ S10240x2208.size a
  hwx0_0 : ∀ i : grid0.Coords, EltTy.bits .bf16 = 32 ∨ (Rect.block (s := S10240x2208) S2560x2208.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2208x512.size a ≤ S2208x512.size a
  hwx0_1 : ∀ i : grid0.Coords, EltTy.bits .bf16 = 32 ∨ (Rect.block (s := S2208x512) S2208x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x512.size a ≤ S10240x512.size a
  hwx0_2 : ∀ i : grid0.Coords, EltTy.bits .bf16 = 32 ∨ (Rect.block (s := S10240x512) S2560x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x1024.size a ≤ S10240x10240.size a
  hwx1_0 : ∀ i : grid1.Coords, EltTy.bits .bf16 = 32 ∨ (Rect.block (s := S10240x10240) S5120x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S10240x512.size a
  hwx1_1 : ∀ i : grid1.Coords, EltTy.bits .bf16 = 32 ∨ (Rect.block (s := S10240x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5120x512.size a ≤ S10240x512.size a
  hwx1_3 : ∀ i : grid1.Coords, EltTy.bits .bf16 = 32 ∨ (Rect.block (s := S10240x512) S5120x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5120x512.size a ≤ S10240x512.size a
  hwx2_0 : ∀ i : grid2.Coords, EltTy.bits .bf16 = 32 ∨ (Rect.block (s := S10240x512) S5120x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5120x512.size a ≤ S10240x512.size a
  hwx2_2 : ∀ i : grid2.Coords, EltTy.bits .bf16 = 32 ∨ (Rect.block (s := S10240x512) S5120x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5120x1024.size a ≤ S10240x10240.size a
  hwx3_0 : ∀ i : grid3.Coords, EltTy.bits .bf16 = 32 ∨ (Rect.block (s := S10240x10240) S5120x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S10240x512.size a
  hwx3_1 : ∀ i : grid3.Coords, EltTy.bits .bf16 = 32 ∨ (Rect.block (s := S10240x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5120x512.size a ≤ S10240x512.size a
  hwx3_3 : ∀ i : grid3.Coords, EltTy.bits .bf16 = 32 ∨ (Rect.block (s := S10240x512) S5120x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5120x512.size a ≤ S10240x512.size a
  hwx4_0 : ∀ i : grid4.Coords, EltTy.bits .bf16 = 32 ∨ (Rect.block (s := S10240x512) S5120x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5120x512.size a ≤ S10240x512.size a
  hwx4_2 : ∀ i : grid4.Coords, EltTy.bits .bf16 = 32 ∨ (Rect.block (s := S10240x512) S5120x512.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5120x1024.size a ≤ S10240x10240.size a
  hwx5_0 : ∀ i : grid5.Coords, EltTy.bits .bf16 = 32 ∨ (Rect.block (s := S10240x10240) S5120x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S10240x512.size a
  hwx5_1 : ∀ i : grid5.Coords, EltTy.bits .bf16 = 32 ∨ (Rect.block (s := S10240x512) S1024x512.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5120x512.size a ≤ S10240x512.size a
  hwx5_3 : ∀ i : grid5.Coords, EltTy.bits .bf16 = 32 ∨ (Rect.block (s := S10240x512) S5120x512.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5120x512.size a ≤ S10240x512.size a
  hwx6_0 : ∀ i : grid6.Coords, EltTy.bits .bf16 = 32 ∨ (Rect.block (s := S10240x512) S5120x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x2.size a ≤ S512x2.size a
  hwx6_1 : ∀ i : grid6.Coords, EltTy.bits .bf16 = 32 ∨ (Rect.block (s := S512x2) S512x2.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5120x2.size a ≤ S10240x2.size a
  hwx6_2 : ∀ i : grid6.Coords, EltTy.bits .f32 = 32 ∨ (Rect.block (s := S10240x2) S5120x2.size (cc6_transform_2 i) (hinb6_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def scatter_S10240x2208_S1_S10000x2208_01_n_0_0 : ScatterDims S10240x2208 S1 S10000x2208 where
  updateWindowDims := [0, 1]
  insertedWindowDims := []
  scatterDimsToOperandDims := [0]
  indexVectorDim := 0
  wf := scatter_S10240x2208_S1_S10000x2208_01_n_0_0_wf
def dot_S2560x2208_S2208x512_S2560x512_1_0_0_1_n_n : DotDims S2560x2208 S2208x512 S2560x512 where
  lhsContracting := [1]
  rhsContracting := [0]
  lhsNonContracting := [0]
  rhsNonContracting := [1]
  lhsBatch := []
  rhsBatch := []
  wf := dot_S2560x2208_S2208x512_S2560x512_1_0_0_1_n_n_wf
def dot_S5120x1024_S1024x512_S5120x512_1_0_0_1_n_n : DotDims S5120x1024 S1024x512 S5120x512 where
  lhsContracting := [1]
  rhsContracting := [0]
  lhsNonContracting := [0]
  rhsNonContracting := [1]
  lhsBatch := []
  rhsBatch := []
  wf := dot_S5120x1024_S1024x512_S5120x512_1_0_0_1_n_n_wf
def dot_S5120x512_S512x512_S5120x512_1_0_0_1_n_n : DotDims S5120x512 S512x512 S5120x512 where
  lhsContracting := [1]
  rhsContracting := [0]
  lhsNonContracting := [0]
  rhsNonContracting := [1]
  lhsBatch := []
  rhsBatch := []
  wf := dot_S5120x512_S512x512_S5120x512_1_0_0_1_n_n_wf
def dot_S5120x512_S512x2_S5120x2_1_0_0_1_n_n : DotDims S5120x512 S512x2 S5120x2 where
  lhsContracting := [1]
  rhsContracting := [0]
  lhsNonContracting := [0]
  rhsNonContracting := [1]
  lhsBatch := []
  rhsBatch := []
  wf := dot_S5120x512_S512x2_S5120x2_1_0_0_1_n_n_wf
def gather_S10000x2_S170000x1_S170000x2_1_0_n_n_0_1_12 : GatherDims S10000x2 S170000x1 S170000x2 where
  offsetDims := [1]
  collapsedSliceDims := [0]
  operandBatchingDims := []
  startIndicesBatchingDims := []
  startIndexMap := [0]
  indexVectorDim := 1
  sliceSizes := ![1, 2]
  wf := gather_S10000x2_S170000x1_S170000x2_1_0_n_n_0_1_12_wf
def scatter_S10000x2_S170000x1_S170000x2_1_0_0_1 : ScatterDims S10000x2 S170000x1 S170000x2 where
  updateWindowDims := [1]
  insertedWindowDims := [0]
  scatterDimsToOperandDims := [0]
  indexVectorDim := 1
  wf := scatter_S10000x2_S170000x1_S170000x2_1_0_0_1_wf

abbrev win0_0 : Pipeline.Window sig grid0 :=
  Pipeline.Window.ofSpec (Memref.whole main_v49) S2560x2208.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S2208x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S2560x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5120x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S5120x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v56) S5120x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5120x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5120x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5120x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v59) S5120x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5120x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5120x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5120x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v62) S5120x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S512x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S5120x2.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S10000x2208 : Shape := ⟨2, ![10000, 2208]⟩
abbrev S2x160000 : Shape := ⟨2, ![2, 160000]⟩
abbrev S10000 : Shape := ⟨1, ![10000]⟩
abbrev S2208x512 : Shape := ⟨2, ![2208, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x512 : Shape := ⟨2, ![10000, 512]⟩
abbrev S170000x512 : Shape := ⟨2, ![170000, 512]⟩
abbrev S1x512 : Shape := ⟨2, ![1, 512]⟩
abbrev S10000x2 : Shape := ⟨2, ![10000, 2]⟩
abbrev S170000x2 : Shape := ⟨2, ![170000, 2]⟩
abbrev S1x2 : Shape := ⟨2, ![1, 2]⟩
abbrev S10000x1 : Shape := ⟨2, ![10000, 1]⟩

abbrev nBuf : Space → Nat
  | .hbm => 155
  | .vmem => 0
  | .smem => 0
  | _ => 0

abbrev hbmTy0_0 (i : Nat) : BufTy := match i % 128 with
  | 0 => ⟨S10000x2208, .f32⟩
  | 1 => ⟨S2x160000, .i32⟩
  | 2 => ⟨S10000, .i32⟩
  | 3 => ⟨S2208x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x2, .f32⟩
  | 10 => ⟨S2, .f32⟩
  | 11 => ⟨S1x160000, .i32⟩
  | 12 => ⟨S160000, .i32⟩
  | 13 => ⟨S1x160000, .i32⟩
  | 14 => ⟨S160000, .i32⟩
  | 15 => ⟨S10000, .i32⟩
  | 16 => ⟨S170000, .i32⟩
  | 17 => ⟨S170000, .i32⟩
  | 18 => ⟨S_, .f32⟩
  | 19 => ⟨S170000, .f32⟩
  | 20 => ⟨S_, .f32⟩
  | 21 => ⟨S10000, .f32⟩
  | 22 => ⟨S170000x1, .i32⟩
  | 23 => ⟨S10000, .f32⟩
  | 24 => ⟨S_, .f32⟩
  | 25 => ⟨S10000, .f32⟩
  | 26 => ⟨S10000, .i1⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S170000, .i32⟩
  | 34 => ⟨S170000, .i1⟩
  | 35 => ⟨S_, .i32⟩
  | 36 => ⟨S170000, .i32⟩
  | 37 => ⟨S170000, .i32⟩
  | 38 => ⟨S170000, .i32⟩
  | 39 => ⟨S170000x1, .i32⟩
  | 40 => ⟨S170000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S10000x512, .f32⟩
  | 52 => ⟨S_, .i32⟩
  | 53 => ⟨S170000, .i32⟩
  | 54 => ⟨S170000, .i1⟩
  | 55 => ⟨S_, .i32⟩
  | 56 => ⟨S170000, .i32⟩
  | 57 => ⟨S170000, .i32⟩
  | 58 => ⟨S170000, .i32⟩
  | 59 => ⟨S170000x1, .i32⟩
  | 60 => ⟨S170000x512, .f32⟩
  | 61 => ⟨S170000x1, .f32⟩
  | 62 => ⟨S170000x512, .f32⟩
  | 63 => ⟨S170000x512, .f32⟩
  | 64 => ⟨S_, .f32⟩
  | 65 => ⟨S10000x512, .f32⟩
  | 66 => ⟨S170000x1, .i32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S10000x512, .f32⟩
  | 75 => ⟨S_, .i32⟩
  | 76 => ⟨S170000, .i32⟩
  | 77 => ⟨S170000, .i1⟩
  | 78 => ⟨S_, .i32⟩
  | 79 => ⟨S170000, .i32⟩
  | 80 => ⟨S170000, .i32⟩
  | 81 => ⟨S170000, .i32⟩
  | 82 => ⟨S170000x1, .i32⟩
  | 83 => ⟨S170000x512, .f32⟩
  | 84 => ⟨S170000x1, .f32⟩
  | 85 => ⟨S170000x512, .f32⟩
  | 86 => ⟨S170000x512, .f32⟩
  | 87 => ⟨S_, .f32⟩
  | 88 => ⟨S10000x512, .f32⟩
  | 89 => ⟨S170000x1, .i32⟩
  | 90 => ⟨S10000x512, .f32⟩
  | 91 => ⟨S1x512, .f32⟩
  | 92 => ⟨S10000x512, .f32⟩
  | 93 => ⟨S10000x512, .f32⟩
  | 94 => ⟨S_, .f32⟩
  | 95 => ⟨S10000x512, .f32⟩
  | 96 => ⟨S10000x512, .f32⟩
  | 97 => ⟨S10000x512, .f32⟩
  | 98 => ⟨S_, .i32⟩
  | 99 => ⟨S170000, .i32⟩
  | 100 => ⟨S170000, .i1⟩
  | 101 => ⟨S_, .i32⟩
  | 102 => ⟨S170000, .i32⟩
  | 103 => ⟨S170000, .i32⟩
  | 104 => ⟨S170000, .i32⟩
  | 105 => ⟨S170000x1, .i32⟩
  | 106 => ⟨S170000x512, .f32⟩
  | 107 => ⟨S170000x1, .f32⟩
  | 108 => ⟨S170000x512, .f32⟩
  | 109 => ⟨S170000x512, .f32⟩
  | 110 => ⟨S_, .f32⟩
  | 111 => ⟨S10000x512, .f32⟩
  | 112 => ⟨S170000x1, .i32⟩
  | 113 => ⟨S10000x512, .f32⟩
  | 114 => ⟨S1x512, .f32⟩
  | 115 => ⟨S10000x512, .f32⟩
  | 116 => ⟨S10000x512, .f32⟩
  | 117 => ⟨S_, .f32⟩
  | 118 => ⟨S10000x512, .f32⟩
  | 119 => ⟨S10000x512, .f32⟩
  | 120 => ⟨S10000x2, .f32⟩
  | 121 => ⟨S_, .i32⟩
  | 122 => ⟨S170000, .i32⟩
  | 123 => ⟨S170000, .i1⟩
  | 124 => ⟨S_, .i32⟩
  | 125 => ⟨S170000, .i32⟩
  | 126 => ⟨S170000, .i32⟩
  | 127 => ⟨S170000, .i32⟩
  | _ => ⟨S10000x2208, .f32⟩

abbrev hbmTy0_1 (i : Nat) : BufTy := match i % 128 with
  | 0 => ⟨S170000x1, .i32⟩
  | 1 => ⟨S170000x2, .f32⟩
  | 2 => ⟨S170000x1, .f32⟩
  | 3 => ⟨S170000x2, .f32⟩
  | 4 => ⟨S170000x2, .f32⟩
  | 5 => ⟨S_, .f32⟩
  | 6 => ⟨S10000x2, .f32⟩
  | 7 => ⟨S170000x1, .i32⟩
  | 8 => ⟨S10000x2, .f32⟩
  | 9 => ⟨S1x2, .f32⟩
  | 10 => ⟨S10000x2, .f32⟩
  | 11 => ⟨S10000x2, .f32⟩
  | 12 => ⟨S_, .f32⟩
  | 13 => ⟨S10000, .f32⟩
  | 14 => ⟨S_, .f32⟩
  | 15 => ⟨S10000, .f32⟩
  | 16 => ⟨S10000, .f32⟩
  | 17 => ⟨S10000x1, .f32⟩
  | 18 => ⟨S10000x2, .f32⟩
  | 19 => ⟨S10000x2, .f32⟩
  | 20 => ⟨S10000x2, .f32⟩
  | 21 => ⟨S_, .f32⟩
  | 22 => ⟨S10000, .f32⟩
  | 23 => ⟨S10000x1, .f32⟩
  | 24 => ⟨S10000x1, .f32⟩
  | 25 => ⟨S10000x2, .f32⟩
  | 26 => ⟨S10000x2, .f32⟩
  | _ => ⟨S10000x2208, .f32⟩

abbrev hbmTy (i : Nat) : BufTy := match i / 128 with
  | 0 => hbmTy0_0 i
  | 1 => hbmTy0_1 i
  | _ => ⟨S10000x2208, .f32⟩

abbrev bufTy : (tb : Table) → Fin (tcTables nBuf tb) → BufTy
  | .hbm, ⟨i, _⟩ => hbmTy i
  | _, _ => ⟨S10000x2208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_v84 : Ref sig .tc := ⟨.hbm, 120, rfl⟩
abbrev main_c_15 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call4_cst : Ref sig .tc := ⟨.hbm, 140, rfl⟩
abbrev main_call4_v0 : Ref sig .tc := ⟨.hbm, 141, rfl⟩
abbrev main_call4_cst_0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_cst_1 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_v101 : Ref sig .tc := ⟨.hbm, 154, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S170000x1_S170000x2_0_1 : S170000x1.BroadcastsInDim S170000x2 (![0, 1] : Fin 2 → Fin S170000x2.rank)
  bcast_S_S10000x2 : S_.BroadcastsInDim S10000x2 (![] : Fin 0 → Fin S10000x2.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  reducesTo_S10000x2_S10000_d1 : S10000x2.ReducesTo [1] S10000
  h_S_ : 0 < S_.numel
  bcast_S10000_S10000x1_0 : S10000.BroadcastsInDim S10000x1 (![0] : Fin 1 → Fin S10000x1.rank)
  bcast_S10000x1_S10000x2_0_1 : S10000x1.BroadcastsInDim S10000x2 (![0, 1] : Fin 2 → Fin S10000x2.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x2208_S2208x512_S10000x512_1_0_0_1_n_n_wf : DotDims.WF S10000x2208 S2208x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x512_S10000x512_1_0_0_1_n_n_wf : DotDims.WF S10000x512 S512x512 S10000x512 [1] [0] [0] [1] [] []
  dot_S10000x512_S512x2_S10000x2_1_0_0_1_n_n_wf : DotDims.WF S10000x512 S512x2 S10000x2 [1] [0] [0] [1] [] []
  gather_S10000x2_S170000x1_S170000x2_1_0_n_n_0_1_12_wf : GatherDims.WF S10000x2 S170000x1 S170000x2 [1] [0] [] [0] [] 1 ![1, 2]
  scatter_S10000x2_S170000x1_S170000x2_1_0_0_1_wf : ScatterDims.WF S10000x2 S170000x1 S170000x2 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x2208_S2208x512_S10000x512_1_0_0_1_n_n : DotDims S10000x2208 S2208x512 S10000x512 where
  lhsContracting := [1]
  rhsContracting := [0]
  lhsNonContracting := [0]
  rhsNonContracting := [1]
  lhsBatch := []
  rhsBatch := []
  wf := dot_S10000x2208_S2208x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x2_S10000x2_1_0_0_1_n_n : DotDims S10000x512 S512x2 S10000x2 where
  lhsContracting := [1]
  rhsContracting := [0]
  lhsNonContracting := [0]
  rhsNonContracting := [1]
  lhsBatch := []
  rhsBatch := []
  wf := dot_S10000x512_S512x2_S10000x2_1_0_0_1_n_n_wf
def gather_S10000x2_S170000x1_S170000x2_1_0_n_n_0_1_12 : GatherDims S10000x2 S170000x1 S170000x2 where
  offsetDims := [1]
  collapsedSliceDims := [0]
  operandBatchingDims := []
  startIndicesBatchingDims := []
  startIndexMap := [0]
  indexVectorDim := 1
  sliceSizes := ![1, 2]
  wf := gather_S10000x2_S170000x1_S170000x2_1_0_n_n_0_1_12_wf
def scatter_S10000x2_S170000x1_S170000x2_1_0_0_1 : ScatterDims S10000x2 S170000x1 S170000x2 where
  updateWindowDims := [1]
  insertedWindowDims := [0]
  scatterDimsToOperandDims := [0]
  indexVectorDim := 1
  wf := scatter_S10000x2_S170000x1_S170000x2_1_0_0_1_wf

class Facts : Prop extends Facts₀ where

variable [Facts]
-- ==== Proof.K.RunCond.lean ====
import proofs.«401117_j39195871543847_2_alg».proof.Proof.Gen.Kernel.Regions

set_option maxRecDepth 1196

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c)) :
    θ_run defs (onTc (τ := τ) (main (F := F))) ⟨m, fun _ => 0, ρ⟩ (fun r => ∀ c : Dev nD,
      r.2.mem ((c.tc : Thread nD τ).loc main_v81) = V15 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          StableHlo.seq hostOps7_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, hpre1 c, (hpost1 c).trans (hpre2 c), hpost2 c, hpre3 c, (hpost3 c).trans (hpre4 c), hpost4 c, hpre5 c, (hpost5 c).trans (hpre6 c), hpost6 c, .rfl, sep_mono .rfl (hE7 c)⟩)
    (hinit := ?_) (QY := _)
    (hfin := fun c s' => ?_) (hQ := fun _ h => h)
  · refine (sep_mono (bigSep_mono fun c _ => sep_mono (Entails.of_eq (Pipeline.unscopedBufs_held c (V0 m c))) .rfl) .rfl).trans ?_
    rw [bigSep_sep']
    iintro ⟨⟨Hh, Hr⟩, Hla⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      have k := fun (b : Ref sig .tc) hb => h (Proc.devRef .tc b) (Finset.mem_filter.mpr ⟨StableHlo.devRef_mem_tcRefs b, hb⟩)
      exact ⟨k main_v81 (by decide), (k main_arg0 (by decide)).trans (V15_main_arg0 m outs c), (k main_arg1 (by decide)).trans (V15_main_arg1 m outs c), (k main_arg2 (by decide)).trans (V15_main_arg2 m outs c), (k main_arg3 (by decide)).trans (V15_main_arg3 m outs c),
        (k main_arg4 (by decide)).trans (V15_main_arg4 m outs c), (k main_arg5 (by decide)).trans (V15_main_arg5 m outs c), (k main_arg6 (by decide)).trans (V15_main_arg6 m outs c), (k main_arg7 (by decide)).trans (V15_main_arg7 m outs c),
        (k main_arg8 (by decide)).trans (V15_main_arg8 m outs c), (k main_arg9 (by decide)).trans (V15_main_arg9 m outs c), (k main_arg10 (by decide)).trans (V15_main_arg10 m outs c)⟩
    · iexact HSI

end Cert.Kernel.Hand

end
-- ==== Proof.K.Dense0.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Writes
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2560x2208 := Rect.unit (s := S2560x2208) ![0, 0] S2560x2208.size inb_S2560x2208_S2560x2208_0_0

abbrev r0_1 : Rect S2208x512 := Rect.unit (s := S2208x512) ![0, 0] S2208x512.size inb_S2208x512_S2208x512_0_0

abbrev r0_2 : Rect S2560x512 := Rect.unit (s := S2560x512) ![0, 0] S2560x512.size inb_S2560x512_S2560x512_0_0

def out0_2 (x0 : Vec F S2560x2208 .bf16) (x1 : Vec F S2208x512 .bf16) : Vec F S2560x512 .bf16 :=
  View.canon [⟨r0_2, k0_pay1 (View.ld x0 r0_0) (View.ld x1 r0_1)⟩]

set_option maxHeartbeats 1000000 in
theorem sound_kernel0 (c : Dev nD) (E : Set ℕ) (i : grid0.Coords)
    (arg1 : Memref sig .tc .vmem S2560x2208 .bf16) (harg1 : arg1.IsWhole)
    (arg2 : Memref sig .tc .vmem S2208x512 .bf16) (harg2 : arg2.IsWhole)
    (arg3 : Memref sig .tc .vmem S2560x512 .bf16) (harg3 : arg3.IsWhole)
    (x0 : Vec F S2560x2208 .bf16) (x1 : Vec F S2208x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dense_gemm_kernel i arg1 harg1 arg2 harg2 arg3 harg3) K := by
  simp only [cc0__dense_gemm_kernel_eq_skeleton]; unfold cc0__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2560x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)) := by
  unfold bodyAt0
  simp only [before0_0, before0_1]
  rw [show (dat0 V c).after 0 t = iblk0 V c 0 t from rfl, show (dat0 V c).after 1 t = iblk0 V c 1 t from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LibWhole.lean ====
import Idealize.ShloMosaic.Lib.Pipeline.FrameBody
import Idealize.ShloMosaic.Lib.Pipeline.Value

noncomputable section

namespace Cert.Proof.LibWhole

open Idealize.ShloMosaic Idealize.ShloMosaic.TcCoe
open Idealize.ShloMosaic.Pipeline (Dat Cfg Window BodyObligation cellOf)

variable {F : FTy → Type} [FloatOps F] {sig : RefSig}

theorem off00 : (![0, 0] : Fin 2 → ℕ) = fun _ => 0 := by funext a; fin_cases a <;> rfl

/-- The last store, through the whole-shape rectangle, is what a read finds. -/
theorem read_writes_whole_cons {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load through the whole-shape rectangle of a whole memref reads its contents. -/
theorem readAt_whole_unread {κ : Kind} {sp : Space} {S : Shape} {e : EltTy} {m : Memref sig κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X :=
  (View.readAt_eq_ld _ _ _).trans ((congrArg (fun Y => View.ld Y (Rect.unit off S.size inb)) (hm.read_unread X)).trans
    (View.ld_unit_zero h inb X))

end Cert.Proof.LibWhole

end
-- ==== Proof.K.Agg1.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
import proofs.«401117_j39195871543847_2_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1

theorem hcond1_1 : ∀ t : Fin cfg1.N, cond1_1 (grid1.coords t) ↔ t.val % 10 = 9 :=
  (by decide +kernel : ∀ t : Fin grid1.N, cond1_1 (grid1.coords t) ↔ t.val % 10 = 9)

theorem liveAt1 : ∀ (w : Fin cfg1.W) (t : Fin cfg1.N), w ≠ 3 → cfg1.idle w (grid1.coords t) = false := by decide +kernel

theorem idleAt1_3 : ∀ t : Fin cfg1.N, ¬t.val % 10 = 9 → cfg1.idle 3 (grid1.coords t) = true := by decide +kernel
theorem noFlush1_3 (t : Fin cfg1.N) (h1 : ¬t.val % 10 = 9) : (cfg1.win 3).flush t = false :=
  Bool.eq_false_iff.mpr fun h => h1 ((flush1_3 t).mp h)
theorem liveAt1_3 : ∀ t : Fin cfg1.N, t.val % 10 = 9 → cfg1.idle 3 (grid1.coords t) = false := by decide +kernel

abbrev ms1_3 (t : Fin cfg1.N) : Memref sig .tc .vmem S5120x512 .bf16 := win1_3.stage (cfg1.slots t 3)

abbrev scM1_0 : Memref sig .tc .vmem S5120x512 .f32 := Memref.whole cc1_scratch0

-- One run of the body: the accumulator restarts from zero when the step is 0; the output block is written only at the last step.
set_option maxHeartbeats 1000000 in
theorem kernelRun1 (c : Dev nD) (i : grid1.Coords)
    (arg2 : Memref sig .tc .vmem S5120x1024 .bf16) (harg2 : arg2.IsWhole) (arg3 : Memref sig .tc .vmem S1024x512 .bf16) (harg3 : arg3.IsWhole)
    (arg4 : Memref sig .tc .vmem S1x512 .f32) (harg4 : arg4.IsWhole) (arg5 : Memref sig .tc .vmem S5120x512 .bf16) (harg5 : arg5.IsWhole)
    (arg6 : Memref sig .tc .vmem S5120x512 .f32) (harg6 : arg6.IsWhole) (hx : cond1_0 i → ¬cond1_1 i)
    (x0 : Vec F S5120x1024 .bf16) (x1 : Vec F S1024x512 .bf16) (x2 : Vec F S1x512 .f32) (xi3 : Vec F S5120x512 .bf16) (xs : Vec F S5120x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond1_1 i then k1_pay3 (k1_pay2 x0 x1 (if cond1_0 i then k1_pay1 else xs)) x2 else xi3)
            ∗ owns (c : Thread nD τ) arg6 fullShare (k1_pay2 x0 x1 (if cond1_0 i then k1_pay1 else xs))) -∗ K ⟨⟩))
      ⊢ wp frame (wpE (defs₀ (F := F)) Variants.none c none) E (cc1_kernel i arg2 harg2 arg3 harg3 arg4 harg4 arg5 harg5 arg6 harg6) K := by
  by_cases hc0 : cond1_0 i <;> by_cases hc1 : cond1_1 i
  · exact absurd hc1 (hx hc0)
  all_goals
    first | rw [if_pos hc0] | rw [if_neg hc0]
    first | rw [if_pos hc1] | rw [if_neg hc1]
    simp only [cc1_kernel_eq_skeleton]; unfold cc1_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
        | (sl_unfold_run_names
           rw [read_writes_whole_cons _ _ off00, View.readCov_unit_zero _ off00, readAt_whole_unread harg2 off00, readAt_whole_unread harg3 off00,
             readAt_whole_unread harg6 off00, readAt_whole_unread harg4 off00])
        | exact harg5.read_unread _
    iexists _; isplitr
    swap; · iexact HS
    ipureintro
    sl_unfold_run_names
    first
      | rw [read_writes_whole_cons _ _ off00, readAt_whole_unread harg2 off00, readAt_whole_unread harg3 off00, readAt_whole_unread harg6 off00]
      | rw [read_writes_whole_cons _ _ off00, readAt_whole_unread harg2 off00, readAt_whole_unread harg3 off00, View.readCov_unit_zero _ off00]

-- The accumulator after point `t`: the product of the two blocks added to zero at step 0, to the previous accumulator otherwise.
def soutsAt1 (c : Dev nD) : (t : ℕ) → (ht : t < cfg1.N) → Vec F S5120x512 .f32
  | 0, ht => k1_pay2 (iblk1 V c 0 ⟨0, ht⟩) (iblk1 V c 1 ⟨0, ht⟩) k1_pay1
  | n + 1, ht =>
    k1_pay2 (iblk1 V c 0 ⟨n + 1, ht⟩) (iblk1 V c 1 ⟨n + 1, ht⟩)
      (if (n + 1) % 10 = 0 then k1_pay1 else soutsAt1 c n (Nat.lt_of_succ_lt ht))

theorem soutsAt1_zero (c : Dev nD) (t : Fin cfg1.N) (h0 : t.val % 10 = 0) :
    soutsAt1 V c t.val t.isLt = k1_pay2 (iblk1 V c 0 t) (iblk1 V c 1 t) k1_pay1 := by
  obtain ⟨n, hn⟩ := t
  cases n with
  | zero => rfl
  | succ n =>
    show k1_pay2 _ _ (if (n + 1) % 10 = 0 then k1_pay1 else soutsAt1 V c n _) = _
    rw [if_pos h0]

theorem soutsAt1_pos (c : Dev nD) (t : Fin cfg1.N) (h0 : ¬t.val % 10 = 0) :
    soutsAt1 V c t.val t.isLt = k1_pay2 (iblk1 V c 0 t) (iblk1 V c 1 t)
      (soutsAt1 V c (t.val - 1) (Nat.lt_of_le_of_lt (Nat.sub_le _ _) t.isLt)) := by
  obtain ⟨n, hn⟩ := t
  cases n with
  | zero => exact absurd (Nat.zero_mod _) h0
  | succ n =>
    show k1_pay2 _ _ (if (n + 1) % 10 = 0 then k1_pay1 else soutsAt1 V c n _) = _
    rw [if_neg h0]; rfl

def outsAt1 (c : Dev nD) (t : Fin cfg1.N) : Vec F S5120x512 .bf16 :=
  k1_pay3 (soutsAt1 V c t.val t.isLt) (iblk1 V c 2 t)

def PhiS1 (c : Dev nD) : (n : ℕ) → n ≤ cfg1.N → sProp 𝕄
  | 0, _ => iprop(iprop(∃ d, owns (c : Thread nD τ) scM1_0 fullShare d) ∗ (∃ r, prngReg c r) ∗ Pipeline.scopedRestBut spec1 c [cc1_scratch0])
  | n + 1, hn => iprop(owns (c : Thread nD τ) scM1_0 fullShare (soutsAt1 V c n hn) ∗ (∃ r, prngReg c r) ∗ Pipeline.scopedRestBut spec1 c [cc1_scratch0])

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem leaves1 (c : Dev nD) (w : Fin cfg1.W) (hw : w ≠ 3) (t : Fin cfg1.N) :
    (dat1 V c).leavesExact w t = owns (c : Thread nD τ) ((cfg1.win w).stage (cfg1.slots t w)) fullShare ((dat1 V c).after w t) := by
  unfold Dat.leavesExact; rw [liveAt1 w t hw]

-- Before a point the accumulator holds what the point before left; before the first point, anything.
theorem PhiS1_open (c : Dev nD) (n : ℕ) (h : n ≤ cfg1.N) :
    PhiS1 V c n h ⊢ iprop(∃ xs, ⌜∀ hn : n ≠ 0, xs = soutsAt1 V c (n - 1) (by omega)⌝
      ∗ owns (c : Thread nD τ) scM1_0 fullShare xs ∗ (∃ r, prngReg c r) ∗ Pipeline.scopedRestBut spec1 c [cc1_scratch0]) := by
  cases n with
  | zero =>
    rw [PhiS1]
    iintro ⟨⟨%d, HS⟩, HR⟩
    iexists d; isplitr; · ipureintro; exact fun h => absurd rfl h
    iframe
  | succ n =>
    rw [PhiS1]
    iintro H
    iexists _; isplitr
    swap; · iexact H
    ipureintro; exact fun _ => rfl

-- The recursion of `soutsAt1`, its two cases in one equation.
theorem soutsAt1_eq (c : Dev nD) (t : Fin cfg1.N) (xs : Vec F S5120x512 .f32)
    (hxs : t.val ≠ 0 → xs = soutsAt1 V c (t.val - 1) (Nat.lt_of_le_of_lt (Nat.sub_le _ _) t.isLt)) :
    k1_pay2 (iblk1 V c 0 t) (iblk1 V c 1 t) (if cond1_0 (grid1.coords t) then k1_pay1 else xs) = soutsAt1 V c t.val t.isLt := by
  by_cases h0 : t.val % 10 = 0
  · rw [if_pos ((hcond1_0 t).mpr h0), soutsAt1_zero V c t h0]
  · rw [if_neg (mt (hcond1_0 t).mp h0), soutsAt1_pos V c t h0, hxs fun hz => h0 (by rw [hz])]

-- At the last step the output block is `k1_pay3` of the accumulator and the third block; elsewhere it is left as found.
theorem leaves1_3 (c : Dev nD) (t : Fin cfg1.N) (d) (a : Vec F S5120x512 .f32) (ha : a = soutsAt1 V c t.val t.isLt) :
    owns (c : Thread nD τ) (ms1_3 t) fullShare (if cond1_1 (grid1.coords t) then k1_pay3 a (iblk1 V c 2 t) else (dat1 V c).before 3 t d)
      ⊢ (dat1 V c).leavesExact 3 t := by
  subst ha
  by_cases h1 : t.val % 10 = 9
  · rw [if_pos ((hcond1_1 t).mpr h1), show (dat1 V c).leavesExact 3 t = owns (c : Thread nD τ) (ms1_3 t) fullShare ((dat1 V c).after 3 t) from by
      unfold Dat.leavesExact; rw [liveAt1_3 t h1], after1_3]
    unfold outsAt1
    iintro H; iexact H
  · rw [if_neg (mt (hcond1_1 t).mp h1), Dat.leavesExact_idle (dat1 V c) 3 t (idleAt1_3 t h1) (noFlush1_3 t h1)]
    iintro H; iexists _; iexact H

-- The body at any point: one run, framed by the invariant and the four blocks.
theorem sound_body1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop(iprop(owns (c : Thread nD τ) scM1_0 fullShare (soutsAt1 V c t.val t.isLt) ∗ (∃ r, prngReg c r) ∗ Pipeline.scopedRestBut spec1 c [cc1_scratch0])
        ∗ (dat1 V c).owesAt () t.castSucc
        ∗ (dat1 V c).leavesExact 0 t ∗ (dat1 V c).leavesExact 1 t ∗ (dat1 V c).leavesExact 2 t ∗ (dat1 V c).leavesExact 3 t)) := by
  unfold bodyAt1
  simp only [before1_0, before1_1, before1_2]
  rw [leaves1 V c 0 (by decide), leaves1 V c 1 (by decide), leaves1 V c 2 (by decide), after1_0, after1_1, after1_2]
  refine (sep_mono_left (PhiS1_open V c t.val (Nat.le_of_lt t.isLt))).trans ?_
  iintro ⟨⟨%xs, %hxs, HS, Hg, HR⟩, Ho, ⟨%d0, H0⟩, ⟨%d1, H1⟩, ⟨%d2, H2⟩, ⟨%d3, H3⟩⟩
  rw [← soutsAt1_eq V c t xs hxs]
  iapply (kernelRun1 c (grid1.coords t) _ _ _ _ _ _ _ _ _ _
    (fun h0 h1 => by have := (hcond1_0 t).mp h0; have := (hcond1_1 t).mp h1; omega)
    (iblk1 V c 0 t) (iblk1 V c 1 t) (iblk1 V c 2 t) ((dat1 V c).before 3 t d3) xs Set.univ _)
  iframe H0 H1 H2 H3 HS
  iintro ⟨H0, H1, H2, H3, HS⟩
  iframe HS Hg HR Ho H0 H1 H2
  iapply (leaves1_3 V c t d3 _ (soutsAt1_eq V c t xs hxs))
  iexact H3

theorem body_obligation1 (c : Dev nD) : BodyObligation (dat1 (F := F) V c) (defs₀ (F := F)) Variants.none () Set.univ := fun t => by
  rw [bigSep_W1, bigSep_W1]
  exact sound_body1 V c t

theorem Phi1_intro (c : Dev nD) :
    iprop((∃ r, prngReg c r) ∗ Pipeline.scopedRest spec1 c) ⊢ (dat1 V c).Φ 0 := by
  rw [show (dat1 V c).Φ 0 = PhiS1 V c 0 (Nat.zero_le _) from rfl, PhiS1, scopedRest1_split]
  simp only [scM1_0, owns_whole]
  iintro ⟨Hg, HS, HR⟩
  iframe

theorem Phi1_elim (c : Dev nD) :
    (dat1 V c).Φ (Fin.last cfg1.N) ⊢ iprop((∃ r, prngReg c r) ∗ Pipeline.scopedRest spec1 c) := by
  refine (PhiS1_open V c cfg1.N le_rfl).trans ?_
  rw [scopedRest1_split]
  simp only [scM1_0, owns_whole]
  iintro ⟨%xs, -, HS, Hg, HR⟩
  iframe Hg HR
  iexists _; iexact HS

end Cert.Kernel.Hand

end
-- ==== Proof.K.Dense2.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Writes
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5120x512 := Rect.unit (s := S5120x512) ![0, 0] S5120x512.size inb_S5120x512_S5120x512_0_0

abbrev r2_1 : Rect S512x512 := Rect.unit (s := S512x512) ![0, 0] S512x512.size inb_S512x512_S512x512_0_0

abbrev r2_2 : Rect S5120x512 := Rect.unit (s := S5120x512) ![0, 0] S5120x512.size inb_S5120x512_S5120x512_0_0

def out2_2 (x0 : Vec F S5120x512 .bf16) (x1 : Vec F S512x512 .bf16) : Vec F S5120x512 .bf16 :=
  View.canon [⟨r2_2, k2_pay1 (View.ld x0 r2_0) (View.ld x1 r2_1)⟩]

set_option maxHeartbeats 1000000 in
theorem sound_kernel2 (c : Dev nD) (E : Set ℕ) (i : grid2.Coords)
    (arg1 : Memref sig .tc .vmem S5120x512 .bf16) (harg1 : arg1.IsWhole)
    (arg2 : Memref sig .tc .vmem S512x512 .bf16) (harg2 : arg2.IsWhole)
    (arg3 : Memref sig .tc .vmem S5120x512 .bf16) (harg3 : arg3.IsWhole)
    (x0 : Vec F S5120x512 .bf16) (x1 : Vec F S512x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_gemm_kernel i arg1 harg1 arg2 harg2 arg3 harg3) K := by
  simp only [cc2__dense_gemm_kernel_eq_skeleton]; unfold cc2__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5120x512.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop((dat2 V c).Φ t.castSucc ∗ (dat2 V c).owesAt () t.castSucc
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)) := by
  unfold bodyAt2
  simp only [before2_0, before2_1]
  rw [show (dat2 V c).after 0 t = iblk2 V c 0 t from rfl, show (dat2 V c).after 1 t = iblk2 V c 1 t from rfl, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Agg3.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
import proofs.«401117_j39195871543847_2_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1

theorem hcond3_1 : ∀ t : Fin cfg3.N, cond3_1 (grid3.coords t) ↔ t.val % 10 = 9 :=
  (by decide +kernel : ∀ t : Fin grid3.N, cond3_1 (grid3.coords t) ↔ t.val % 10 = 9)

theorem liveAt3 : ∀ (w : Fin cfg3.W) (t : Fin cfg3.N), w ≠ 3 → cfg3.idle w (grid3.coords t) = false := by decide +kernel

theorem idleAt3_3 : ∀ t : Fin cfg3.N, ¬t.val % 10 = 9 → cfg3.idle 3 (grid3.coords t) = true := by decide +kernel
theorem noFlush3_3 (t : Fin cfg3.N) (h1 : ¬t.val % 10 = 9) : (cfg3.win 3).flush t = false :=
  Bool.eq_false_iff.mpr fun h => h1 ((flush3_3 t).mp h)
theorem liveAt3_3 : ∀ t : Fin cfg3.N, t.val % 10 = 9 → cfg3.idle 3 (grid3.coords t) = false := by decide +kernel

abbrev ms3_3 (t : Fin cfg3.N) : Memref sig .tc .vmem S5120x512 .bf16 := win3_3.stage (cfg3.slots t 3)

abbrev scM3_0 : Memref sig .tc .vmem S5120x512 .f32 := Memref.whole cc3_scratch0

-- One run of the body: the accumulator restarts from zero when the step is 0; the output block is written only at the last step.
set_option maxHeartbeats 1000000 in
theorem kernelRun3 (c : Dev nD) (i : grid3.Coords)
    (arg2 : Memref sig .tc .vmem S5120x1024 .bf16) (harg2 : arg2.IsWhole) (arg3 : Memref sig .tc .vmem S1024x512 .bf16) (harg3 : arg3.IsWhole)
    (arg4 : Memref sig .tc .vmem S1x512 .f32) (harg4 : arg4.IsWhole) (arg5 : Memref sig .tc .vmem S5120x512 .bf16) (harg5 : arg5.IsWhole)
    (arg6 : Memref sig .tc .vmem S5120x512 .f32) (harg6 : arg6.IsWhole) (hx : cond3_0 i → ¬cond3_1 i)
    (x0 : Vec F S5120x1024 .bf16) (x1 : Vec F S1024x512 .bf16) (x2 : Vec F S1x512 .f32) (xi3 : Vec F S5120x512 .bf16) (xs : Vec F S5120x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond3_1 i then k3_pay3 (k3_pay2 x0 x1 (if cond3_0 i then k3_pay1 else xs)) x2 else xi3)
            ∗ owns (c : Thread nD τ) arg6 fullShare (k3_pay2 x0 x1 (if cond3_0 i then k3_pay1 else xs))) -∗ K ⟨⟩))
      ⊢ wp frame (wpE (defs₀ (F := F)) Variants.none c none) E (cc3_kernel i arg2 harg2 arg3 harg3 arg4 harg4 arg5 harg5 arg6 harg6) K := by
  by_cases hc0 : cond3_0 i <;> by_cases hc1 : cond3_1 i
  · exact absurd hc1 (hx hc0)
  all_goals
    first | rw [if_pos hc0] | rw [if_neg hc0]
    first | rw [if_pos hc1] | rw [if_neg hc1]
    simp only [cc3_kernel_eq_skeleton]; unfold cc3_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
        | (sl_unfold_run_names
           rw [read_writes_whole_cons _ _ off00, View.readCov_unit_zero _ off00, readAt_whole_unread harg2 off00, readAt_whole_unread harg3 off00,
             readAt_whole_unread harg6 off00, readAt_whole_unread harg4 off00])
        | exact harg5.read_unread _
    iexists _; isplitr
    swap; · iexact HS
    ipureintro
    sl_unfold_run_names
    first
      | rw [read_writes_whole_cons _ _ off00, readAt_whole_unread harg2 off00, readAt_whole_unread harg3 off00, readAt_whole_unread harg6 off00]
      | rw [read_writes_whole_cons _ _ off00, readAt_whole_unread harg2 off00, readAt_whole_unread harg3 off00, View.readCov_unit_zero _ off00]

-- The accumulator after point `t`: the product of the two blocks added to zero at step 0, to the previous accumulator otherwise.
def soutsAt3 (c : Dev nD) : (t : ℕ) → (ht : t < cfg3.N) → Vec F S5120x512 .f32
  | 0, ht => k3_pay2 (iblk3 V c 0 ⟨0, ht⟩) (iblk3 V c 1 ⟨0, ht⟩) k3_pay1
  | n + 1, ht =>
    k3_pay2 (iblk3 V c 0 ⟨n + 1, ht⟩) (iblk3 V c 1 ⟨n + 1, ht⟩)
      (if (n + 1) % 10 = 0 then k3_pay1 else soutsAt3 c n (Nat.lt_of_succ_lt ht))

theorem soutsAt3_zero (c : Dev nD) (t : Fin cfg3.N) (h0 : t.val % 10 = 0) :
    soutsAt3 V c t.val t.isLt = k3_pay2 (iblk3 V c 0 t) (iblk3 V c 1 t) k3_pay1 := by
  obtain ⟨n, hn⟩ := t
  cases n with
  | zero => rfl
  | succ n =>
    show k3_pay2 _ _ (if (n + 1) % 10 = 0 then k3_pay1 else soutsAt3 V c n _) = _
    rw [if_pos h0]

theorem soutsAt3_pos (c : Dev nD) (t : Fin cfg3.N) (h0 : ¬t.val % 10 = 0) :
    soutsAt3 V c t.val t.isLt = k3_pay2 (iblk3 V c 0 t) (iblk3 V c 1 t)
      (soutsAt3 V c (t.val - 1) (Nat.lt_of_le_of_lt (Nat.sub_le _ _) t.isLt)) := by
  obtain ⟨n, hn⟩ := t
  cases n with
  | zero => exact absurd (Nat.zero_mod _) h0
  | succ n =>
    show k3_pay2 _ _ (if (n + 1) % 10 = 0 then k3_pay1 else soutsAt3 V c n _) = _
    rw [if_neg h0]; rfl

def outsAt3 (c : Dev nD) (t : Fin cfg3.N) : Vec F S5120x512 .bf16 :=
  k3_pay3 (soutsAt3 V c t.val t.isLt) (iblk3 V c 2 t)

def PhiS3 (c : Dev nD) : (n : ℕ) → n ≤ cfg3.N → sProp 𝕄
  | 0, _ => iprop(iprop(∃ d, owns (c : Thread nD τ) scM3_0 fullShare d) ∗ (∃ r, prngReg c r) ∗ Pipeline.scopedRestBut spec3 c [cc3_scratch0])
  | n + 1, hn => iprop(owns (c : Thread nD τ) scM3_0 fullShare (soutsAt3 V c n hn) ∗ (∃ r, prngReg c r) ∗ Pipeline.scopedRestBut spec3 c [cc3_scratch0])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem leaves3 (c : Dev nD) (w : Fin cfg3.W) (hw : w ≠ 3) (t : Fin cfg3.N) :
    (dat3 V c).leavesExact w t = owns (c : Thread nD τ) ((cfg3.win w).stage (cfg3.slots t w)) fullShare ((dat3 V c).after w t) := by
  unfold Dat.leavesExact; rw [liveAt3 w t hw]

-- Before a point the accumulator holds what the point before left; before the first point, anything.
theorem PhiS3_open (c : Dev nD) (n : ℕ) (h : n ≤ cfg3.N) :
    PhiS3 V c n h ⊢ iprop(∃ xs, ⌜∀ hn : n ≠ 0, xs = soutsAt3 V c (n - 1) (by omega)⌝
      ∗ owns (c : Thread nD τ) scM3_0 fullShare xs ∗ (∃ r, prngReg c r) ∗ Pipeline.scopedRestBut spec3 c [cc3_scratch0]) := by
  cases n with
  | zero =>
    rw [PhiS3]
    iintro ⟨⟨%d, HS⟩, HR⟩
    iexists d; isplitr; · ipureintro; exact fun h => absurd rfl h
    iframe
  | succ n =>
    rw [PhiS3]
    iintro H
    iexists _; isplitr
    swap; · iexact H
    ipureintro; exact fun _ => rfl

-- The recursion of `soutsAt3`, its two cases in one equation.
theorem soutsAt3_eq (c : Dev nD) (t : Fin cfg3.N) (xs : Vec F S5120x512 .f32)
    (hxs : t.val ≠ 0 → xs = soutsAt3 V c (t.val - 1) (Nat.lt_of_le_of_lt (Nat.sub_le _ _) t.isLt)) :
    k3_pay2 (iblk3 V c 0 t) (iblk3 V c 1 t) (if cond3_0 (grid3.coords t) then k3_pay1 else xs) = soutsAt3 V c t.val t.isLt := by
  by_cases h0 : t.val % 10 = 0
  · rw [if_pos ((hcond3_0 t).mpr h0), soutsAt3_zero V c t h0]
  · rw [if_neg (mt (hcond3_0 t).mp h0), soutsAt3_pos V c t h0, hxs fun hz => h0 (by rw [hz])]

-- At the last step the output block is `k3_pay3` of the accumulator and the third block; elsewhere it is left as found.
theorem leaves3_3 (c : Dev nD) (t : Fin cfg3.N) (d) (a : Vec F S5120x512 .f32) (ha : a = soutsAt3 V c t.val t.isLt) :
    owns (c : Thread nD τ) (ms3_3 t) fullShare (if cond3_1 (grid3.coords t) then k3_pay3 a (iblk3 V c 2 t) else (dat3 V c).before 3 t d)
      ⊢ (dat3 V c).leavesExact 3 t := by
  subst ha
  by_cases h1 : t.val % 10 = 9
  · rw [if_pos ((hcond3_1 t).mpr h1), show (dat3 V c).leavesExact 3 t = owns (c : Thread nD τ) (ms3_3 t) fullShare ((dat3 V c).after 3 t) from by
      unfold Dat.leavesExact; rw [liveAt3_3 t h1], after3_3]
    unfold outsAt3
    iintro H; iexact H
  · rw [if_neg (mt (hcond3_1 t).mp h1), Dat.leavesExact_idle (dat3 V c) 3 t (idleAt3_3 t h1) (noFlush3_3 t h1)]
    iintro H; iexists _; iexact H

-- The body at any point: one run, framed by the invariant and the four blocks.
theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (ms3_3 t) fullShare ((dat3 V c).before 3 t d)))
    ⊢ wp frame (wpE (defs₀ (F := F)) Variants.none c none) Set.univ (bodyAt3 t) (fun _ =>
      iprop(iprop(owns (c : Thread nD τ) scM3_0 fullShare (soutsAt3 V c t.val t.isLt) ∗ (∃ r, prngReg c r) ∗ Pipeline.scopedRestBut spec3 c [cc3_scratch0])
        ∗ (dat3 V c).owesAt () t.castSucc
        ∗ (dat3 V c).leavesExact 0 t ∗ (dat3 V c).leavesExact 1 t ∗ (dat3 V c).leavesExact 2 t ∗ (dat3 V c).leavesExact 3 t)) := by
  unfold bodyAt3
  simp only [before3_0, before3_1, before3_2]
  rw [leaves3 V c 0 (by decide), leaves3 V c 1 (by decide), leaves3 V c 2 (by decide), after3_0, after3_1, after3_2]
  refine (sep_mono_left (PhiS3_open V c t.val (Nat.le_of_lt t.isLt))).trans ?_
  iintro ⟨⟨%xs, %hxs, HS, Hg, HR⟩, Ho, ⟨%d0, H0⟩, ⟨%d1, H1⟩, ⟨%d2, H2⟩, ⟨%d3, H3⟩⟩
  rw [← soutsAt3_eq V c t xs hxs]
  iapply (kernelRun3 c (grid3.coords t) _ _ _ _ _ _ _ _ _ _
    (fun h0 h1 => by have := (hcond3_0 t).mp h0; have := (hcond3_1 t).mp h1; omega)
    (iblk3 V c 0 t) (iblk3 V c 1 t) (iblk3 V c 2 t) ((dat3 V c).before 3 t d3) xs Set.univ _)
  iframe H0 H1 H2 H3 HS
  iintro ⟨H0, H1, H2, H3, HS⟩
  iframe HS Hg HR Ho H0 H1 H2
  iapply (leaves3_3 V c t d3 _ (soutsAt3_eq V c t xs hxs))
  iexact H3

theorem body_obligation3 (c : Dev nD) : BodyObligation (dat3 (F := F) V c) (defs₀ (F := F)) Variants.none () Set.univ := fun t => by
  rw [bigSep_W3, bigSep_W3]
  exact sound_body3 V c t

theorem Phi3_intro (c : Dev nD) :
    iprop((∃ r, prngReg c r) ∗ Pipeline.scopedRest spec3 c) ⊢ (dat3 V c).Φ 0 := by
  rw [show (dat3 V c).Φ 0 = PhiS3 V c 0 (Nat.zero_le _) from rfl, PhiS3, scopedRest3_split]
  simp only [scM3_0, owns_whole]
  iintro ⟨Hg, HS, HR⟩
  iframe

theorem Phi3_elim (c : Dev nD) :
    (dat3 V c).Φ (Fin.last cfg3.N) ⊢ iprop((∃ r, prngReg c r) ∗ Pipeline.scopedRest spec3 c) := by
  refine (PhiS3_open V c cfg3.N le_rfl).trans ?_
  rw [scopedRest3_split]
  simp only [scM3_0, owns_whole]
  iintro ⟨%xs, -, HS, Hg, HR⟩
  iframe Hg HR
  iexists _; iexact HS

end Cert.Kernel.Hand

end
-- ==== Proof.K.Dense4.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Writes
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5120x512 := Rect.unit (s := S5120x512) ![0, 0] S5120x512.size inb_S5120x512_S5120x512_0_0

abbrev r4_1 : Rect S512x512 := Rect.unit (s := S512x512) ![0, 0] S512x512.size inb_S512x512_S512x512_0_0

abbrev r4_2 : Rect S5120x512 := Rect.unit (s := S5120x512) ![0, 0] S5120x512.size inb_S5120x512_S5120x512_0_0

def out4_2 (x0 : Vec F S5120x512 .bf16) (x1 : Vec F S512x512 .bf16) : Vec F S5120x512 .bf16 :=
  View.canon [⟨r4_2, k4_pay1 (View.ld x0 r4_0) (View.ld x1 r4_1)⟩]

set_option maxHeartbeats 1000000 in
theorem sound_kernel4 (c : Dev nD) (E : Set ℕ) (i : grid4.Coords)
    (arg1 : Memref sig .tc .vmem S5120x512 .bf16) (harg1 : arg1.IsWhole)
    (arg2 : Memref sig .tc .vmem S512x512 .bf16) (harg2 : arg2.IsWhole)
    (arg3 : Memref sig .tc .vmem S5120x512 .bf16) (harg3 : arg3.IsWhole)
    (x0 : Vec F S5120x512 .bf16) (x1 : Vec F S512x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__dense_gemm_kernel i arg1 harg1 arg2 harg2 arg3 harg3) K := by
  simp only [cc4__dense_gemm_kernel_eq_skeleton]; unfold cc4__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5120x512.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) fun _ =>
      iprop((dat4 V c).Φ t.castSucc ∗ (dat4 V c).owesAt () t.castSucc
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t)) := by
  unfold bodyAt4
  simp only [before4_0, before4_1]
  rw [show (dat4 V c).after 0 t = iblk4 V c 0 t from rfl, show (dat4 V c).after 1 t = iblk4 V c 1 t from rfl, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Agg5.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
import proofs.«401117_j39195871543847_2_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1

theorem hcond5_1 : ∀ t : Fin cfg5.N, cond5_1 (grid5.coords t) ↔ t.val % 10 = 9 :=
  (by decide +kernel : ∀ t : Fin grid5.N, cond5_1 (grid5.coords t) ↔ t.val % 10 = 9)

theorem liveAt5 : ∀ (w : Fin cfg5.W) (t : Fin cfg5.N), w ≠ 3 → cfg5.idle w (grid5.coords t) = false := by decide +kernel

theorem idleAt5_3 : ∀ t : Fin cfg5.N, ¬t.val % 10 = 9 → cfg5.idle 3 (grid5.coords t) = true := by decide +kernel
theorem noFlush5_3 (t : Fin cfg5.N) (h1 : ¬t.val % 10 = 9) : (cfg5.win 3).flush t = false :=
  Bool.eq_false_iff.mpr fun h => h1 ((flush5_3 t).mp h)
theorem liveAt5_3 : ∀ t : Fin cfg5.N, t.val % 10 = 9 → cfg5.idle 3 (grid5.coords t) = false := by decide +kernel

abbrev ms5_3 (t : Fin cfg5.N) : Memref sig .tc .vmem S5120x512 .bf16 := win5_3.stage (cfg5.slots t 3)

abbrev scM5_0 : Memref sig .tc .vmem S5120x512 .f32 := Memref.whole cc5_scratch0

-- One run of the body: the accumulator restarts from zero when the step is 0; the output block is written only at the last step.
set_option maxHeartbeats 1000000 in
theorem kernelRun5 (c : Dev nD) (i : grid5.Coords)
    (arg2 : Memref sig .tc .vmem S5120x1024 .bf16) (harg2 : arg2.IsWhole) (arg3 : Memref sig .tc .vmem S1024x512 .bf16) (harg3 : arg3.IsWhole)
    (arg4 : Memref sig .tc .vmem S1x512 .f32) (harg4 : arg4.IsWhole) (arg5 : Memref sig .tc .vmem S5120x512 .bf16) (harg5 : arg5.IsWhole)
    (arg6 : Memref sig .tc .vmem S5120x512 .f32) (harg6 : arg6.IsWhole) (hx : cond5_0 i → ¬cond5_1 i)
    (x0 : Vec F S5120x1024 .bf16) (x1 : Vec F S1024x512 .bf16) (x2 : Vec F S1x512 .f32) (xi3 : Vec F S5120x512 .bf16) (xs : Vec F S5120x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond5_1 i then k5_pay3 (k5_pay2 x0 x1 (if cond5_0 i then k5_pay1 else xs)) x2 else xi3)
            ∗ owns (c : Thread nD τ) arg6 fullShare (k5_pay2 x0 x1 (if cond5_0 i then k5_pay1 else xs))) -∗ K ⟨⟩))
      ⊢ wp frame (wpE (defs₀ (F := F)) Variants.none c none) E (cc5_kernel i arg2 harg2 arg3 harg3 arg4 harg4 arg5 harg5 arg6 harg6) K := by
  by_cases hc0 : cond5_0 i <;> by_cases hc1 : cond5_1 i
  · exact absurd hc1 (hx hc0)
  all_goals
    first | rw [if_pos hc0] | rw [if_neg hc0]
    first | rw [if_pos hc1] | rw [if_neg hc1]
    simp only [cc5_kernel_eq_skeleton]; unfold cc5_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
        | (sl_unfold_run_names
           rw [read_writes_whole_cons _ _ off00, View.readCov_unit_zero _ off00, readAt_whole_unread harg2 off00, readAt_whole_unread harg3 off00,
             readAt_whole_unread harg6 off00, readAt_whole_unread harg4 off00])
        | exact harg5.read_unread _
    iexists _; isplitr
    swap; · iexact HS
    ipureintro
    sl_unfold_run_names
    first
      | rw [read_writes_whole_cons _ _ off00, readAt_whole_unread harg2 off00, readAt_whole_unread harg3 off00, readAt_whole_unread harg6 off00]
      | rw [read_writes_whole_cons _ _ off00, readAt_whole_unread harg2 off00, readAt_whole_unread harg3 off00, View.readCov_unit_zero _ off00]

-- The accumulator after point `t`: the product of the two blocks added to zero at step 0, to the previous accumulator otherwise.
def soutsAt5 (c : Dev nD) : (t : ℕ) → (ht : t < cfg5.N) → Vec F S5120x512 .f32
  | 0, ht => k5_pay2 (iblk5 V c 0 ⟨0, ht⟩) (iblk5 V c 1 ⟨0, ht⟩) k5_pay1
  | n + 1, ht =>
    k5_pay2 (iblk5 V c 0 ⟨n + 1, ht⟩) (iblk5 V c 1 ⟨n + 1, ht⟩)
      (if (n + 1) % 10 = 0 then k5_pay1 else soutsAt5 c n (Nat.lt_of_succ_lt ht))

theorem soutsAt5_zero (c : Dev nD) (t : Fin cfg5.N) (h0 : t.val % 10 = 0) :
    soutsAt5 V c t.val t.isLt = k5_pay2 (iblk5 V c 0 t) (iblk5 V c 1 t) k5_pay1 := by
  obtain ⟨n, hn⟩ := t
  cases n with
  | zero => rfl
  | succ n =>
    show k5_pay2 _ _ (if (n + 1) % 10 = 0 then k5_pay1 else soutsAt5 V c n _) = _
    rw [if_pos h0]

theorem soutsAt5_pos (c : Dev nD) (t : Fin cfg5.N) (h0 : ¬t.val % 10 = 0) :
    soutsAt5 V c t.val t.isLt = k5_pay2 (iblk5 V c 0 t) (iblk5 V c 1 t)
      (soutsAt5 V c (t.val - 1) (Nat.lt_of_le_of_lt (Nat.sub_le _ _) t.isLt)) := by
  obtain ⟨n, hn⟩ := t
  cases n with
  | zero => exact absurd (Nat.zero_mod _) h0
  | succ n =>
    show k5_pay2 _ _ (if (n + 1) % 10 = 0 then k5_pay1 else soutsAt5 V c n _) = _
    rw [if_neg h0]; rfl

def outsAt5 (c : Dev nD) (t : Fin cfg5.N) : Vec F S5120x512 .bf16 :=
  k5_pay3 (soutsAt5 V c t.val t.isLt) (iblk5 V c 2 t)

def PhiS5 (c : Dev nD) : (n : ℕ) → n ≤ cfg5.N → sProp 𝕄
  | 0, _ => iprop(iprop(∃ d, owns (c : Thread nD τ) scM5_0 fullShare d) ∗ (∃ r, prngReg c r) ∗ Pipeline.scopedRestBut spec5 c [cc5_scratch0])
  | n + 1, hn => iprop(owns (c : Thread nD τ) scM5_0 fullShare (soutsAt5 V c n hn) ∗ (∃ r, prngReg c r) ∗ Pipeline.scopedRestBut spec5 c [cc5_scratch0])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

theorem leaves5 (c : Dev nD) (w : Fin cfg5.W) (hw : w ≠ 3) (t : Fin cfg5.N) :
    (dat5 V c).leavesExact w t = owns (c : Thread nD τ) ((cfg5.win w).stage (cfg5.slots t w)) fullShare ((dat5 V c).after w t) := by
  unfold Dat.leavesExact; rw [liveAt5 w t hw]

-- Before a point the accumulator holds what the point before left; before the first point, anything.
theorem PhiS5_open (c : Dev nD) (n : ℕ) (h : n ≤ cfg5.N) :
    PhiS5 V c n h ⊢ iprop(∃ xs, ⌜∀ hn : n ≠ 0, xs = soutsAt5 V c (n - 1) (by omega)⌝
      ∗ owns (c : Thread nD τ) scM5_0 fullShare xs ∗ (∃ r, prngReg c r) ∗ Pipeline.scopedRestBut spec5 c [cc5_scratch0]) := by
  cases n with
  | zero =>
    rw [PhiS5]
    iintro ⟨⟨%d, HS⟩, HR⟩
    iexists d; isplitr; · ipureintro; exact fun h => absurd rfl h
    iframe
  | succ n =>
    rw [PhiS5]
    iintro H
    iexists _; isplitr
    swap; · iexact H
    ipureintro; exact fun _ => rfl

-- The recursion of `soutsAt5`, its two cases in one equation.
theorem soutsAt5_eq (c : Dev nD) (t : Fin cfg5.N) (xs : Vec F S5120x512 .f32)
    (hxs : t.val ≠ 0 → xs = soutsAt5 V c (t.val - 1) (Nat.lt_of_le_of_lt (Nat.sub_le _ _) t.isLt)) :
    k5_pay2 (iblk5 V c 0 t) (iblk5 V c 1 t) (if cond5_0 (grid5.coords t) then k5_pay1 else xs) = soutsAt5 V c t.val t.isLt := by
  by_cases h0 : t.val % 10 = 0
  · rw [if_pos ((hcond5_0 t).mpr h0), soutsAt5_zero V c t h0]
  · rw [if_neg (mt (hcond5_0 t).mp h0), soutsAt5_pos V c t h0, hxs fun hz => h0 (by rw [hz])]

-- At the last step the output block is `k5_pay3` of the accumulator and the third block; elsewhere it is left as found.
theorem leaves5_3 (c : Dev nD) (t : Fin cfg5.N) (d) (a : Vec F S5120x512 .f32) (ha : a = soutsAt5 V c t.val t.isLt) :
    owns (c : Thread nD τ) (ms5_3 t) fullShare (if cond5_1 (grid5.coords t) then k5_pay3 a (iblk5 V c 2 t) else (dat5 V c).before 3 t d)
      ⊢ (dat5 V c).leavesExact 3 t := by
  subst ha
  by_cases h1 : t.val % 10 = 9
  · rw [if_pos ((hcond5_1 t).mpr h1), show (dat5 V c).leavesExact 3 t = owns (c : Thread nD τ) (ms5_3 t) fullShare ((dat5 V c).after 3 t) from by
      unfold Dat.leavesExact; rw [liveAt5_3 t h1], after5_3]
    unfold outsAt5
    iintro H; iexact H
  · rw [if_neg (mt (hcond5_1 t).mp h1), Dat.leavesExact_idle (dat5 V c) 3 t (idleAt5_3 t h1) (noFlush5_3 t h1)]
    iintro H; iexists _; iexact H

-- The body at any point: one run, framed by the invariant and the four blocks.
theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d))
      ∗ (∃ d, owns (c : Thread nD τ) (ms5_3 t) fullShare ((dat5 V c).before 3 t d)))
    ⊢ wp frame (wpE (defs₀ (F := F)) Variants.none c none) Set.univ (bodyAt5 t) (fun _ =>
      iprop(iprop(owns (c : Thread nD τ) scM5_0 fullShare (soutsAt5 V c t.val t.isLt) ∗ (∃ r, prngReg c r) ∗ Pipeline.scopedRestBut spec5 c [cc5_scratch0])
        ∗ (dat5 V c).owesAt () t.castSucc
        ∗ (dat5 V c).leavesExact 0 t ∗ (dat5 V c).leavesExact 1 t ∗ (dat5 V c).leavesExact 2 t ∗ (dat5 V c).leavesExact 3 t)) := by
  unfold bodyAt5
  simp only [before5_0, before5_1, before5_2]
  rw [leaves5 V c 0 (by decide), leaves5 V c 1 (by decide), leaves5 V c 2 (by decide), after5_0, after5_1, after5_2]
  refine (sep_mono_left (PhiS5_open V c t.val (Nat.le_of_lt t.isLt))).trans ?_
  iintro ⟨⟨%xs, %hxs, HS, Hg, HR⟩, Ho, ⟨%d0, H0⟩, ⟨%d1, H1⟩, ⟨%d2, H2⟩, ⟨%d3, H3⟩⟩
  rw [← soutsAt5_eq V c t xs hxs]
  iapply (kernelRun5 c (grid5.coords t) _ _ _ _ _ _ _ _ _ _
    (fun h0 h1 => by have := (hcond5_0 t).mp h0; have := (hcond5_1 t).mp h1; omega)
    (iblk5 V c 0 t) (iblk5 V c 1 t) (iblk5 V c 2 t) ((dat5 V c).before 3 t d3) xs Set.univ _)
  iframe H0 H1 H2 H3 HS
  iintro ⟨H0, H1, H2, H3, HS⟩
  iframe HS Hg HR Ho H0 H1 H2
  iapply (leaves5_3 V c t d3 _ (soutsAt5_eq V c t xs hxs))
  iexact H3

theorem body_obligation5 (c : Dev nD) : BodyObligation (dat5 (F := F) V c) (defs₀ (F := F)) Variants.none () Set.univ := fun t => by
  rw [bigSep_W5, bigSep_W5]
  exact sound_body5 V c t

theorem Phi5_intro (c : Dev nD) :
    iprop((∃ r, prngReg c r) ∗ Pipeline.scopedRest spec5 c) ⊢ (dat5 V c).Φ 0 := by
  rw [show (dat5 V c).Φ 0 = PhiS5 V c 0 (Nat.zero_le _) from rfl, PhiS5, scopedRest5_split]
  simp only [scM5_0, owns_whole]
  iintro ⟨Hg, HS, HR⟩
  iframe

theorem Phi5_elim (c : Dev nD) :
    (dat5 V c).Φ (Fin.last cfg5.N) ⊢ iprop((∃ r, prngReg c r) ∗ Pipeline.scopedRest spec5 c) := by
  refine (PhiS5_open V c cfg5.N le_rfl).trans ?_
  rw [scopedRest5_split]
  simp only [scM5_0, owns_whole]
  iintro ⟨%xs, -, HS, Hg, HR⟩
  iframe Hg HR
  iexists _; iexact HS

end Cert.Kernel.Hand

end
-- ==== Proof.K.Dense6.lean ====
import proofs.«401117_j39195871543847_2_alg».proof.Proof.Gen.Kernel.Launch
import proofs.«401117_j39195871543847_2_alg».proof.Proof.Gen.Kernel.Skeleton
import proofs.«401117_j39195871543847_2_alg».proof.Proof.Gen.Kernel.Points
import Idealize.ShloMosaic.Lib.Pipeline.FrameBody
import Idealize.ShloMosaic.Lib.Writes
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5120x512 := Rect.unit (s := S5120x512) ![0, 0] S5120x512.size inb_S5120x512_S5120x512_0_0

abbrev r6_1 : Rect S512x2 := Rect.unit (s := S512x2) ![0, 0] S512x2.size inb_S512x2_S512x2_0_0

abbrev r6_2 : Rect S5120x2 := Rect.unit (s := S5120x2) ![0, 0] S5120x2.size inb_S5120x2_S5120x2_0_0

def out6_2 (x0 : Vec F S5120x512 .bf16) (x1 : Vec F S512x2 .bf16) : Vec F S5120x2 .f32 :=
  View.canon [⟨r6_2, k6_pay1 (View.ld x0 r6_0) (View.ld x1 r6_1)⟩]

set_option maxHeartbeats 1000000 in
theorem sound_kernel6 (c : Dev nD) (E : Set ℕ) (i : grid6.Coords)
    (arg1 : Memref sig .tc .vmem S5120x512 .bf16) (harg1 : arg1.IsWhole)
    (arg2 : Memref sig .tc .vmem S512x2 .bf16) (harg2 : arg2.IsWhole)
    (arg3 : Memref sig .tc .vmem S5120x2 .f32) (harg3 : arg3.IsWhole)
    (x0 : Vec F S5120x512 .bf16) (x1 : Vec F S512x2 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__dense_gemm_kernel i arg1 harg1 arg2 harg2 arg3 harg3) K := by
  simp only [cc6__dense_gemm_kernel_eq_skeleton]; unfold cc6__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5120x2.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) fun _ =>
      iprop((dat6 V c).Φ t.castSucc ∗ (dat6 V c).owesAt () t.castSucc
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)) := by
  unfold bodyAt6
  simp only [before6_0, before6_1]
  rw [show (dat6 V c).after 0 t = iblk6 V c 0 t from rfl, show (dat6 V c).after 1 t = iblk6 V c 1 t from rfl, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Chain.lean ====
import proofs.«401117_j39195871543847_2_alg».proof.Proof.Gen.Kernel.Regions
import proofs.«401117_j39195871543847_2_alg».proof.Proof.K.Dense0
import proofs.«401117_j39195871543847_2_alg».proof.Proof.K.Agg1
import proofs.«401117_j39195871543847_2_alg».proof.Proof.K.Dense2
import proofs.«401117_j39195871543847_2_alg».proof.Proof.K.Agg3
import proofs.«401117_j39195871543847_2_alg».proof.Proof.K.Dense4
import proofs.«401117_j39195871543847_2_alg».proof.Proof.K.Agg5
import proofs.«401117_j39195871543847_2_alg».proof.Proof.K.Dense6
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- A valuation as a function on references.
abbrev tcOf (W : Dev nD → Valuation τ sig (Elt F)) : (c : Dev nD) → (b : Ref sig .tc) → Buf (Elt F) ((c : Thread nD τ).loc b) := fun c b => W c b

-- Input arrays keep their contents and the output array ends at its final contents: together, the entry valuation updated at the output.
theorem hF_of {cfg : Cfg sig Λ₀} {c : Dev nD} (d : Dat τ (Elt F) Unit ℕ (UR sig nD τ) ℕ cfg c) (V : Valuation τ sig (Elt F)) (o : Fin cfg.W)
    (hA : ∀ w, d.A w = V (Pipeline.arrRef cfg.spec w))
    (hio : ∀ w, w ≠ o → (cfg.win w).isOut = false ∧ Pipeline.arrRef cfg.spec w ≠ Pipeline.arrRef cfg.spec o) (w : Fin cfg.W) :
    d.arrAt w cfg.N = Function.update V (Pipeline.arrRef cfg.spec o) (d.arrAt o cfg.N) (Pipeline.arrRef cfg.spec w) := by
  by_cases h : w = o
  · subst h; rw [Function.update_self]
  · exact ((d.arrAt_in w (hio w h).1 _).trans (hA w)).trans (Function.update_of_ne (StableHlo.devRef_ne_of_ne (hio w h).2) _ _).symm

-- A reference outside the image of a family differs from each member.
theorem not_arr {W gr : Nat} {spec : Fin W → Pipeline.WinSpec sig gr} {b : Ref sig .tc} (hb : b ∉ Finset.univ.image (Pipeline.arrRef spec)) (o : Fin W) :
    b ≠ Pipeline.arrRef spec o := fun e => hb (Finset.mem_image.mpr ⟨o, Finset.mem_univ _, e.symm⟩)

abbrev W3 : Dev nD → Valuation τ sig (Elt F) := fun c => V3 m c
abbrev U3 := tcOf (W3 m)
def W4 (c : Dev nD) : Valuation τ sig (Elt F) :=
  Function.update (W3 m c) main_v54 ((dat0 (U3 m) c).arrAt 2 cfg0.N)
theorem W4_out (c : Dev nD) : W4 m c main_v54 = (dat0 (U3 m) c).arrAt 2 cfg0.N := by
  unfold W4; exact Function.update_self _ _ _
theorem W4_of_ne (c : Dev nD) (b : Ref sig .tc) (hb : b ≠ main_v54) : W4 m c b = W3 m c b := by
  unfold W4; exact Function.update_of_ne (StableHlo.devRef_ne_of_ne hb) _ _
abbrev W5 : Dev nD → Valuation τ sig (Elt F) := fun c => StableHlo.after hostOps1 (W4 m c)
abbrev U5 := tcOf (W5 m)
def W6 (c : Dev nD) : Valuation τ sig (Elt F) :=
  Function.update (W5 m c) main_v56 ((dat1 (U5 m) c).arrAt 3 cfg1.N)
theorem W6_out (c : Dev nD) : W6 m c main_v56 = (dat1 (U5 m) c).arrAt 3 cfg1.N := by
  unfold W6; exact Function.update_self _ _ _
theorem W6_of_ne (c : Dev nD) (b : Ref sig .tc) (hb : b ≠ main_v56) : W6 m c b = W5 m c b := by
  unfold W6; exact Function.update_of_ne (StableHlo.devRef_ne_of_ne hb) _ _
abbrev U6 := tcOf (W6 m)
def W7 (c : Dev nD) : Valuation τ sig (Elt F) :=
  Function.update (W6 m c) main_v57 ((dat2 (U6 m) c).arrAt 2 cfg2.N)
theorem W7_out (c : Dev nD) : W7 m c main_v57 = (dat2 (U6 m) c).arrAt 2 cfg2.N := by
  unfold W7; exact Function.update_self _ _ _
theorem W7_of_ne (c : Dev nD) (b : Ref sig .tc) (hb : b ≠ main_v57) : W7 m c b = W6 m c b := by
  unfold W7; exact Function.update_of_ne (StableHlo.devRef_ne_of_ne hb) _ _
abbrev W8 : Dev nD → Valuation τ sig (Elt F) := fun c => StableHlo.after hostOps3 (W7 m c)
abbrev U8 := tcOf (W8 m)
def W9 (c : Dev nD) : Valuation τ sig (Elt F) :=
  Function.update (W8 m c) main_v59 ((dat3 (U8 m) c).arrAt 3 cfg3.N)
theorem W9_out (c : Dev nD) : W9 m c main_v59 = (dat3 (U8 m) c).arrAt 3 cfg3.N := by
  unfold W9; exact Function.update_self _ _ _
theorem W9_of_ne (c : Dev nD) (b : Ref sig .tc) (hb : b ≠ main_v59) : W9 m c b = W8 m c b := by
  unfold W9; exact Function.update_of_ne (StableHlo.devRef_ne_of_ne hb) _ _
abbrev U9 := tcOf (W9 m)
def W10 (c : Dev nD) : Valuation τ sig (Elt F) :=
  Function.update (W9 m c) main_v60 ((dat4 (U9 m) c).arrAt 2 cfg4.N)
theorem W10_out (c : Dev nD) : W10 m c main_v60 = (dat4 (U9 m) c).arrAt 2 cfg4.N := by
  unfold W10; exact Function.update_self _ _ _
theorem W10_of_ne (c : Dev nD) (b : Ref sig .tc) (hb : b ≠ main_v60) : W10 m c b = W9 m c b := by
  unfold W10; exact Function.update_of_ne (StableHlo.devRef_ne_of_ne hb) _ _
abbrev W11 : Dev nD → Valuation τ sig (Elt F) := fun c => StableHlo.after hostOps5 (W10 m c)
abbrev U11 := tcOf (W11 m)
def W12 (c : Dev nD) : Valuation τ sig (Elt F) :=
  Function.update (W11 m c) main_v62 ((dat5 (U11 m) c).arrAt 3 cfg5.N)
theorem W12_out (c : Dev nD) : W12 m c main_v62 = (dat5 (U11 m) c).arrAt 3 cfg5.N := by
  unfold W12; exact Function.update_self _ _ _
theorem W12_of_ne (c : Dev nD) (b : Ref sig .tc) (hb : b ≠ main_v62) : W12 m c b = W11 m c b := by
  unfold W12; exact Function.update_of_ne (StableHlo.devRef_ne_of_ne hb) _ _
abbrev U12 := tcOf (W12 m)
def W13 (c : Dev nD) : Valuation τ sig (Elt F) :=
  Function.update (W12 m c) main_v63 ((dat6 (U12 m) c).arrAt 2 cfg6.N)
theorem W13_out (c : Dev nD) : W13 m c main_v63 = (dat6 (U12 m) c).arrAt 2 cfg6.N := by
  unfold W13; exact Function.update_self _ _ _
theorem W13_of_ne (c : Dev nD) (b : Ref sig .tc) (hb : b ≠ main_v63) : W13 m c b = W12 m c b := by
  unfold W13; exact Function.update_of_ne (StableHlo.devRef_ne_of_ne hb) _ _
abbrev U4 := tcOf (W4 m)
abbrev U7 := tcOf (W7 m)
abbrev U10 := tcOf (W10 m)
abbrev U13 := tcOf (W13 m)

theorem hF0 (c : Dev nD) (w : Fin cfg0.W) : (dat0 (U3 m) c).arrAt w cfg0.N = U4 m c (Pipeline.arrRef spec0 w) :=
  hF_of (dat0 (U3 m) c) (W3 m c) 2 (A_eq0 (U3 m) c) (by decide) w
theorem hrest0 (c : Dev nD) : ∀ b, b ∉ Finset.univ.image (Pipeline.arrRef spec0) → U4 m c b = U3 m c b :=
  fun b hb => W4_of_ne m c b (not_arr hb 2)

theorem hF1 (c : Dev nD) (w : Fin cfg1.W) : (dat1 (U5 m) c).arrAt w cfg1.N = U6 m c (Pipeline.arrRef spec1 w) :=
  hF_of (dat1 (U5 m) c) (W5 m c) 3 (A_eq1 (U5 m) c) (by decide) w
theorem hrest1 (c : Dev nD) : ∀ b, b ∉ Finset.univ.image (Pipeline.arrRef spec1) → U6 m c b = U5 m c b :=
  fun b hb => W6_of_ne m c b (not_arr hb 3)

theorem hF2 (c : Dev nD) (w : Fin cfg2.W) : (dat2 (U6 m) c).arrAt w cfg2.N = U7 m c (Pipeline.arrRef spec2 w) :=
  hF_of (dat2 (U6 m) c) (W6 m c) 2 (A_eq2 (U6 m) c) (by decide) w
theorem hrest2 (c : Dev nD) : ∀ b, b ∉ Finset.univ.image (Pipeline.arrRef spec2) → U7 m c b = U6 m c b :=
  fun b hb => W7_of_ne m c b (not_arr hb 2)

theorem hF3 (c : Dev nD) (w : Fin cfg3.W) : (dat3 (U8 m) c).arrAt w cfg3.N = U9 m c (Pipeline.arrRef spec3 w) :=
  hF_of (dat3 (U8 m) c) (W8 m c) 3 (A_eq3 (U8 m) c) (by decide) w
theorem hrest3 (c : Dev nD) : ∀ b, b ∉ Finset.univ.image (Pipeline.arrRef spec3) → U9 m c b = U8 m c b :=
  fun b hb => W9_of_ne m c b (not_arr hb 3)

theorem hF4 (c : Dev nD) (w : Fin cfg4.W) : (dat4 (U9 m) c).arrAt w cfg4.N = U10 m c (Pipeline.arrRef spec4 w) :=
  hF_of (dat4 (U9 m) c) (W9 m c) 2 (A_eq4 (U9 m) c) (by decide) w
theorem hrest4 (c : Dev nD) : ∀ b, b ∉ Finset.univ.image (Pipeline.arrRef spec4) → U10 m c b = U9 m c b :=
  fun b hb => W10_of_ne m c b (not_arr hb 2)

theorem hF5 (c : Dev nD) (w : Fin cfg5.W) : (dat5 (U11 m) c).arrAt w cfg5.N = U12 m c (Pipeline.arrRef spec5 w) :=
  hF_of (dat5 (U11 m) c) (W11 m c) 3 (A_eq5 (U11 m) c) (by decide) w
theorem hrest5 (c : Dev nD) : ∀ b, b ∉ Finset.univ.image (Pipeline.arrRef spec5) → U12 m c b = U11 m c b :=
  fun b hb => W12_of_ne m c b (not_arr hb 3)

theorem hF6 (c : Dev nD) (w : Fin cfg6.W) : (dat6 (U12 m) c).arrAt w cfg6.N = U13 m c (Pipeline.arrRef spec6 w) :=
  hF_of (dat6 (U12 m) c) (W12 m c) 2 (A_eq6 (U12 m) c) (by decide) w
theorem hrest6 (c : Dev nD) : ∀ b, b ∉ Finset.univ.image (Pipeline.arrRef spec6) → U13 m c b = U12 m c b :=
  fun b hb => W13_of_ne m c b (not_arr hb 2)

end Cert.Kernel.Hand

end
-- ==== Proof.K.Run.lean ====
import proofs.«401117_j39195871543847_2_alg».proof.Proof.K.RunCond
import proofs.«401117_j39195871543847_2_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U6 m) c
  | ⟨3, _⟩ => fun c => dat3 (U8 m) c
  | ⟨4, _⟩ => fun c => dat4 (U9 m) c
  | ⟨5, _⟩ => fun c => dat5 (U11 m) c
  | ⟨6, _⟩ => fun c => dat6 (U12 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false

-- Every region is a segment from the valuation V to V', where V' agrees with V off the region's arrays and holds their final contents on them.
def mkReg (p : Fin 7) (lk : Pipeline.LaunchFacts (nD := nD) (τ := τ) cfgs p) (V V' : Dev nD → Valuation τ sig (Elt F))
    (hb : ∀ c, BodyObligation (pdats m p c) (defs₀ (F := F)) 𝒱₀ () Set.univ)
    (hF : ∀ c w, (pdats m p c).arrAt w (cfgs p).N = V' c (Pipeline.arrRef (cfgs p).spec w))
    (hrest : ∀ c b, b ∉ Finset.univ.image (Pipeline.arrRef (cfgs p).spec) → V' c b = V c b)
    (hi : ∀ c, iprop((∃ r, prngReg c r) ∗ Pipeline.scopedRest (cfgs p).spec c) ⊢ (pdats m p c).Φ 0)
    (he : ∀ c, (pdats m p c).Φ (Fin.last (cfgs p).N) ⊢ iprop((∃ r, prngReg c r) ∗ Pipeline.scopedRest (cfgs p).spec c))
    (hq : ∀ c w, (pdats m p c).q w = fullShare := by exact fun _ _ => rfl) (h0 : ∀ c, (pdats m p c).owed = fun _ => 0 := by exact fun _ => rfl)
    (hr : ∀ c x, x ∈ (pdats m p c).recorded 0 := by exact fun _ _ => trivial)
    (hA : ∀ c w, (pdats m p c).A w = V c (Pipeline.arrRef (cfgs p).spec w) := by exact fun _ _ => rfl) :
    Pipeline.RegionSeg (pcfgs (F := F)) adm (pdats m) () defs₀ 𝒱₀ L lv p where
  win := lk.win.to₀
  block_pos := lk.block_pos
  stage_whole := lk.stage_whole
  K := PEmpty
  osem k := k.elim
  ho := Pipeline.OwnSemFacts.none _
  hbody c := (hb c).loose
  hwaits := Pipeline.hwaits_of_owed_zero _ _ _ _ L lv p fun c t => congrFun (h0 c) t
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lk.win lk.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun _ _ => Or.inl (hr c _)
      iexact HO
    isplitl [Hp]; · iexact Hp
    iexact Hrest
  hin c := by
    refine .trans ?_ (hi c)
    iintro ⟨Hp, -, Hr⟩
    isplitl [Hp]; · iexact Hp
    iexact Hr
  hout c := by
    rw [Pipeline.ownSems0_none]
    refine (he c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lk.win lk.arr_whole c (pdats m) ((pdats m p c).share_full (hq c))
      (fun b => V c b) (fun b => V' c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

def reg0 := mkReg m 0 launch0 (W3 m) (W4 m) (body_obligation0 (U3 m)) (hF0 m) (hrest0 m) (fun _ => sep_symm) (fun _ => sep_symm)
def reg1 := mkReg m 1 launch1 (W5 m) (W6 m) (body_obligation1 (U5 m)) (hF1 m) (hrest1 m) (Phi1_intro (U5 m)) (Phi1_elim (U5 m))
def reg2 := mkReg m 2 launch2 (W6 m) (W7 m) (body_obligation2 (U6 m)) (hF2 m) (hrest2 m) (fun _ => sep_symm) (fun _ => sep_symm)
def reg3 := mkReg m 3 launch3 (W8 m) (W9 m) (body_obligation3 (U8 m)) (hF3 m) (hrest3 m) (Phi3_intro (U8 m)) (Phi3_elim (U8 m))
def reg4 := mkReg m 4 launch4 (W9 m) (W10 m) (body_obligation4 (U9 m)) (hF4 m) (hrest4 m) (fun _ => sep_symm) (fun _ => sep_symm)
def reg5 := mkReg m 5 launch5 (W11 m) (W12 m) (body_obligation5 (U11 m)) (hF5 m) (hrest5 m) (Phi5_intro (U11 m)) (Phi5_elim (U11 m))
def reg6 := mkReg m 6 launch6 (W12 m) (W13 m) (body_obligation6 (U12 m)) (hF6 m) (hrest6 m) (fun _ => sep_symm) (fun _ => sep_symm)

def outsK : Outs (F := F) := fun J r c =>
  match J with
  | 4 => W4 m c r
  | 6 => W6 m c r
  | 7 => W7 m c r
  | 9 => W9 m c r
  | 10 => W10 m c r
  | 12 => W12 m c r
  | 13 => W13 m c r
  | _ => W3 m c r

-- Updating at r with the value an update at r already put there changes nothing.
theorem upd_eq {V W : Valuation τ sig (Elt F)} (h : V = W) (r : DevRef τ sig) (x : r.ty.Contents (Elt F)) :
    Function.update V r (Function.update W r x r) = Function.update W r x := by rw [h, Function.update_self]
theorem V4_eq (c : Dev nD) : V4 m (outsK m) c = W4 m c := upd_eq rfl _ _
theorem V5_eq (c : Dev nD) : V5 m (outsK m) c = W5 m c := congrArg (StableHlo.after hostOps1) (V4_eq m c)
theorem V6_eq (c : Dev nD) : V6 m (outsK m) c = W6 m c := upd_eq (V5_eq m c) _ _
theorem V7_eq (c : Dev nD) : V7 m (outsK m) c = W7 m c := upd_eq (V6_eq m c) _ _
theorem V8_eq (c : Dev nD) : V8 m (outsK m) c = W8 m c := congrArg (StableHlo.after hostOps3) (V7_eq m c)
theorem V9_eq (c : Dev nD) : V9 m (outsK m) c = W9 m c := upd_eq (V8_eq m c) _ _
theorem V10_eq (c : Dev nD) : V10 m (outsK m) c = W10 m c := upd_eq (V9_eq m c) _ _
theorem V11_eq (c : Dev nD) : V11 m (outsK m) c = W11 m c := congrArg (StableHlo.after hostOps5) (V10_eq m c)
theorem V12_eq (c : Dev nD) : V12 m (outsK m) c = W12 m c := upd_eq (V11_eq m c) _ _
theorem V13_eq (c : Dev nD) : V13 m (outsK m) c = W13 m c := upd_eq (V12_eq m c) _ _

theorem run_main (ρ : Dev nD → PrngReg) : θ_run defs (onTc (τ := τ) (main (F := F))) ⟨m, fun _ => 0, ρ⟩ (fun r => ∀ c : Dev nD,
      r.2.mem ((c.tc : Thread nD τ).loc main_v81) = V15 m (outsK m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond (Ix := Unit) (U := UR sig nD τ) (Lvl := ℕ) m (EP := emb₁) (ι := ()) (𝒱₀ := 𝒱₀) (L := L) (lv := lv) (hL := fun _ _ => rfl)
    (ρ := ρ) (outs := outsK m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE7 := fun c => by iintro ⟨-, HO⟩; iexact HO)
    (R0 := reg0 m) (hpre0 := fun c => by exact .rfl) (hpost0 := fun c => by rw [V4_eq m c]; exact .rfl)
    (R1 := reg1 m) (hpre1 := fun c => by rw [V5_eq m c]; exact .rfl) (hpost1 := fun c => by rw [V6_eq m c]; exact .rfl)
    (R2 := reg2 m) (hpre2 := fun c => by rw [V6_eq m c]; exact .rfl) (hpost2 := fun c => by rw [V7_eq m c]; exact .rfl)
    (R3 := reg3 m) (hpre3 := fun c => by rw [V8_eq m c]; exact .rfl) (hpost3 := fun c => by rw [V9_eq m c]; exact .rfl)
    (R4 := reg4 m) (hpre4 := fun c => by rw [V9_eq m c]; exact .rfl) (hpost4 := fun c => by rw [V10_eq m c]; exact .rfl)
    (R5 := reg5 m) (hpre5 := fun c => by rw [V11_eq m c]; exact .rfl) (hpost5 := fun c => by rw [V12_eq m c]; exact .rfl)
    (R6 := reg6 m) (hpre6 := fun c => by rw [V12_eq m c]; exact .rfl) (hpost6 := fun c => by rw [V13_eq m c]; exact .rfl)

end Cert.Kernel.Hand

end
-- ==== Proof.KI.RunCond.lean ====
import proofs.«401117_j39195871543847_2_alg».proof.Proof.Gen.KernelIdeal.Regions

set_option maxRecDepth 1196

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V12 m outs c) ∗ E 6 c) ⊢ R6.pre c)
    (hpost6 : ∀ c : Dev nD, R6.post c ⊢ iprop(StableHlo.held (c : Thread nD τ) (Pipeline.ucRefs τ sig) (V13 m outs c) ∗ E 7 c)) :
    θ_run defs (onTc (τ := τ) (main (F := F))) ⟨m, fun _ => 0, ρ⟩ (fun r => ∀ c : Dev nD,
      r.2.mem ((c.tc : Thread nD τ).loc main_v81) = V15 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          StableHlo.seq hostOps7_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, hpre1 c, (hpost1 c).trans (hpre2 c), hpost2 c, hpre3 c, (hpost3 c).trans (hpre4 c), hpost4 c, hpre5 c, (hpost5 c).trans (hpre6 c), hpost6 c, .rfl, sep_mono .rfl (hE7 c)⟩)
    (hinit := ?_) (QY := _)
    (hfin := fun c s' => ?_) (hQ := fun _ h => h)
  · refine (sep_mono (bigSep_mono fun c _ => sep_mono (Entails.of_eq (Pipeline.unscopedBufs_held c (V0 m c))) .rfl) .rfl).trans ?_
    rw [bigSep_sep']
    iintro ⟨⟨Hh, Hr⟩, Hla⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      have k := fun (b : Ref sig .tc) hb => h (Proc.devRef .tc b) (Finset.mem_filter.mpr ⟨StableHlo.devRef_mem_tcRefs b, hb⟩)
      exact ⟨k main_v81 (by decide), (k main_arg0 (by decide)).trans (V15_main_arg0 m outs c), (k main_arg1 (by decide)).trans (V15_main_arg1 m outs c), (k main_arg2 (by decide)).trans (V15_main_arg2 m outs c), (k main_arg3 (by decide)).trans (V15_main_arg3 m outs c),
        (k main_arg4 (by decide)).trans (V15_main_arg4 m outs c), (k main_arg5 (by decide)).trans (V15_main_arg5 m outs c), (k main_arg6 (by decide)).trans (V15_main_arg6 m outs c), (k main_arg7 (by decide)).trans (V15_main_arg7 m outs c),
        (k main_arg8 (by decide)).trans (V15_main_arg8 m outs c), (k main_arg9 (by decide)).trans (V15_main_arg9 m outs c), (k main_arg10 (by decide)).trans (V15_main_arg10 m outs c)⟩
    · iexact HSI

end Cert.KernelIdeal.Hand

end
-- ==== Proof.KI.Dense0.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Writes
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2560x2208 := Rect.unit (s := S2560x2208) ![0, 0] S2560x2208.size inb_S2560x2208_S2560x2208_0_0

abbrev r0_1 : Rect S2208x512 := Rect.unit (s := S2208x512) ![0, 0] S2208x512.size inb_S2208x512_S2208x512_0_0

abbrev r0_2 : Rect S2560x512 := Rect.unit (s := S2560x512) ![0, 0] S2560x512.size inb_S2560x512_S2560x512_0_0

def out0_2 (x0 : Vec F S2560x2208 .bf16) (x1 : Vec F S2208x512 .bf16) : Vec F S2560x512 .bf16 :=
  View.canon [⟨r0_2, k0_pay1 (View.ld x0 r0_0) (View.ld x1 r0_1)⟩]

set_option maxHeartbeats 1000000 in
theorem sound_kernel0 (c : Dev nD) (E : Set ℕ) (i : grid0.Coords)
    (arg1 : Memref sig .tc .vmem S2560x2208 .bf16) (harg1 : arg1.IsWhole)
    (arg2 : Memref sig .tc .vmem S2208x512 .bf16) (harg2 : arg2.IsWhole)
    (arg3 : Memref sig .tc .vmem S2560x512 .bf16) (harg3 : arg3.IsWhole)
    (x0 : Vec F S2560x2208 .bf16) (x1 : Vec F S2208x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dense_gemm_kernel i arg1 harg1 arg2 harg2 arg3 harg3) K := by
  simp only [cc0__dense_gemm_kernel_eq_skeleton]; unfold cc0__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S2560x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)) := by
  unfold bodyAt0
  simp only [before0_0, before0_1]
  rw [show (dat0 V c).after 0 t = iblk0 V c 0 t from rfl, show (dat0 V c).after 1 t = iblk0 V c 1 t from rfl, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Agg1.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import proofs.«401117_j39195871543847_2_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1

theorem hcond1_1 : ∀ t : Fin cfg1.N, cond1_1 (grid1.coords t) ↔ t.val % 10 = 9 :=
  (by decide +kernel : ∀ t : Fin grid1.N, cond1_1 (grid1.coords t) ↔ t.val % 10 = 9)

theorem liveAt1 : ∀ (w : Fin cfg1.W) (t : Fin cfg1.N), w ≠ 3 → cfg1.idle w (grid1.coords t) = false := by decide +kernel

theorem idleAt1_3 : ∀ t : Fin cfg1.N, ¬t.val % 10 = 9 → cfg1.idle 3 (grid1.coords t) = true := by decide +kernel
theorem noFlush1_3 (t : Fin cfg1.N) (h1 : ¬t.val % 10 = 9) : (cfg1.win 3).flush t = false :=
  Bool.eq_false_iff.mpr fun h => h1 ((flush1_3 t).mp h)
theorem liveAt1_3 : ∀ t : Fin cfg1.N, t.val % 10 = 9 → cfg1.idle 3 (grid1.coords t) = false := by decide +kernel

abbrev ms1_3 (t : Fin cfg1.N) : Memref sig .tc .vmem S5120x512 .bf16 := win1_3.stage (cfg1.slots t 3)

abbrev scM1_0 : Memref sig .tc .vmem S5120x512 .f32 := Memref.whole cc1_scratch0

-- One run of the body: the accumulator restarts from zero when the step is 0; the output block is written only at the last step.
set_option maxHeartbeats 1000000 in
theorem kernelRun1 (c : Dev nD) (i : grid1.Coords)
    (arg2 : Memref sig .tc .vmem S5120x1024 .bf16) (harg2 : arg2.IsWhole) (arg3 : Memref sig .tc .vmem S1024x512 .bf16) (harg3 : arg3.IsWhole)
    (arg4 : Memref sig .tc .vmem S1x512 .f32) (harg4 : arg4.IsWhole) (arg5 : Memref sig .tc .vmem S5120x512 .bf16) (harg5 : arg5.IsWhole)
    (arg6 : Memref sig .tc .vmem S5120x512 .f32) (harg6 : arg6.IsWhole) (hx : cond1_0 i → ¬cond1_1 i)
    (x0 : Vec F S5120x1024 .bf16) (x1 : Vec F S1024x512 .bf16) (x2 : Vec F S1x512 .f32) (xi3 : Vec F S5120x512 .bf16) (xs : Vec F S5120x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond1_1 i then k1_pay3 (k1_pay2 x0 x1 (if cond1_0 i then k1_pay1 else xs)) x2 else xi3)
            ∗ owns (c : Thread nD τ) arg6 fullShare (k1_pay2 x0 x1 (if cond1_0 i then k1_pay1 else xs))) -∗ K ⟨⟩))
      ⊢ wp frame (wpE (defs₀ (F := F)) Variants.none c none) E (cc1_kernel i arg2 harg2 arg3 harg3 arg4 harg4 arg5 harg5 arg6 harg6) K := by
  by_cases hc0 : cond1_0 i <;> by_cases hc1 : cond1_1 i
  · exact absurd hc1 (hx hc0)
  all_goals
    first | rw [if_pos hc0] | rw [if_neg hc0]
    first | rw [if_pos hc1] | rw [if_neg hc1]
    simp only [cc1_kernel_eq_skeleton]; unfold cc1_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
        | (sl_unfold_run_names
           rw [read_writes_whole_cons _ _ off00, View.readCov_unit_zero _ off00, readAt_whole_unread harg2 off00, readAt_whole_unread harg3 off00,
             readAt_whole_unread harg6 off00, readAt_whole_unread harg4 off00])
        | exact harg5.read_unread _
    iexists _; isplitr
    swap; · iexact HS
    ipureintro
    sl_unfold_run_names
    first
      | rw [read_writes_whole_cons _ _ off00, readAt_whole_unread harg2 off00, readAt_whole_unread harg3 off00, readAt_whole_unread harg6 off00]
      | rw [read_writes_whole_cons _ _ off00, readAt_whole_unread harg2 off00, readAt_whole_unread harg3 off00, View.readCov_unit_zero _ off00]

-- The accumulator after point `t`: the product of the two blocks added to zero at step 0, to the previous accumulator otherwise.
def soutsAt1 (c : Dev nD) : (t : ℕ) → (ht : t < cfg1.N) → Vec F S5120x512 .f32
  | 0, ht => k1_pay2 (iblk1 V c 0 ⟨0, ht⟩) (iblk1 V c 1 ⟨0, ht⟩) k1_pay1
  | n + 1, ht =>
    k1_pay2 (iblk1 V c 0 ⟨n + 1, ht⟩) (iblk1 V c 1 ⟨n + 1, ht⟩)
      (if (n + 1) % 10 = 0 then k1_pay1 else soutsAt1 c n (Nat.lt_of_succ_lt ht))

theorem soutsAt1_zero (c : Dev nD) (t : Fin cfg1.N) (h0 : t.val % 10 = 0) :
    soutsAt1 V c t.val t.isLt = k1_pay2 (iblk1 V c 0 t) (iblk1 V c 1 t) k1_pay1 := by
  obtain ⟨n, hn⟩ := t
  cases n with
  | zero => rfl
  | succ n =>
    show k1_pay2 _ _ (if (n + 1) % 10 = 0 then k1_pay1 else soutsAt1 V c n _) = _
    rw [if_pos h0]

theorem soutsAt1_pos (c : Dev nD) (t : Fin cfg1.N) (h0 : ¬t.val % 10 = 0) :
    soutsAt1 V c t.val t.isLt = k1_pay2 (iblk1 V c 0 t) (iblk1 V c 1 t)
      (soutsAt1 V c (t.val - 1) (Nat.lt_of_le_of_lt (Nat.sub_le _ _) t.isLt)) := by
  obtain ⟨n, hn⟩ := t
  cases n with
  | zero => exact absurd (Nat.zero_mod _) h0
  | succ n =>
    show k1_pay2 _ _ (if (n + 1) % 10 = 0 then k1_pay1 else soutsAt1 V c n _) = _
    rw [if_neg h0]; rfl

def outsAt1 (c : Dev nD) (t : Fin cfg1.N) : Vec F S5120x512 .bf16 :=
  k1_pay3 (soutsAt1 V c t.val t.isLt) (iblk1 V c 2 t)

def PhiS1 (c : Dev nD) : (n : ℕ) → n ≤ cfg1.N → sProp 𝕄
  | 0, _ => iprop(iprop(∃ d, owns (c : Thread nD τ) scM1_0 fullShare d) ∗ (∃ r, prngReg c r) ∗ Pipeline.scopedRestBut spec1 c [cc1_scratch0])
  | n + 1, hn => iprop(owns (c : Thread nD τ) scM1_0 fullShare (soutsAt1 V c n hn) ∗ (∃ r, prngReg c r) ∗ Pipeline.scopedRestBut spec1 c [cc1_scratch0])

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem leaves1 (c : Dev nD) (w : Fin cfg1.W) (hw : w ≠ 3) (t : Fin cfg1.N) :
    (dat1 V c).leavesExact w t = owns (c : Thread nD τ) ((cfg1.win w).stage (cfg1.slots t w)) fullShare ((dat1 V c).after w t) := by
  unfold Dat.leavesExact; rw [liveAt1 w t hw]

-- Before a point the accumulator holds what the point before left; before the first point, anything.
theorem PhiS1_open (c : Dev nD) (n : ℕ) (h : n ≤ cfg1.N) :
    PhiS1 V c n h ⊢ iprop(∃ xs, ⌜∀ hn : n ≠ 0, xs = soutsAt1 V c (n - 1) (by omega)⌝
      ∗ owns (c : Thread nD τ) scM1_0 fullShare xs ∗ (∃ r, prngReg c r) ∗ Pipeline.scopedRestBut spec1 c [cc1_scratch0]) := by
  cases n with
  | zero =>
    rw [PhiS1]
    iintro ⟨⟨%d, HS⟩, HR⟩
    iexists d; isplitr; · ipureintro; exact fun h => absurd rfl h
    iframe
  | succ n =>
    rw [PhiS1]
    iintro H
    iexists _; isplitr
    swap; · iexact H
    ipureintro; exact fun _ => rfl

-- The recursion of `soutsAt1`, its two cases in one equation.
theorem soutsAt1_eq (c : Dev nD) (t : Fin cfg1.N) (xs : Vec F S5120x512 .f32)
    (hxs : t.val ≠ 0 → xs = soutsAt1 V c (t.val - 1) (Nat.lt_of_le_of_lt (Nat.sub_le _ _) t.isLt)) :
    k1_pay2 (iblk1 V c 0 t) (iblk1 V c 1 t) (if cond1_0 (grid1.coords t) then k1_pay1 else xs) = soutsAt1 V c t.val t.isLt := by
  by_cases h0 : t.val % 10 = 0
  · rw [if_pos ((hcond1_0 t).mpr h0), soutsAt1_zero V c t h0]
  · rw [if_neg (mt (hcond1_0 t).mp h0), soutsAt1_pos V c t h0, hxs fun hz => h0 (by rw [hz])]

-- At the last step the output block is `k1_pay3` of the accumulator and the third block; elsewhere it is left as found.
theorem leaves1_3 (c : Dev nD) (t : Fin cfg1.N) (d) (a : Vec F S5120x512 .f32) (ha : a = soutsAt1 V c t.val t.isLt) :
    owns (c : Thread nD τ) (ms1_3 t) fullShare (if cond1_1 (grid1.coords t) then k1_pay3 a (iblk1 V c 2 t) else (dat1 V c).before 3 t d)
      ⊢ (dat1 V c).leavesExact 3 t := by
  subst ha
  by_cases h1 : t.val % 10 = 9
  · rw [if_pos ((hcond1_1 t).mpr h1), show (dat1 V c).leavesExact 3 t = owns (c : Thread nD τ) (ms1_3 t) fullShare ((dat1 V c).after 3 t) from by
      unfold Dat.leavesExact; rw [liveAt1_3 t h1], after1_3]
    unfold outsAt1
    iintro H; iexact H
  · rw [if_neg (mt (hcond1_1 t).mp h1), Dat.leavesExact_idle (dat1 V c) 3 t (idleAt1_3 t h1) (noFlush1_3 t h1)]
    iintro H; iexists _; iexact H

-- The body at any point: one run, framed by the invariant and the four blocks.
theorem sound_body1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop(iprop(owns (c : Thread nD τ) scM1_0 fullShare (soutsAt1 V c t.val t.isLt) ∗ (∃ r, prngReg c r) ∗ Pipeline.scopedRestBut spec1 c [cc1_scratch0])
        ∗ (dat1 V c).owesAt () t.castSucc
        ∗ (dat1 V c).leavesExact 0 t ∗ (dat1 V c).leavesExact 1 t ∗ (dat1 V c).leavesExact 2 t ∗ (dat1 V c).leavesExact 3 t)) := by
  unfold bodyAt1
  simp only [before1_0, before1_1, before1_2]
  rw [leaves1 V c 0 (by decide), leaves1 V c 1 (by decide), leaves1 V c 2 (by decide), after1_0, after1_1, after1_2]
  refine (sep_mono_left (PhiS1_open V c t.val (Nat.le_of_lt t.isLt))).trans ?_
  iintro ⟨⟨%xs, %hxs, HS, Hg, HR⟩, Ho, ⟨%d0, H0⟩, ⟨%d1, H1⟩, ⟨%d2, H2⟩, ⟨%d3, H3⟩⟩
  rw [← soutsAt1_eq V c t xs hxs]
  iapply (kernelRun1 c (grid1.coords t) _ _ _ _ _ _ _ _ _ _
    (fun h0 h1 => by have := (hcond1_0 t).mp h0; have := (hcond1_1 t).mp h1; omega)
    (iblk1 V c 0 t) (iblk1 V c 1 t) (iblk1 V c 2 t) ((dat1 V c).before 3 t d3) xs Set.univ _)
  iframe H0 H1 H2 H3 HS
  iintro ⟨H0, H1, H2, H3, HS⟩
  iframe HS Hg HR Ho H0 H1 H2
  iapply (leaves1_3 V c t d3 _ (soutsAt1_eq V c t xs hxs))
  iexact H3

theorem body_obligation1 (c : Dev nD) : BodyObligation (dat1 (F := F) V c) (defs₀ (F := F)) Variants.none () Set.univ := fun t => by
  rw [bigSep_W1, bigSep_W1]
  exact sound_body1 V c t

theorem Phi1_intro (c : Dev nD) :
    iprop((∃ r, prngReg c r) ∗ Pipeline.scopedRest spec1 c) ⊢ (dat1 V c).Φ 0 := by
  rw [show (dat1 V c).Φ 0 = PhiS1 V c 0 (Nat.zero_le _) from rfl, PhiS1, scopedRest1_split]
  simp only [scM1_0, owns_whole]
  iintro ⟨Hg, HS, HR⟩
  iframe

theorem Phi1_elim (c : Dev nD) :
    (dat1 V c).Φ (Fin.last cfg1.N) ⊢ iprop((∃ r, prngReg c r) ∗ Pipeline.scopedRest spec1 c) := by
  refine (PhiS1_open V c cfg1.N le_rfl).trans ?_
  rw [scopedRest1_split]
  simp only [scM1_0, owns_whole]
  iintro ⟨%xs, -, HS, Hg, HR⟩
  iframe Hg HR
  iexists _; iexact HS

end Cert.KernelIdeal.Hand

end
-- ==== Proof.KI.Dense2.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Writes
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5120x512 := Rect.unit (s := S5120x512) ![0, 0] S5120x512.size inb_S5120x512_S5120x512_0_0

abbrev r2_1 : Rect S512x512 := Rect.unit (s := S512x512) ![0, 0] S512x512.size inb_S512x512_S512x512_0_0

abbrev r2_2 : Rect S5120x512 := Rect.unit (s := S5120x512) ![0, 0] S5120x512.size inb_S5120x512_S5120x512_0_0

def out2_2 (x0 : Vec F S5120x512 .bf16) (x1 : Vec F S512x512 .bf16) : Vec F S5120x512 .bf16 :=
  View.canon [⟨r2_2, k2_pay1 (View.ld x0 r2_0) (View.ld x1 r2_1)⟩]

set_option maxHeartbeats 1000000 in
theorem sound_kernel2 (c : Dev nD) (E : Set ℕ) (i : grid2.Coords)
    (arg1 : Memref sig .tc .vmem S5120x512 .bf16) (harg1 : arg1.IsWhole)
    (arg2 : Memref sig .tc .vmem S512x512 .bf16) (harg2 : arg2.IsWhole)
    (arg3 : Memref sig .tc .vmem S5120x512 .bf16) (harg3 : arg3.IsWhole)
    (x0 : Vec F S5120x512 .bf16) (x1 : Vec F S512x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_gemm_kernel i arg1 harg1 arg2 harg2 arg3 harg3) K := by
  simp only [cc2__dense_gemm_kernel_eq_skeleton]; unfold cc2__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5120x512.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop((dat2 V c).Φ t.castSucc ∗ (dat2 V c).owesAt () t.castSucc
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)) := by
  unfold bodyAt2
  simp only [before2_0, before2_1]
  rw [show (dat2 V c).after 0 t = iblk2 V c 0 t from rfl, show (dat2 V c).after 1 t = iblk2 V c 1 t from rfl, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Agg3.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import proofs.«401117_j39195871543847_2_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1

theorem hcond3_1 : ∀ t : Fin cfg3.N, cond3_1 (grid3.coords t) ↔ t.val % 10 = 9 :=
  (by decide +kernel : ∀ t : Fin grid3.N, cond3_1 (grid3.coords t) ↔ t.val % 10 = 9)

theorem liveAt3 : ∀ (w : Fin cfg3.W) (t : Fin cfg3.N), w ≠ 3 → cfg3.idle w (grid3.coords t) = false := by decide +kernel

theorem idleAt3_3 : ∀ t : Fin cfg3.N, ¬t.val % 10 = 9 → cfg3.idle 3 (grid3.coords t) = true := by decide +kernel
theorem noFlush3_3 (t : Fin cfg3.N) (h1 : ¬t.val % 10 = 9) : (cfg3.win 3).flush t = false :=
  Bool.eq_false_iff.mpr fun h => h1 ((flush3_3 t).mp h)
theorem liveAt3_3 : ∀ t : Fin cfg3.N, t.val % 10 = 9 → cfg3.idle 3 (grid3.coords t) = false := by decide +kernel

abbrev ms3_3 (t : Fin cfg3.N) : Memref sig .tc .vmem S5120x512 .bf16 := win3_3.stage (cfg3.slots t 3)

abbrev scM3_0 : Memref sig .tc .vmem S5120x512 .f32 := Memref.whole cc3_scratch0

-- One run of the body: the accumulator restarts from zero when the step is 0; the output block is written only at the last step.
set_option maxHeartbeats 1000000 in
theorem kernelRun3 (c : Dev nD) (i : grid3.Coords)
    (arg2 : Memref sig .tc .vmem S5120x1024 .bf16) (harg2 : arg2.IsWhole) (arg3 : Memref sig .tc .vmem S1024x512 .bf16) (harg3 : arg3.IsWhole)
    (arg4 : Memref sig .tc .vmem S1x512 .f32) (harg4 : arg4.IsWhole) (arg5 : Memref sig .tc .vmem S5120x512 .bf16) (harg5 : arg5.IsWhole)
    (arg6 : Memref sig .tc .vmem S5120x512 .f32) (harg6 : arg6.IsWhole) (hx : cond3_0 i → ¬cond3_1 i)
    (x0 : Vec F S5120x1024 .bf16) (x1 : Vec F S1024x512 .bf16) (x2 : Vec F S1x512 .f32) (xi3 : Vec F S5120x512 .bf16) (xs : Vec F S5120x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond3_1 i then k3_pay3 (k3_pay2 x0 x1 (if cond3_0 i then k3_pay1 else xs)) x2 else xi3)
            ∗ owns (c : Thread nD τ) arg6 fullShare (k3_pay2 x0 x1 (if cond3_0 i then k3_pay1 else xs))) -∗ K ⟨⟩))
      ⊢ wp frame (wpE (defs₀ (F := F)) Variants.none c none) E (cc3_kernel i arg2 harg2 arg3 harg3 arg4 harg4 arg5 harg5 arg6 harg6) K := by
  by_cases hc0 : cond3_0 i <;> by_cases hc1 : cond3_1 i
  · exact absurd hc1 (hx hc0)
  all_goals
    first | rw [if_pos hc0] | rw [if_neg hc0]
    first | rw [if_pos hc1] | rw [if_neg hc1]
    simp only [cc3_kernel_eq_skeleton]; unfold cc3_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
        | (sl_unfold_run_names
           rw [read_writes_whole_cons _ _ off00, View.readCov_unit_zero _ off00, readAt_whole_unread harg2 off00, readAt_whole_unread harg3 off00,
             readAt_whole_unread harg6 off00, readAt_whole_unread harg4 off00])
        | exact harg5.read_unread _
    iexists _; isplitr
    swap; · iexact HS
    ipureintro
    sl_unfold_run_names
    first
      | rw [read_writes_whole_cons _ _ off00, readAt_whole_unread harg2 off00, readAt_whole_unread harg3 off00, readAt_whole_unread harg6 off00]
      | rw [read_writes_whole_cons _ _ off00, readAt_whole_unread harg2 off00, readAt_whole_unread harg3 off00, View.readCov_unit_zero _ off00]

-- The accumulator after point `t`: the product of the two blocks added to zero at step 0, to the previous accumulator otherwise.
def soutsAt3 (c : Dev nD) : (t : ℕ) → (ht : t < cfg3.N) → Vec F S5120x512 .f32
  | 0, ht => k3_pay2 (iblk3 V c 0 ⟨0, ht⟩) (iblk3 V c 1 ⟨0, ht⟩) k3_pay1
  | n + 1, ht =>
    k3_pay2 (iblk3 V c 0 ⟨n + 1, ht⟩) (iblk3 V c 1 ⟨n + 1, ht⟩)
      (if (n + 1) % 10 = 0 then k3_pay1 else soutsAt3 c n (Nat.lt_of_succ_lt ht))

theorem soutsAt3_zero (c : Dev nD) (t : Fin cfg3.N) (h0 : t.val % 10 = 0) :
    soutsAt3 V c t.val t.isLt = k3_pay2 (iblk3 V c 0 t) (iblk3 V c 1 t) k3_pay1 := by
  obtain ⟨n, hn⟩ := t
  cases n with
  | zero => rfl
  | succ n =>
    show k3_pay2 _ _ (if (n + 1) % 10 = 0 then k3_pay1 else soutsAt3 V c n _) = _
    rw [if_pos h0]

theorem soutsAt3_pos (c : Dev nD) (t : Fin cfg3.N) (h0 : ¬t.val % 10 = 0) :
    soutsAt3 V c t.val t.isLt = k3_pay2 (iblk3 V c 0 t) (iblk3 V c 1 t)
      (soutsAt3 V c (t.val - 1) (Nat.lt_of_le_of_lt (Nat.sub_le _ _) t.isLt)) := by
  obtain ⟨n, hn⟩ := t
  cases n with
  | zero => exact absurd (Nat.zero_mod _) h0
  | succ n =>
    show k3_pay2 _ _ (if (n + 1) % 10 = 0 then k3_pay1 else soutsAt3 V c n _) = _
    rw [if_neg h0]; rfl

def outsAt3 (c : Dev nD) (t : Fin cfg3.N) : Vec F S5120x512 .bf16 :=
  k3_pay3 (soutsAt3 V c t.val t.isLt) (iblk3 V c 2 t)

def PhiS3 (c : Dev nD) : (n : ℕ) → n ≤ cfg3.N → sProp 𝕄
  | 0, _ => iprop(iprop(∃ d, owns (c : Thread nD τ) scM3_0 fullShare d) ∗ (∃ r, prngReg c r) ∗ Pipeline.scopedRestBut spec3 c [cc3_scratch0])
  | n + 1, hn => iprop(owns (c : Thread nD τ) scM3_0 fullShare (soutsAt3 V c n hn) ∗ (∃ r, prngReg c r) ∗ Pipeline.scopedRestBut spec3 c [cc3_scratch0])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem leaves3 (c : Dev nD) (w : Fin cfg3.W) (hw : w ≠ 3) (t : Fin cfg3.N) :
    (dat3 V c).leavesExact w t = owns (c : Thread nD τ) ((cfg3.win w).stage (cfg3.slots t w)) fullShare ((dat3 V c).after w t) := by
  unfold Dat.leavesExact; rw [liveAt3 w t hw]

-- Before a point the accumulator holds what the point before left; before the first point, anything.
theorem PhiS3_open (c : Dev nD) (n : ℕ) (h : n ≤ cfg3.N) :
    PhiS3 V c n h ⊢ iprop(∃ xs, ⌜∀ hn : n ≠ 0, xs = soutsAt3 V c (n - 1) (by omega)⌝
      ∗ owns (c : Thread nD τ) scM3_0 fullShare xs ∗ (∃ r, prngReg c r) ∗ Pipeline.scopedRestBut spec3 c [cc3_scratch0]) := by
  cases n with
  | zero =>
    rw [PhiS3]
    iintro ⟨⟨%d, HS⟩, HR⟩
    iexists d; isplitr; · ipureintro; exact fun h => absurd rfl h
    iframe
  | succ n =>
    rw [PhiS3]
    iintro H
    iexists _; isplitr
    swap; · iexact H
    ipureintro; exact fun _ => rfl

-- The recursion of `soutsAt3`, its two cases in one equation.
theorem soutsAt3_eq (c : Dev nD) (t : Fin cfg3.N) (xs : Vec F S5120x512 .f32)
    (hxs : t.val ≠ 0 → xs = soutsAt3 V c (t.val - 1) (Nat.lt_of_le_of_lt (Nat.sub_le _ _) t.isLt)) :
    k3_pay2 (iblk3 V c 0 t) (iblk3 V c 1 t) (if cond3_0 (grid3.coords t) then k3_pay1 else xs) = soutsAt3 V c t.val t.isLt := by
  by_cases h0 : t.val % 10 = 0
  · rw [if_pos ((hcond3_0 t).mpr h0), soutsAt3_zero V c t h0]
  · rw [if_neg (mt (hcond3_0 t).mp h0), soutsAt3_pos V c t h0, hxs fun hz => h0 (by rw [hz])]

-- At the last step the output block is `k3_pay3` of the accumulator and the third block; elsewhere it is left as found.
theorem leaves3_3 (c : Dev nD) (t : Fin cfg3.N) (d) (a : Vec F S5120x512 .f32) (ha : a = soutsAt3 V c t.val t.isLt) :
    owns (c : Thread nD τ) (ms3_3 t) fullShare (if cond3_1 (grid3.coords t) then k3_pay3 a (iblk3 V c 2 t) else (dat3 V c).before 3 t d)
      ⊢ (dat3 V c).leavesExact 3 t := by
  subst ha
  by_cases h1 : t.val % 10 = 9
  · rw [if_pos ((hcond3_1 t).mpr h1), show (dat3 V c).leavesExact 3 t = owns (c : Thread nD τ) (ms3_3 t) fullShare ((dat3 V c).after 3 t) from by
      unfold Dat.leavesExact; rw [liveAt3_3 t h1], after3_3]
    unfold outsAt3
    iintro H; iexact H
  · rw [if_neg (mt (hcond3_1 t).mp h1), Dat.leavesExact_idle (dat3 V c) 3 t (idleAt3_3 t h1) (noFlush3_3 t h1)]
    iintro H; iexists _; iexact H

-- The body at any point: one run, framed by the invariant and the four blocks.
theorem sound_body3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (ms3_3 t) fullShare ((dat3 V c).before 3 t d)))
    ⊢ wp frame (wpE (defs₀ (F := F)) Variants.none c none) Set.univ (bodyAt3 t) (fun _ =>
      iprop(iprop(owns (c : Thread nD τ) scM3_0 fullShare (soutsAt3 V c t.val t.isLt) ∗ (∃ r, prngReg c r) ∗ Pipeline.scopedRestBut spec3 c [cc3_scratch0])
        ∗ (dat3 V c).owesAt () t.castSucc
        ∗ (dat3 V c).leavesExact 0 t ∗ (dat3 V c).leavesExact 1 t ∗ (dat3 V c).leavesExact 2 t ∗ (dat3 V c).leavesExact 3 t)) := by
  unfold bodyAt3
  simp only [before3_0, before3_1, before3_2]
  rw [leaves3 V c 0 (by decide), leaves3 V c 1 (by decide), leaves3 V c 2 (by decide), after3_0, after3_1, after3_2]
  refine (sep_mono_left (PhiS3_open V c t.val (Nat.le_of_lt t.isLt))).trans ?_
  iintro ⟨⟨%xs, %hxs, HS, Hg, HR⟩, Ho, ⟨%d0, H0⟩, ⟨%d1, H1⟩, ⟨%d2, H2⟩, ⟨%d3, H3⟩⟩
  rw [← soutsAt3_eq V c t xs hxs]
  iapply (kernelRun3 c (grid3.coords t) _ _ _ _ _ _ _ _ _ _
    (fun h0 h1 => by have := (hcond3_0 t).mp h0; have := (hcond3_1 t).mp h1; omega)
    (iblk3 V c 0 t) (iblk3 V c 1 t) (iblk3 V c 2 t) ((dat3 V c).before 3 t d3) xs Set.univ _)
  iframe H0 H1 H2 H3 HS
  iintro ⟨H0, H1, H2, H3, HS⟩
  iframe HS Hg HR Ho H0 H1 H2
  iapply (leaves3_3 V c t d3 _ (soutsAt3_eq V c t xs hxs))
  iexact H3

theorem body_obligation3 (c : Dev nD) : BodyObligation (dat3 (F := F) V c) (defs₀ (F := F)) Variants.none () Set.univ := fun t => by
  rw [bigSep_W3, bigSep_W3]
  exact sound_body3 V c t

theorem Phi3_intro (c : Dev nD) :
    iprop((∃ r, prngReg c r) ∗ Pipeline.scopedRest spec3 c) ⊢ (dat3 V c).Φ 0 := by
  rw [show (dat3 V c).Φ 0 = PhiS3 V c 0 (Nat.zero_le _) from rfl, PhiS3, scopedRest3_split]
  simp only [scM3_0, owns_whole]
  iintro ⟨Hg, HS, HR⟩
  iframe

theorem Phi3_elim (c : Dev nD) :
    (dat3 V c).Φ (Fin.last cfg3.N) ⊢ iprop((∃ r, prngReg c r) ∗ Pipeline.scopedRest spec3 c) := by
  refine (PhiS3_open V c cfg3.N le_rfl).trans ?_
  rw [scopedRest3_split]
  simp only [scM3_0, owns_whole]
  iintro ⟨%xs, -, HS, Hg, HR⟩
  iframe Hg HR
  iexists _; iexact HS

end Cert.KernelIdeal.Hand

end
-- ==== Proof.KI.Dense4.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Writes
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5120x512 := Rect.unit (s := S5120x512) ![0, 0] S5120x512.size inb_S5120x512_S5120x512_0_0

abbrev r4_1 : Rect S512x512 := Rect.unit (s := S512x512) ![0, 0] S512x512.size inb_S512x512_S512x512_0_0

abbrev r4_2 : Rect S5120x512 := Rect.unit (s := S5120x512) ![0, 0] S5120x512.size inb_S5120x512_S5120x512_0_0

def out4_2 (x0 : Vec F S5120x512 .bf16) (x1 : Vec F S512x512 .bf16) : Vec F S5120x512 .bf16 :=
  View.canon [⟨r4_2, k4_pay1 (View.ld x0 r4_0) (View.ld x1 r4_1)⟩]

set_option maxHeartbeats 1000000 in
theorem sound_kernel4 (c : Dev nD) (E : Set ℕ) (i : grid4.Coords)
    (arg1 : Memref sig .tc .vmem S5120x512 .bf16) (harg1 : arg1.IsWhole)
    (arg2 : Memref sig .tc .vmem S512x512 .bf16) (harg2 : arg2.IsWhole)
    (arg3 : Memref sig .tc .vmem S5120x512 .bf16) (harg3 : arg3.IsWhole)
    (x0 : Vec F S5120x512 .bf16) (x1 : Vec F S512x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__dense_gemm_kernel i arg1 harg1 arg2 harg2 arg3 harg3) K := by
  simp only [cc4__dense_gemm_kernel_eq_skeleton]; unfold cc4__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5120x512.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) fun _ =>
      iprop((dat4 V c).Φ t.castSucc ∗ (dat4 V c).owesAt () t.castSucc
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t)) := by
  unfold bodyAt4
  simp only [before4_0, before4_1]
  rw [show (dat4 V c).after 0 t = iblk4 V c 0 t from rfl, show (dat4 V c).after 1 t = iblk4 V c 1 t from rfl, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Agg5.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import proofs.«401117_j39195871543847_2_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1

theorem hcond5_1 : ∀ t : Fin cfg5.N, cond5_1 (grid5.coords t) ↔ t.val % 10 = 9 :=
  (by decide +kernel : ∀ t : Fin grid5.N, cond5_1 (grid5.coords t) ↔ t.val % 10 = 9)

theorem liveAt5 : ∀ (w : Fin cfg5.W) (t : Fin cfg5.N), w ≠ 3 → cfg5.idle w (grid5.coords t) = false := by decide +kernel

theorem idleAt5_3 : ∀ t : Fin cfg5.N, ¬t.val % 10 = 9 → cfg5.idle 3 (grid5.coords t) = true := by decide +kernel
theorem noFlush5_3 (t : Fin cfg5.N) (h1 : ¬t.val % 10 = 9) : (cfg5.win 3).flush t = false :=
  Bool.eq_false_iff.mpr fun h => h1 ((flush5_3 t).mp h)
theorem liveAt5_3 : ∀ t : Fin cfg5.N, t.val % 10 = 9 → cfg5.idle 3 (grid5.coords t) = false := by decide +kernel

abbrev ms5_3 (t : Fin cfg5.N) : Memref sig .tc .vmem S5120x512 .bf16 := win5_3.stage (cfg5.slots t 3)

abbrev scM5_0 : Memref sig .tc .vmem S5120x512 .f32 := Memref.whole cc5_scratch0

-- One run of the body: the accumulator restarts from zero when the step is 0; the output block is written only at the last step.
set_option maxHeartbeats 1000000 in
theorem kernelRun5 (c : Dev nD) (i : grid5.Coords)
    (arg2 : Memref sig .tc .vmem S5120x1024 .bf16) (harg2 : arg2.IsWhole) (arg3 : Memref sig .tc .vmem S1024x512 .bf16) (harg3 : arg3.IsWhole)
    (arg4 : Memref sig .tc .vmem S1x512 .f32) (harg4 : arg4.IsWhole) (arg5 : Memref sig .tc .vmem S5120x512 .bf16) (harg5 : arg5.IsWhole)
    (arg6 : Memref sig .tc .vmem S5120x512 .f32) (harg6 : arg6.IsWhole) (hx : cond5_0 i → ¬cond5_1 i)
    (x0 : Vec F S5120x1024 .bf16) (x1 : Vec F S1024x512 .bf16) (x2 : Vec F S1x512 .f32) (xi3 : Vec F S5120x512 .bf16) (xs : Vec F S5120x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if cond5_1 i then k5_pay3 (k5_pay2 x0 x1 (if cond5_0 i then k5_pay1 else xs)) x2 else xi3)
            ∗ owns (c : Thread nD τ) arg6 fullShare (k5_pay2 x0 x1 (if cond5_0 i then k5_pay1 else xs))) -∗ K ⟨⟩))
      ⊢ wp frame (wpE (defs₀ (F := F)) Variants.none c none) E (cc5_kernel i arg2 harg2 arg3 harg3 arg4 harg4 arg5 harg5 arg6 harg6) K := by
  by_cases hc0 : cond5_0 i <;> by_cases hc1 : cond5_1 i
  · exact absurd hc1 (hx hc0)
  all_goals
    first | rw [if_pos hc0] | rw [if_neg hc0]
    first | rw [if_pos hc1] | rw [if_neg hc1]
    simp only [cc5_kernel_eq_skeleton]; unfold cc5_kernel_skel owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      first
        | (sl_unfold_run_names
           rw [read_writes_whole_cons _ _ off00, View.readCov_unit_zero _ off00, readAt_whole_unread harg2 off00, readAt_whole_unread harg3 off00,
             readAt_whole_unread harg6 off00, readAt_whole_unread harg4 off00])
        | exact harg5.read_unread _
    iexists _; isplitr
    swap; · iexact HS
    ipureintro
    sl_unfold_run_names
    first
      | rw [read_writes_whole_cons _ _ off00, readAt_whole_unread harg2 off00, readAt_whole_unread harg3 off00, readAt_whole_unread harg6 off00]
      | rw [read_writes_whole_cons _ _ off00, readAt_whole_unread harg2 off00, readAt_whole_unread harg3 off00, View.readCov_unit_zero _ off00]

-- The accumulator after point `t`: the product of the two blocks added to zero at step 0, to the previous accumulator otherwise.
def soutsAt5 (c : Dev nD) : (t : ℕ) → (ht : t < cfg5.N) → Vec F S5120x512 .f32
  | 0, ht => k5_pay2 (iblk5 V c 0 ⟨0, ht⟩) (iblk5 V c 1 ⟨0, ht⟩) k5_pay1
  | n + 1, ht =>
    k5_pay2 (iblk5 V c 0 ⟨n + 1, ht⟩) (iblk5 V c 1 ⟨n + 1, ht⟩)
      (if (n + 1) % 10 = 0 then k5_pay1 else soutsAt5 c n (Nat.lt_of_succ_lt ht))

theorem soutsAt5_zero (c : Dev nD) (t : Fin cfg5.N) (h0 : t.val % 10 = 0) :
    soutsAt5 V c t.val t.isLt = k5_pay2 (iblk5 V c 0 t) (iblk5 V c 1 t) k5_pay1 := by
  obtain ⟨n, hn⟩ := t
  cases n with
  | zero => rfl
  | succ n =>
    show k5_pay2 _ _ (if (n + 1) % 10 = 0 then k5_pay1 else soutsAt5 V c n _) = _
    rw [if_pos h0]

theorem soutsAt5_pos (c : Dev nD) (t : Fin cfg5.N) (h0 : ¬t.val % 10 = 0) :
    soutsAt5 V c t.val t.isLt = k5_pay2 (iblk5 V c 0 t) (iblk5 V c 1 t)
      (soutsAt5 V c (t.val - 1) (Nat.lt_of_le_of_lt (Nat.sub_le _ _) t.isLt)) := by
  obtain ⟨n, hn⟩ := t
  cases n with
  | zero => exact absurd (Nat.zero_mod _) h0
  | succ n =>
    show k5_pay2 _ _ (if (n + 1) % 10 = 0 then k5_pay1 else soutsAt5 V c n _) = _
    rw [if_neg h0]; rfl

def outsAt5 (c : Dev nD) (t : Fin cfg5.N) : Vec F S5120x512 .bf16 :=
  k5_pay3 (soutsAt5 V c t.val t.isLt) (iblk5 V c 2 t)

def PhiS5 (c : Dev nD) : (n : ℕ) → n ≤ cfg5.N → sProp 𝕄
  | 0, _ => iprop(iprop(∃ d, owns (c : Thread nD τ) scM5_0 fullShare d) ∗ (∃ r, prngReg c r) ∗ Pipeline.scopedRestBut spec5 c [cc5_scratch0])
  | n + 1, hn => iprop(owns (c : Thread nD τ) scM5_0 fullShare (soutsAt5 V c n hn) ∗ (∃ r, prngReg c r) ∗ Pipeline.scopedRestBut spec5 c [cc5_scratch0])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

theorem leaves5 (c : Dev nD) (w : Fin cfg5.W) (hw : w ≠ 3) (t : Fin cfg5.N) :
    (dat5 V c).leavesExact w t = owns (c : Thread nD τ) ((cfg5.win w).stage (cfg5.slots t w)) fullShare ((dat5 V c).after w t) := by
  unfold Dat.leavesExact; rw [liveAt5 w t hw]

-- Before a point the accumulator holds what the point before left; before the first point, anything.
theorem PhiS5_open (c : Dev nD) (n : ℕ) (h : n ≤ cfg5.N) :
    PhiS5 V c n h ⊢ iprop(∃ xs, ⌜∀ hn : n ≠ 0, xs = soutsAt5 V c (n - 1) (by omega)⌝
      ∗ owns (c : Thread nD τ) scM5_0 fullShare xs ∗ (∃ r, prngReg c r) ∗ Pipeline.scopedRestBut spec5 c [cc5_scratch0]) := by
  cases n with
  | zero =>
    rw [PhiS5]
    iintro ⟨⟨%d, HS⟩, HR⟩
    iexists d; isplitr; · ipureintro; exact fun h => absurd rfl h
    iframe
  | succ n =>
    rw [PhiS5]
    iintro H
    iexists _; isplitr
    swap; · iexact H
    ipureintro; exact fun _ => rfl

-- The recursion of `soutsAt5`, its two cases in one equation.
theorem soutsAt5_eq (c : Dev nD) (t : Fin cfg5.N) (xs : Vec F S5120x512 .f32)
    (hxs : t.val ≠ 0 → xs = soutsAt5 V c (t.val - 1) (Nat.lt_of_le_of_lt (Nat.sub_le _ _) t.isLt)) :
    k5_pay2 (iblk5 V c 0 t) (iblk5 V c 1 t) (if cond5_0 (grid5.coords t) then k5_pay1 else xs) = soutsAt5 V c t.val t.isLt := by
  by_cases h0 : t.val % 10 = 0
  · rw [if_pos ((hcond5_0 t).mpr h0), soutsAt5_zero V c t h0]
  · rw [if_neg (mt (hcond5_0 t).mp h0), soutsAt5_pos V c t h0, hxs fun hz => h0 (by rw [hz])]

-- At the last step the output block is `k5_pay3` of the accumulator and the third block; elsewhere it is left as found.
theorem leaves5_3 (c : Dev nD) (t : Fin cfg5.N) (d) (a : Vec F S5120x512 .f32) (ha : a = soutsAt5 V c t.val t.isLt) :
    owns (c : Thread nD τ) (ms5_3 t) fullShare (if cond5_1 (grid5.coords t) then k5_pay3 a (iblk5 V c 2 t) else (dat5 V c).before 3 t d)
      ⊢ (dat5 V c).leavesExact 3 t := by
  subst ha
  by_cases h1 : t.val % 10 = 9
  · rw [if_pos ((hcond5_1 t).mpr h1), show (dat5 V c).leavesExact 3 t = owns (c : Thread nD τ) (ms5_3 t) fullShare ((dat5 V c).after 3 t) from by
      unfold Dat.leavesExact; rw [liveAt5_3 t h1], after5_3]
    unfold outsAt5
    iintro H; iexact H
  · rw [if_neg (mt (hcond5_1 t).mp h1), Dat.leavesExact_idle (dat5 V c) 3 t (idleAt5_3 t h1) (noFlush5_3 t h1)]
    iintro H; iexists _; iexact H

-- The body at any point: one run, framed by the invariant and the four blocks.
theorem sound_body5 (c : Dev nD) (t : Fin cfg5.N) :
    iprop((dat5 V c).Φ t.castSucc ∗ (dat5 V c).owesAt () t.castSucc
      ∗ (∃ d, owns (c : Thread nD τ) (win5_0.stage (cfg5.slots t 0)) fullShare ((dat5 V c).before 0 t d))
      ∗ (∃ d, owns (c : Thread nD τ) (win5_1.stage (cfg5.slots t 1)) fullShare ((dat5 V c).before 1 t d))
      ∗ (∃ d, owns (c : Thread nD τ) (win5_2.stage (cfg5.slots t 2)) fullShare ((dat5 V c).before 2 t d))
      ∗ (∃ d, owns (c : Thread nD τ) (ms5_3 t) fullShare ((dat5 V c).before 3 t d)))
    ⊢ wp frame (wpE (defs₀ (F := F)) Variants.none c none) Set.univ (bodyAt5 t) (fun _ =>
      iprop(iprop(owns (c : Thread nD τ) scM5_0 fullShare (soutsAt5 V c t.val t.isLt) ∗ (∃ r, prngReg c r) ∗ Pipeline.scopedRestBut spec5 c [cc5_scratch0])
        ∗ (dat5 V c).owesAt () t.castSucc
        ∗ (dat5 V c).leavesExact 0 t ∗ (dat5 V c).leavesExact 1 t ∗ (dat5 V c).leavesExact 2 t ∗ (dat5 V c).leavesExact 3 t)) := by
  unfold bodyAt5
  simp only [before5_0, before5_1, before5_2]
  rw [leaves5 V c 0 (by decide), leaves5 V c 1 (by decide), leaves5 V c 2 (by decide), after5_0, after5_1, after5_2]
  refine (sep_mono_left (PhiS5_open V c t.val (Nat.le_of_lt t.isLt))).trans ?_
  iintro ⟨⟨%xs, %hxs, HS, Hg, HR⟩, Ho, ⟨%d0, H0⟩, ⟨%d1, H1⟩, ⟨%d2, H2⟩, ⟨%d3, H3⟩⟩
  rw [← soutsAt5_eq V c t xs hxs]
  iapply (kernelRun5 c (grid5.coords t) _ _ _ _ _ _ _ _ _ _
    (fun h0 h1 => by have := (hcond5_0 t).mp h0; have := (hcond5_1 t).mp h1; omega)
    (iblk5 V c 0 t) (iblk5 V c 1 t) (iblk5 V c 2 t) ((dat5 V c).before 3 t d3) xs Set.univ _)
  iframe H0 H1 H2 H3 HS
  iintro ⟨H0, H1, H2, H3, HS⟩
  iframe HS Hg HR Ho H0 H1 H2
  iapply (leaves5_3 V c t d3 _ (soutsAt5_eq V c t xs hxs))
  iexact H3

theorem body_obligation5 (c : Dev nD) : BodyObligation (dat5 (F := F) V c) (defs₀ (F := F)) Variants.none () Set.univ := fun t => by
  rw [bigSep_W5, bigSep_W5]
  exact sound_body5 V c t

theorem Phi5_intro (c : Dev nD) :
    iprop((∃ r, prngReg c r) ∗ Pipeline.scopedRest spec5 c) ⊢ (dat5 V c).Φ 0 := by
  rw [show (dat5 V c).Φ 0 = PhiS5 V c 0 (Nat.zero_le _) from rfl, PhiS5, scopedRest5_split]
  simp only [scM5_0, owns_whole]
  iintro ⟨Hg, HS, HR⟩
  iframe

theorem Phi5_elim (c : Dev nD) :
    (dat5 V c).Φ (Fin.last cfg5.N) ⊢ iprop((∃ r, prngReg c r) ∗ Pipeline.scopedRest spec5 c) := by
  refine (PhiS5_open V c cfg5.N le_rfl).trans ?_
  rw [scopedRest5_split]
  simp only [scM5_0, owns_whole]
  iintro ⟨%xs, -, HS, Hg, HR⟩
  iframe Hg HR
  iexists _; iexact HS

end Cert.KernelIdeal.Hand

end
-- ==== Proof.KI.Dense6.lean ====
import proofs.«401117_j39195871543847_2_alg».proof.Proof.Gen.KernelIdeal.Launch
import proofs.«401117_j39195871543847_2_alg».proof.Proof.Gen.KernelIdeal.Skeleton
import proofs.«401117_j39195871543847_2_alg».proof.Proof.Gen.KernelIdeal.Points
import Idealize.ShloMosaic.Lib.Pipeline.FrameBody
import Idealize.ShloMosaic.Lib.Writes
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5120x512 := Rect.unit (s := S5120x512) ![0, 0] S5120x512.size inb_S5120x512_S5120x512_0_0

abbrev r6_1 : Rect S512x2 := Rect.unit (s := S512x2) ![0, 0] S512x2.size inb_S512x2_S512x2_0_0

abbrev r6_2 : Rect S5120x2 := Rect.unit (s := S5120x2) ![0, 0] S5120x2.size inb_S5120x2_S5120x2_0_0

def out6_2 (x0 : Vec F S5120x512 .bf16) (x1 : Vec F S512x2 .bf16) : Vec F S5120x2 .f32 :=
  View.canon [⟨r6_2, k6_pay1 (View.ld x0 r6_0) (View.ld x1 r6_1)⟩]

set_option maxHeartbeats 1000000 in
theorem sound_kernel6 (c : Dev nD) (E : Set ℕ) (i : grid6.Coords)
    (arg1 : Memref sig .tc .vmem S5120x512 .bf16) (harg1 : arg1.IsWhole)
    (arg2 : Memref sig .tc .vmem S512x2 .bf16) (harg2 : arg2.IsWhole)
    (arg3 : Memref sig .tc .vmem S5120x2 .f32) (harg3 : arg3.IsWhole)
    (x0 : Vec F S5120x512 .bf16) (x1 : Vec F S512x2 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__dense_gemm_kernel i arg1 harg1 arg2 harg2 arg3 harg3) K := by
  simp only [cc6__dense_gemm_kernel_eq_skeleton]; unfold cc6__dense_gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5120x2.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) fun _ =>
      iprop((dat6 V c).Φ t.castSucc ∗ (dat6 V c).owesAt () t.castSucc
        ∗ owns (c : Thread nD τ) (st6_0 t) fullShare ((dat6 V c).after 0 t)
        ∗ owns (c : Thread nD τ) (st6_1 t) fullShare ((dat6 V c).after 1 t)
        ∗ owns (c : Thread nD τ) (st6_2 t) fullShare ((dat6 V c).after 2 t)) := by
  unfold bodyAt6
  simp only [before6_0, before6_1]
  rw [show (dat6 V c).after 0 t = iblk6 V c 0 t from rfl, show (dat6 V c).after 1 t = iblk6 V c 1 t from rfl, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  iframe H0 H1
  isplitl [H2]; · iexists _; iexact H2
  iintro ⟨H0, H1, H2⟩
  iframe

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Chain.lean ====
import proofs.«401117_j39195871543847_2_alg».proof.Proof.Gen.KernelIdeal.Regions
import proofs.«401117_j39195871543847_2_alg».proof.Proof.KI.Dense0
import proofs.«401117_j39195871543847_2_alg».proof.Proof.KI.Agg1
import proofs.«401117_j39195871543847_2_alg».proof.Proof.KI.Dense2
import proofs.«401117_j39195871543847_2_alg».proof.Proof.KI.Agg3
import proofs.«401117_j39195871543847_2_alg».proof.Proof.KI.Dense4
import proofs.«401117_j39195871543847_2_alg».proof.Proof.KI.Agg5
import proofs.«401117_j39195871543847_2_alg».proof.Proof.KI.Dense6
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- A valuation as a function on references.
abbrev tcOf (W : Dev nD → Valuation τ sig (Elt F)) : (c : Dev nD) → (b : Ref sig .tc) → Buf (Elt F) ((c : Thread nD τ).loc b) := fun c b => W c b

-- Input arrays keep their contents and the output array ends at its final contents: together, the entry valuation updated at the output.
theorem hF_of {cfg : Cfg sig Λ₀} {c : Dev nD} (d : Dat τ (Elt F) Unit ℕ (UR sig nD τ) ℕ cfg c) (V : Valuation τ sig (Elt F)) (o : Fin cfg.W)
    (hA : ∀ w, d.A w = V (Pipeline.arrRef cfg.spec w))
    (hio : ∀ w, w ≠ o → (cfg.win w).isOut = false ∧ Pipeline.arrRef cfg.spec w ≠ Pipeline.arrRef cfg.spec o) (w : Fin cfg.W) :
    d.arrAt w cfg.N = Function.update V (Pipeline.arrRef cfg.spec o) (d.arrAt o cfg.N) (Pipeline.arrRef cfg.spec w) := by
  by_cases h : w = o
  · subst h; rw [Function.update_self]
  · exact ((d.arrAt_in w (hio w h).1 _).trans (hA w)).trans (Function.update_of_ne (StableHlo.devRef_ne_of_ne (hio w h).2) _ _).symm

-- A reference outside the image of a family differs from each member.
theorem not_arr {W gr : Nat} {spec : Fin W → Pipeline.WinSpec sig gr} {b : Ref sig .tc} (hb : b ∉ Finset.univ.image (Pipeline.arrRef spec)) (o : Fin W) :
    b ≠ Pipeline.arrRef spec o := fun e => hb (Finset.mem_image.mpr ⟨o, Finset.mem_univ _, e.symm⟩)

abbrev W3 : Dev nD → Valuation τ sig (Elt F) := fun c => V3 m c
abbrev U3 := tcOf (W3 m)
def W4 (c : Dev nD) : Valuation τ sig (Elt F) :=
  Function.update (W3 m c) main_v54 ((dat0 (U3 m) c).arrAt 2 cfg0.N)
theorem W4_out (c : Dev nD) : W4 m c main_v54 = (dat0 (U3 m) c).arrAt 2 cfg0.N := by
  unfold W4; exact Function.update_self _ _ _
theorem W4_of_ne (c : Dev nD) (b : Ref sig .tc) (hb : b ≠ main_v54) : W4 m c b = W3 m c b := by
  unfold W4; exact Function.update_of_ne (StableHlo.devRef_ne_of_ne hb) _ _
abbrev W5 : Dev nD → Valuation τ sig (Elt F) := fun c => StableHlo.after hostOps1 (W4 m c)
abbrev U5 := tcOf (W5 m)
def W6 (c : Dev nD) : Valuation τ sig (Elt F) :=
  Function.update (W5 m c) main_v56 ((dat1 (U5 m) c).arrAt 3 cfg1.N)
theorem W6_out (c : Dev nD) : W6 m c main_v56 = (dat1 (U5 m) c).arrAt 3 cfg1.N := by
  unfold W6; exact Function.update_self _ _ _
theorem W6_of_ne (c : Dev nD) (b : Ref sig .tc) (hb : b ≠ main_v56) : W6 m c b = W5 m c b := by
  unfold W6; exact Function.update_of_ne (StableHlo.devRef_ne_of_ne hb) _ _
abbrev U6 := tcOf (W6 m)
def W7 (c : Dev nD) : Valuation τ sig (Elt F) :=
  Function.update (W6 m c) main_v57 ((dat2 (U6 m) c).arrAt 2 cfg2.N)
theorem W7_out (c : Dev nD) : W7 m c main_v57 = (dat2 (U6 m) c).arrAt 2 cfg2.N := by
  unfold W7; exact Function.update_self _ _ _
theorem W7_of_ne (c : Dev nD) (b : Ref sig .tc) (hb : b ≠ main_v57) : W7 m c b = W6 m c b := by
  unfold W7; exact Function.update_of_ne (StableHlo.devRef_ne_of_ne hb) _ _
abbrev W8 : Dev nD → Valuation τ sig (Elt F) := fun c => StableHlo.after hostOps3 (W7 m c)
abbrev U8 := tcOf (W8 m)
def W9 (c : Dev nD) : Valuation τ sig (Elt F) :=
  Function.update (W8 m c) main_v59 ((dat3 (U8 m) c).arrAt 3 cfg3.N)
theorem W9_out (c : Dev nD) : W9 m c main_v59 = (dat3 (U8 m) c).arrAt 3 cfg3.N := by
  unfold W9; exact Function.update_self _ _ _
theorem W9_of_ne (c : Dev nD) (b : Ref sig .tc) (hb : b ≠ main_v59) : W9 m c b = W8 m c b := by
  unfold W9; exact Function.update_of_ne (StableHlo.devRef_ne_of_ne hb) _ _
abbrev U9 := tcOf (W9 m)
def W10 (c : Dev nD) : Valuation τ sig (Elt F) :=
  Function.update (W9 m c) main_v60 ((dat4 (U9 m) c).arrAt 2 cfg4.N)
theorem W10_out (c : Dev nD) : W10 m c main_v60 = (dat4 (U9 m) c).arrAt 2 cfg4.N := by
  unfold W10; exact Function.update_self _ _ _
theorem W10_of_ne (c : Dev nD) (b : Ref sig .tc) (hb : b ≠ main_v60) : W10 m c b = W9 m c b := by
  unfold W10; exact Function.update_of_ne (StableHlo.devRef_ne_of_ne hb) _ _
abbrev W11 : Dev nD → Valuation τ sig (Elt F) := fun c => StableHlo.after hostOps5 (W10 m c)
abbrev U11 := tcOf (W11 m)
def W12 (c : Dev nD) : Valuation τ sig (Elt F) :=
  Function.update (W11 m c) main_v62 ((dat5 (U11 m) c).arrAt 3 cfg5.N)
theorem W12_out (c : Dev nD) : W12 m c main_v62 = (dat5 (U11 m) c).arrAt 3 cfg5.N := by
  unfold W12; exact Function.update_self _ _ _
theorem W12_of_ne (c : Dev nD) (b : Ref sig .tc) (hb : b ≠ main_v62) : W12 m c b = W11 m c b := by
  unfold W12; exact Function.update_of_ne (StableHlo.devRef_ne_of_ne hb) _ _
abbrev U12 := tcOf (W12 m)
def W13 (c : Dev nD) : Valuation τ sig (Elt F) :=
  Function.update (W12 m c) main_v63 ((dat6 (U12 m) c).arrAt 2 cfg6.N)
theorem W13_out (c : Dev nD) : W13 m c main_v63 = (dat6 (U12 m) c).arrAt 2 cfg6.N := by
  unfold W13; exact Function.update_self _ _ _
theorem W13_of_ne (c : Dev nD) (b : Ref sig .tc) (hb : b ≠ main_v63) : W13 m c b = W12 m c b := by
  unfold W13; exact Function.update_of_ne (StableHlo.devRef_ne_of_ne hb) _ _
abbrev U4 := tcOf (W4 m)
abbrev U7 := tcOf (W7 m)
abbrev U10 := tcOf (W10 m)
abbrev U13 := tcOf (W13 m)

theorem hF0 (c : Dev nD) (w : Fin cfg0.W) : (dat0 (U3 m) c).arrAt w cfg0.N = U4 m c (Pipeline.arrRef spec0 w) :=
  hF_of (dat0 (U3 m) c) (W3 m c) 2 (A_eq0 (U3 m) c) (by decide) w
theorem hrest0 (c : Dev nD) : ∀ b, b ∉ Finset.univ.image (Pipeline.arrRef spec0) → U4 m c b = U3 m c b :=
  fun b hb => W4_of_ne m c b (not_arr hb 2)

theorem hF1 (c : Dev nD) (w : Fin cfg1.W) : (dat1 (U5 m) c).arrAt w cfg1.N = U6 m c (Pipeline.arrRef spec1 w) :=
  hF_of (dat1 (U5 m) c) (W5 m c) 3 (A_eq1 (U5 m) c) (by decide) w
theorem hrest1 (c : Dev nD) : ∀ b, b ∉ Finset.univ.image (Pipeline.arrRef spec1) → U6 m c b = U5 m c b :=
  fun b hb => W6_of_ne m c b (not_arr hb 3)

theorem hF2 (c : Dev nD) (w : Fin cfg2.W) : (dat2 (U6 m) c).arrAt w cfg2.N = U7 m c (Pipeline.arrRef spec2 w) :=
  hF_of (dat2 (U6 m) c) (W6 m c) 2 (A_eq2 (U6 m) c) (by decide) w
theorem hrest2 (c : Dev nD) : ∀ b, b ∉ Finset.univ.image (Pipeline.arrRef spec2) → U7 m c b = U6 m c b :=
  fun b hb => W7_of_ne m c b (not_arr hb 2)

theorem hF3 (c : Dev nD) (w : Fin cfg3.W) : (dat3 (U8 m) c).arrAt w cfg3.N = U9 m c (Pipeline.arrRef spec3 w) :=
  hF_of (dat3 (U8 m) c) (W8 m c) 3 (A_eq3 (U8 m) c) (by decide) w
theorem hrest3 (c : Dev nD) : ∀ b, b ∉ Finset.univ.image (Pipeline.arrRef spec3) → U9 m c b = U8 m c b :=
  fun b hb => W9_of_ne m c b (not_arr hb 3)

theorem hF4 (c : Dev nD) (w : Fin cfg4.W) : (dat4 (U9 m) c).arrAt w cfg4.N = U10 m c (Pipeline.arrRef spec4 w) :=
  hF_of (dat4 (U9 m) c) (W9 m c) 2 (A_eq4 (U9 m) c) (by decide) w
theorem hrest4 (c : Dev nD) : ∀ b, b ∉ Finset.univ.image (Pipeline.arrRef spec4) → U10 m c b = U9 m c b :=
  fun b hb => W10_of_ne m c b (not_arr hb 2)

theorem hF5 (c : Dev nD) (w : Fin cfg5.W) : (dat5 (U11 m) c).arrAt w cfg5.N = U12 m c (Pipeline.arrRef spec5 w) :=
  hF_of (dat5 (U11 m) c) (W11 m c) 3 (A_eq5 (U11 m) c) (by decide) w
theorem hrest5 (c : Dev nD) : ∀ b, b ∉ Finset.univ.image (Pipeline.arrRef spec5) → U12 m c b = U11 m c b :=
  fun b hb => W12_of_ne m c b (not_arr hb 3)

theorem hF6 (c : Dev nD) (w : Fin cfg6.W) : (dat6 (U12 m) c).arrAt w cfg6.N = U13 m c (Pipeline.arrRef spec6 w) :=
  hF_of (dat6 (U12 m) c) (W12 m c) 2 (A_eq6 (U12 m) c) (by decide) w
theorem hrest6 (c : Dev nD) : ∀ b, b ∉ Finset.univ.image (Pipeline.arrRef spec6) → U13 m c b = U12 m c b :=
  fun b hb => W13_of_ne m c b (not_arr hb 2)

end Cert.KernelIdeal.Hand

end
-- ==== Proof.KI.Run.lean ====
import proofs.«401117_j39195871543847_2_alg».proof.Proof.KI.RunCond
import proofs.«401117_j39195871543847_2_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U6 m) c
  | ⟨3, _⟩ => fun c => dat3 (U8 m) c
  | ⟨4, _⟩ => fun c => dat4 (U9 m) c
  | ⟨5, _⟩ => fun c => dat5 (U11 m) c
  | ⟨6, _⟩ => fun c => dat6 (U12 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false

-- Every region is a segment from the valuation V to V', where V' agrees with V off the region's arrays and holds their final contents on them.
def mkReg (p : Fin 7) (lk : Pipeline.LaunchFacts (nD := nD) (τ := τ) cfgs p) (V V' : Dev nD → Valuation τ sig (Elt F))
    (hb : ∀ c, BodyObligation (pdats m p c) (defs₀ (F := F)) 𝒱₀ () Set.univ)
    (hF : ∀ c w, (pdats m p c).arrAt w (cfgs p).N = V' c (Pipeline.arrRef (cfgs p).spec w))
    (hrest : ∀ c b, b ∉ Finset.univ.image (Pipeline.arrRef (cfgs p).spec) → V' c b = V c b)
    (hi : ∀ c, iprop((∃ r, prngReg c r) ∗ Pipeline.scopedRest (cfgs p).spec c) ⊢ (pdats m p c).Φ 0)
    (he : ∀ c, (pdats m p c).Φ (Fin.last (cfgs p).N) ⊢ iprop((∃ r, prngReg c r) ∗ Pipeline.scopedRest (cfgs p).spec c))
    (hq : ∀ c w, (pdats m p c).q w = fullShare := by exact fun _ _ => rfl) (h0 : ∀ c, (pdats m p c).owed = fun _ => 0 := by exact fun _ => rfl)
    (hr : ∀ c x, x ∈ (pdats m p c).recorded 0 := by exact fun _ _ => trivial)
    (hA : ∀ c w, (pdats m p c).A w = V c (Pipeline.arrRef (cfgs p).spec w) := by exact fun _ _ => rfl) :
    Pipeline.RegionSeg (pcfgs (F := F)) adm (pdats m) () defs₀ 𝒱₀ L lv p where
  win := lk.win.to₀
  block_pos := lk.block_pos
  stage_whole := lk.stage_whole
  K := PEmpty
  osem k := k.elim
  ho := Pipeline.OwnSemFacts.none _
  hbody c := (hb c).loose
  hwaits := Pipeline.hwaits_of_owed_zero _ _ _ _ L lv p fun c t => congrFun (h0 c) t
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lk.win lk.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0 c]
      icases HO with ⟨%W, HO⟩; iexists W; isplitr; · ipureintro; exact fun _ _ => Or.inl (hr c _)
      iexact HO
    isplitl [Hp]; · iexact Hp
    iexact Hrest
  hin c := by
    refine .trans ?_ (hi c)
    iintro ⟨Hp, -, Hr⟩
    isplitl [Hp]; · iexact Hp
    iexact Hr
  hout c := by
    rw [Pipeline.ownSems0_none]
    refine (he c).trans ?_
    iintro ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lk.win lk.arr_whole c (pdats m) ((pdats m p c).share_full (hq c))
      (fun b => V c b) (fun b => V' c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c]
    icases HO with ⟨%W, -, HO⟩; iexists W; iexact HO

def reg0 := mkReg m 0 launch0 (W3 m) (W4 m) (body_obligation0 (U3 m)) (hF0 m) (hrest0 m) (fun _ => sep_symm) (fun _ => sep_symm)
def reg1 := mkReg m 1 launch1 (W5 m) (W6 m) (body_obligation1 (U5 m)) (hF1 m) (hrest1 m) (Phi1_intro (U5 m)) (Phi1_elim (U5 m))
def reg2 := mkReg m 2 launch2 (W6 m) (W7 m) (body_obligation2 (U6 m)) (hF2 m) (hrest2 m) (fun _ => sep_symm) (fun _ => sep_symm)
def reg3 := mkReg m 3 launch3 (W8 m) (W9 m) (body_obligation3 (U8 m)) (hF3 m) (hrest3 m) (Phi3_intro (U8 m)) (Phi3_elim (U8 m))
def reg4 := mkReg m 4 launch4 (W9 m) (W10 m) (body_obligation4 (U9 m)) (hF4 m) (hrest4 m) (fun _ => sep_symm) (fun _ => sep_symm)
def reg5 := mkReg m 5 launch5 (W11 m) (W12 m) (body_obligation5 (U11 m)) (hF5 m) (hrest5 m) (Phi5_intro (U11 m)) (Phi5_elim (U11 m))
def reg6 := mkReg m 6 launch6 (W12 m) (W13 m) (body_obligation6 (U12 m)) (hF6 m) (hrest6 m) (fun _ => sep_symm) (fun _ => sep_symm)

def outsK : Outs (F := F) := fun J r c =>
  match J with
  | 4 => W4 m c r
  | 6 => W6 m c r
  | 7 => W7 m c r
  | 9 => W9 m c r
  | 10 => W10 m c r
  | 12 => W12 m c r
  | 13 => W13 m c r
  | _ => W3 m c r

-- Updating at r with the value an update at r already put there changes nothing.
theorem upd_eq {V W : Valuation τ sig (Elt F)} (h : V = W) (r : DevRef τ sig) (x : r.ty.Contents (Elt F)) :
    Function.update V r (Function.update W r x r) = Function.update W r x := by rw [h, Function.update_self]
theorem V4_eq (c : Dev nD) : V4 m (outsK m) c = W4 m c := upd_eq rfl _ _
theorem V5_eq (c : Dev nD) : V5 m (outsK m) c = W5 m c := congrArg (StableHlo.after hostOps1) (V4_eq m c)
theorem V6_eq (c : Dev nD) : V6 m (outsK m) c = W6 m c := upd_eq (V5_eq m c) _ _
theorem V7_eq (c : Dev nD) : V7 m (outsK m) c = W7 m c := upd_eq (V6_eq m c) _ _
theorem V8_eq (c : Dev nD) : V8 m (outsK m) c = W8 m c := congrArg (StableHlo.after hostOps3) (V7_eq m c)
theorem V9_eq (c : Dev nD) : V9 m (outsK m) c = W9 m c := upd_eq (V8_eq m c) _ _
theorem V10_eq (c : Dev nD) : V10 m (outsK m) c = W10 m c := upd_eq (V9_eq m c) _ _
theorem V11_eq (c : Dev nD) : V11 m (outsK m) c = W11 m c := congrArg (StableHlo.after hostOps5) (V10_eq m c)
theorem V12_eq (c : Dev nD) : V12 m (outsK m) c = W12 m c := upd_eq (V11_eq m c) _ _
theorem V13_eq (c : Dev nD) : V13 m (outsK m) c = W13 m c := upd_eq (V12_eq m c) _ _

theorem run_main (ρ : Dev nD → PrngReg) : θ_run defs (onTc (τ := τ) (main (F := F))) ⟨m, fun _ => 0, ρ⟩ (fun r => ∀ c : Dev nD,
      r.2.mem ((c.tc : Thread nD τ).loc main_v81) = V15 m (outsK m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond (Ix := Unit) (U := UR sig nD τ) (Lvl := ℕ) m (EP := emb₁) (ι := ()) (𝒱₀ := 𝒱₀) (L := L) (lv := lv) (hL := fun _ _ => rfl)
    (ρ := ρ) (outs := outsK m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE7 := fun c => by iintro ⟨-, HO⟩; iexact HO)
    (R0 := reg0 m) (hpre0 := fun c => by exact .rfl) (hpost0 := fun c => by rw [V4_eq m c]; exact .rfl)
    (R1 := reg1 m) (hpre1 := fun c => by rw [V5_eq m c]; exact .rfl) (hpost1 := fun c => by rw [V6_eq m c]; exact .rfl)
    (R2 := reg2 m) (hpre2 := fun c => by rw [V6_eq m c]; exact .rfl) (hpost2 := fun c => by rw [V7_eq m c]; exact .rfl)
    (R3 := reg3 m) (hpre3 := fun c => by rw [V8_eq m c]; exact .rfl) (hpost3 := fun c => by rw [V9_eq m c]; exact .rfl)
    (R4 := reg4 m) (hpre4 := fun c => by rw [V9_eq m c]; exact .rfl) (hpost4 := fun c => by rw [V10_eq m c]; exact .rfl)
    (R5 := reg5 m) (hpre5 := fun c => by rw [V11_eq m c]; exact .rfl) (hpost5 := fun c => by rw [V12_eq m c]; exact .rfl)
    (R6 := reg6 m) (hpre6 := fun c => by rw [V12_eq m c]; exact .rfl) (hpost6 := fun c => by rw [V13_eq m c]; exact .rfl)

end Cert.KernelIdeal.Hand

end
-- ==== Proof.RefRunHand.lean ====
import proofs.«401117_j39195871543847_2_alg».proof.Proof.Gen.ReferenceIdeal
import Idealize.ShloMosaic.Lib.StableHlo.Run
import Idealize.ShloMosaic.Lib.Pipeline.Frame
set_option maxRecDepth 8192

noncomputable section

namespace Cert.ReferenceIdeal.ValueH
open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ unary main_arg1 main_v0 (extractStridedSlice S1x160000 ![0, 0] · slices_S2x160000_S1x160000_0_0),
    reshape main_v0 main_v1 rfl shapeCasts_S1x160000_S160000,
    unary main_arg1 main_v2 (extractStridedSlice S1x160000 ![1, 0] · slices_S2x160000_S1x160000_1_0),
    reshape main_v2 main_v3 rfl shapeCasts_S1x160000_S160000,
    nullary main_v4 (iotaInDim S10000 32 0),
    binary main_v1 main_v4 main_v5 (fun a b => concatenate S170000 0 [⟨S160000, a⟩, ⟨S10000, b⟩] concatenates_S160000_S10000_S170000_d0),
    binary main_v3 main_v4 main_v6 (fun a b => concatenate S170000 0 [⟨S160000, a⟩, ⟨S10000, b⟩] concatenates_S160000_S10000_S170000_d0),
    nullary main_cst (constant S_ .f32 0x3F800000#32),
    unary main_cst main_v7 (broadcastInDim S170000 ![] bcast_S_S170000),
    nullary main_cst_0 (constant S_ .f32 0x00000000#32),
    unary main_cst_0 main_v8 (broadcastInDim S10000 ![] bcast_S_S10000),
    unary main_v6 main_v9 (broadcastInDim S170000x1 ![0] bcast_S170000_S170000x1_0),
    ternary main_v8 main_v9 main_v7 main_v10 (fun x i u => Host.scatterAdd scatter_S10000_S170000x1_S170000_n_0_0_1 x i u),
    nullary main_cst_1 (constant S_ .f32 0x00000000#32),
    unary main_cst_1 main_v11 (broadcastInDim S10000 ![] bcast_S_S10000),
    binary main_v10 main_v11 main_v12 (cmpf (F := F) .ogt),
    unary main_v10 main_v13 Host.rsqrt,
    nullary main_cst_2 (constant S_ .f32 0x00000000#32),
    TRef.unary (TRef.of main_cst_2) (TRef.of main_call0_v0) id,
    TRef.unary (TRef.of main_call0_v0) (TRef.of main_call0_v1) (broadcastInDim S10000 ![] bcast_S_S10000),
    TRef.ternary (TRef.of main_v12) (TRef.of main_v13) (TRef.of main_call0_v1) (TRef.of main_v14) select,
    nullary main_c (constantI S_ 32 0#32),
    unary main_c main_v15 (broadcastInDim S170000 ![] bcast_S_S170000),
    binary main_v5 main_v15 main_v16 (cmpi .slt),
    nullary main_c_3 (constantI S_ 32 10000#32),
    unary main_c_3 main_v17 (broadcastInDim S170000 ![] bcast_S_S170000),
    binary main_v5 main_v17 main_v18 addi,
    ternary main_v16 main_v18 main_v5 main_v19 select,
    unary main_v19 main_v20 (broadcastInDim S170000x1 ![0] bcast_S170000_S170000x1_0),
    binary main_v14 main_v20 main_v21 (fun x i => Host.gather gather_S10000_S170000x1_S170000_n_0_n_n_0_1_1 x i),
    nullary main_c_4 (constantI S_ 32 0#32),
    unary main_c_4 main_v22 (broadcastInDim S170000 ![] bcast_S_S170000),
    binary main_v6 main_v22 main_v23 (cmpi .slt),
    nullary main_c_5 (constantI S_ 32 10000#32),
    unary main_c_5 main_v24 (broadcastInDim S170000 ![] bcast_S_S170000),
    binary main_v6 main_v24 main_v25 addi,
    ternary main_v23 main_v25 main_v6 main_v26 select,
    unary main_v26 main_v27 (broadcastInDim S170000x1 ![0] bcast_S170000_S170000x1_0),
    binary main_v14 main_v27 main_v28 (fun x i => Host.gather gather_S10000_S170000x1_S170000_n_0_n_n_0_1_1 x i),
    binary main_v21 main_v28 main_v29 mulf ]

abbrev opsB : List (HloOp τ sig (Elt F)) :=
  [ binary main_arg0 main_arg3 main_v30 (fun l r => Host.dotGeneral dot_S10000x2208_S2208x512_S10000x512_1_0_0_1_n_n none l r),
    nullary main_c_6 (constantI S_ 32 0#32),
    unary main_c_6 main_v31 (broadcastInDim S170000 ![] bcast_S_S170000),
    binary main_v5 main_v31 main_v32 (cmpi .slt),
    nullary main_c_7 (constantI S_ 32 10000#32),
    unary main_c_7 main_v33 (broadcastInDim S170000 ![] bcast_S_S170000),
    binary main_v5 main_v33 main_v34 addi,
    ternary main_v32 main_v34 main_v5 main_v35 select,
    unary main_v35 main_v36 (broadcastInDim S170000x1 ![0] bcast_S170000_S170000x1_0),
    binary main_v30 main_v36 main_v37 (fun x i => Host.gather gather_S10000x512_S170000x1_S170000x512_1_0_n_n_0_1_1512 x i),
    unary main_v29 main_v38 (broadcastInDim S170000x1 ![0] bcast_S170000_S170000x1_0),
    unary main_v38 main_v39 (broadcastInDim S170000x512 ![0, 1] bcast_S170000x1_S170000x512_0_1),
    binary main_v37 main_v39 main_v40 mulf,
    nullary main_cst_8 (constant S_ .f32 0x00000000#32),
    unary main_cst_8 main_v41 (broadcastInDim S10000x512 ![] bcast_S_S10000x512),
    unary main_v6 main_v42 (broadcastInDim S170000x1 ![0] bcast_S170000_S170000x1_0),
    ternary main_v41 main_v42 main_v40 main_v43 (fun x i u => Host.scatterAdd scatter_S10000x512_S170000x1_S170000x512_1_0_0_1 x i u),
    unary main_arg4 main_v44 (broadcastInDim S1x512 ![1] bcast_S512_S1x512_1),
    unary main_v44 main_v45 (broadcastInDim S10000x512 ![0, 1] bcast_S1x512_S10000x512_0_1),
    binary main_v43 main_v45 main_v46 addf,
    TRef.nullary (TRef.of main_call1_cst) (constant S_ .f32 0x00000000#32),
    TRef.unary (TRef.of main_call1_cst) (TRef.of main_call1_v0) (broadcastInDim S10000x512 ![] bcast_S_S10000x512),
    TRef.binary (TRef.of main_v46) (TRef.of main_call1_v0) (TRef.of main_v47) maximumf ]

abbrev opsC : List (HloOp τ sig (Elt F)) :=
  [ binary main_v47 main_arg5 main_v48 (fun l r => Host.dotGeneral dot_S10000x512_S512x512_S10000x512_1_0_0_1_n_n none l r),
    nullary main_c_9 (constantI S_ 32 0#32),
    unary main_c_9 main_v49 (broadcastInDim S170000 ![] bcast_S_S170000),
    binary main_v5 main_v49 main_v50 (cmpi .slt),
    nullary main_c_10 (constantI S_ 32 10000#32),
    unary main_c_10 main_v51 (broadcastInDim S170000 ![] bcast_S_S170000),
    binary main_v5 main_v51 main_v52 addi,
    ternary main_v50 main_v52 main_v5 main_v53 select,
    unary main_v53 main_v54 (broadcastInDim S170000x1 ![0] bcast_S170000_S170000x1_0),
    binary main_v48 main_v54 main_v55 (fun x i => Host.gather gather_S10000x512_S170000x1_S170000x512_1_0_n_n_0_1_1512 x i),
    unary main_v29 main_v56 (broadcastInDim S170000x1 ![0] bcast_S170000_S170000x1_0),
    unary main_v56 main_v57 (broadcastInDim S170000x512 ![0, 1] bcast_S170000x1_S170000x512_0_1),
    binary main_v55 main_v57 main_v58 mulf,
    nullary main_cst_11 (constant S_ .f32 0x00000000#32),
    unary main_cst_11 main_v59 (broadcastInDim S10000x512 ![] bcast_S_S10000x512),
    unary main_v6 main_v60 (broadcastInDim S170000x1 ![0] bcast_S170000_S170000x1_0),
    ternary main_v59 main_v60 main_v58 main_v61 (fun x i u => Host.scatterAdd scatter_S10000x512_S170000x1_S170000x512_1_0_0_1 x i u),
    unary main_arg6 main_v62 (broadcastInDim S1x512 ![1] bcast_S512_S1x512_1),
    unary main_v62 main_v63 (broadcastInDim S10000x512 ![0, 1] bcast_S1x512_S10000x512_0_1),
    binary main_v61 main_v63 main_v64 addf,
    TRef.nullary (TRef.of main_call2_cst) (constant S_ .f32 0x00000000#32),
    TRef.unary (TRef.of main_call2_cst) (TRef.of main_call2_v0) (broadcastInDim S10000x512 ![] bcast_S_S10000x512),
    TRef.binary (TRef.of main_v64) (TRef.of main_call2_v0) (TRef.of main_v65) maximumf ]

abbrev opsD : List (HloOp τ sig (Elt F)) :=
  [ binary main_v65 main_arg7 main_v66 (fun l r => Host.dotGeneral dot_S10000x512_S512x512_S10000x512_1_0_0_1_n_n none l r),
    nullary main_c_12 (constantI S_ 32 0#32),
    unary main_c_12 main_v67 (broadcastInDim S170000 ![] bcast_S_S170000),
    binary main_v5 main_v67 main_v68 (cmpi .slt),
    nullary main_c_13 (constantI S_ 32 10000#32),
    unary main_c_13 main_v69 (broadcastInDim S170000 ![] bcast_S_S170000),
    binary main_v5 main_v69 main_v70 addi,
    ternary main_v68 main_v70 main_v5 main_v71 select,
    unary main_v71 main_v72 (broadcastInDim S170000x1 ![0] bcast_S170000_S170000x1_0),
    binary main_v66 main_v72 main_v73 (fun x i => Host.gather gather_S10000x512_S170000x1_S170000x512_1_0_n_n_0_1_1512 x i),
    unary main_v29 main_v74 (broadcastInDim S170000x1 ![0] bcast_S170000_S170000x1_0),
    unary main_v74 main_v75 (broadcastInDim S170000x512 ![0, 1] bcast_S170000x1_S170000x512_0_1),
    binary main_v73 main_v75 main_v76 mulf,
    nullary main_cst_14 (constant S_ .f32 0x00000000#32),
    unary main_cst_14 main_v77 (broadcastInDim S10000x512 ![] bcast_S_S10000x512),
    unary main_v6 main_v78 (broadcastInDim S170000x1 ![0] bcast_S170000_S170000x1_0),
    ternary main_v77 main_v78 main_v76 main_v79 (fun x i u => Host.scatterAdd scatter_S10000x512_S170000x1_S170000x512_1_0_0_1 x i u),
    unary main_arg8 main_v80 (broadcastInDim S1x512 ![1] bcast_S512_S1x512_1),
    unary main_v80 main_v81 (broadcastInDim S10000x512 ![0, 1] bcast_S1x512_S10000x512_0_1),
    binary main_v79 main_v81 main_v82 addf,
    TRef.nullary (TRef.of main_call3_cst) (constant S_ .f32 0x00000000#32),
    TRef.unary (TRef.of main_call3_cst) (TRef.of main_call3_v0) (broadcastInDim S10000x512 ![] bcast_S_S10000x512),
    TRef.binary (TRef.of main_v82) (TRef.of main_call3_v0) (TRef.of main_v83) maximumf ]

abbrev opsE : List (HloOp τ sig (Elt F)) :=
  [ binary main_v83 main_arg9 main_v84 (fun l r => Host.dotGeneral dot_S10000x512_S512x2_S10000x2_1_0_0_1_n_n none l r),
    nullary main_c_15 (constantI S_ 32 0#32),
    unary main_c_15 main_v85 (broadcastInDim S170000 ![] bcast_S_S170000),
    binary main_v5 main_v85 main_v86 (cmpi .slt),
    nullary main_c_16 (constantI S_ 32 10000#32),
    unary main_c_16 main_v87 (broadcastInDim S170000 ![] bcast_S_S170000),
    binary main_v5 main_v87 main_v88 addi,
    ternary main_v86 main_v88 main_v5 main_v89 select,
    unary main_v89 main_v90 (broadcastInDim S170000x1 ![0] bcast_S170000_S170000x1_0),
    binary main_v84 main_v90 main_v91 (fun x i => Host.gather gather_S10000x2_S170000x1_S170000x2_1_0_n_n_0_1_12 x i),
    unary main_v29 main_v92 (broadcastInDim S170000x1 ![0] bcast_S170000_S170000x1_0),
    unary main_v92 main_v93 (broadcastInDim S170000x2 ![0, 1] bcast_S170000x1_S170000x2_0_1),
    binary main_v91 main_v93 main_v94 mulf,
    nullary main_cst_17 (constant S_ .f32 0x00000000#32),
    unary main_cst_17 main_v95 (broadcastInDim S10000x2 ![] bcast_S_S10000x2),
    unary main_v6 main_v96 (broadcastInDim S170000x1 ![0] bcast_S170000_S170000x1_0),
    ternary main_v95 main_v96 main_v94 main_v97 (fun x i u => Host.scatterAdd scatter_S10000x2_S170000x1_S170000x2_1_0_0_1 x i u),
    unary main_arg10 main_v98 (broadcastInDim S1x2 ![1] bcast_S2_S1x2_1),
    unary main_v98 main_v99 (broadcastInDim S10000x2 ![0, 1] bcast_S1x2_S10000x2_0_1),
    binary main_v97 main_v99 main_v100 addf ]

abbrev opsF : List (HloOp τ sig (Elt F)) :=
  [ TRef.nullary (TRef.of (T := ⟨S_, .f32⟩) main_call4_cst) (constant S_ .f32 0xFF800000#32),
    TRef.binary (TRef.of (T := ⟨S10000x2, .f32⟩) main_v100) (TRef.of (T := ⟨S_, .f32⟩) main_call4_cst) (TRef.of (T := ⟨S10000, .f32⟩) main_call4_v0) (fun x v => Host.reduce FloatOps.maximumf x v reducesTo_S10000x2_S10000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S10000, .f32⟩) main_call4_v1) (broadcastInDim S10000 ![] bcast_S_S10000),
    TRef.binary (TRef.of (T := ⟨S10000, .f32⟩) main_call4_v1) (TRef.of (T := ⟨S10000, .f32⟩) main_call4_v0) (TRef.of (T := ⟨S10000, .f32⟩) main_call4_v2) maximumf,
    TRef.unary (TRef.of (T := ⟨S10000, .f32⟩) main_call4_v2) (TRef.of (T := ⟨S10000x1, .f32⟩) main_call4_v3) (broadcastInDim S10000x1 ![0] bcast_S10000_S10000x1_0),
    TRef.unary (TRef.of (T := ⟨S10000x1, .f32⟩) main_call4_v3) (TRef.of (T := ⟨S10000x2, .f32⟩) main_call4_v4) (broadcastInDim S10000x2 ![0, 1] bcast_S10000x1_S10000x2_0_1),
    TRef.binary (TRef.of (T := ⟨S10000x2, .f32⟩) main_v100) (TRef.of (T := ⟨S10000x2, .f32⟩) main_call4_v4) (TRef.of (T := ⟨S10000x2, .f32⟩) main_call4_v5) subf,
    TRef.unary (TRef.of (T := ⟨S10000x2, .f32⟩) main_call4_v5) (TRef.of (T := ⟨S10000x2, .f32⟩) main_call4_v6) Host.exp,
    TRef.nullary (TRef.of (T := ⟨S_, .f32⟩) main_call4_cst_1) (constant S_ .f32 0x00000000#32),
    TRef.binary (TRef.of (T := ⟨S10000x2, .f32⟩) main_call4_v6) (TRef.of (T := ⟨S_, .f32⟩) main_call4_cst_1) (TRef.of (T := ⟨S10000, .f32⟩) main_call4_v7) (fun x v => Host.reduceAdd x v reducesTo_S10000x2_S10000_d1 h_S_),
    TRef.unary (TRef.of (T := ⟨S10000, .f32⟩) main_call4_v7) (TRef.of (T := ⟨S10000x1, .f32⟩) main_call4_v8) (broadcastInDim S10000x1 ![0] bcast_S10000_S10000x1_0),
    TRef.unary (TRef.of (T := ⟨S10000x1, .f32⟩) main_call4_v8) (TRef.of (T := ⟨S10000x1, .f32⟩) main_call4_v9) Host.log,
    TRef.unary (TRef.of (T := ⟨S10000x1, .f32⟩) main_call4_v9) (TRef.of (T := ⟨S10000x2, .f32⟩) main_call4_v10) (broadcastInDim S10000x2 ![0, 1] bcast_S10000x1_S10000x2_0_1),
    TRef.binary (TRef.of (T := ⟨S10000x2, .f32⟩) main_call4_v5) (TRef.of (T := ⟨S10000x2, .f32⟩) main_call4_v10) (TRef.of (T := ⟨S10000x2, .f32⟩) main_v101) subf ]

abbrev ops : List (HloOp τ sig (Elt F)) := opsA ++ (opsB ++ (opsC ++ (opsD ++ (opsE ++ opsF))))

set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

def edgeRow0 (ei : IVec S2x160000 32) : IVec S160000 32 :=
  shapeCast S160000 (extractStridedSlice S1x160000 ![0, 0] ei slices_S2x160000_S1x160000_0_0) shapeCasts_S1x160000_S160000

def edgeRow1 (ei : IVec S2x160000 32) : IVec S160000 32 :=
  shapeCast S160000 (extractStridedSlice S1x160000 ![1, 0] ei slices_S2x160000_S1x160000_1_0) shapeCasts_S1x160000_S160000

def srcIdx (ei : IVec S2x160000 32) : IVec S170000 32 :=
  concatenate S170000 0 [⟨S160000, edgeRow0 ei⟩, ⟨S10000, iotaInDim S10000 32 0⟩] concatenates_S160000_S10000_S170000_d0

def dstIdx (ei : IVec S2x160000 32) : IVec S170000 32 :=
  concatenate S170000 0 [⟨S160000, edgeRow1 ei⟩, ⟨S10000, iotaInDim S10000 32 0⟩] concatenates_S160000_S10000_S170000_d0

def asCol {α : Type} (v : S170000.Idx → α) : S170000x1.Idx → α :=
  broadcastInDim S170000x1 ![0] bcast_S170000_S170000x1_0 v

def wrapNeg (n : BitVec 32) (v : IVec S170000 32) : IVec S170000 32 :=
  select (cmpi .slt v (broadcastInDim S170000 ![] bcast_S_S170000 (constantI S_ 32 0#32)))
    (addi v (broadcastInDim S170000 ![] bcast_S_S170000 (constantI S_ 32 n))) v

def degOf (d : IVec S170000 32) : FVec F S10000 .f32 :=
  Host.scatterAdd scatter_S10000_S170000x1_S170000_n_0_0_1
    (broadcastInDim S10000 ![] bcast_S_S10000 (constant S_ .f32 0x00000000#32))
    (asCol d)
    (broadcastInDim S170000 ![] bcast_S_S170000 (constant S_ .f32 0x3F800000#32))

def degPosOf (d : IVec S170000 32) : IVec S10000 1 :=
  cmpf .ogt (degOf (F := F) d) (broadcastInDim S10000 ![] bcast_S_S10000 (constant S_ .f32 0x00000000#32))

def dinvOf (d : IVec S170000 32) : FVec F S10000 .f32 :=
  select (degPosOf (F := F) d) (Host.rsqrt (degOf (F := F) d))
    (broadcastInDim S10000 ![] bcast_S_S10000 (constant S_ .f32 0x00000000#32))

def edgeNormOf (s d : IVec S170000 32) (dv : FVec F S10000 .f32) : FVec F S170000 .f32 :=
  mulf (Host.gather gather_S10000_S170000x1_S170000_n_0_n_n_0_1_1 dv (asCol (wrapNeg 10000#32 s)))
    (Host.gather gather_S10000_S170000x1_S170000_n_0_n_n_0_1_1 dv (asCol (wrapNeg 10000#32 d)))

def edgeNorm (ei : IVec S2x160000 32) : FVec F S170000 .f32 :=
  edgeNormOf (srcIdx ei) (dstIdx ei) (dinvOf (F := F) (dstIdx ei))

def aggOf (s d : IVec S170000 32) (w : FVec F S170000 .f32) (z : FVec F S10000x512 .f32) (b : FVec F S512 .f32) :
    FVec F S10000x512 .f32 :=
  addf
    (Host.scatterAdd scatter_S10000x512_S170000x1_S170000x512_1_0_0_1
      (broadcastInDim S10000x512 ![] bcast_S_S10000x512 (constant S_ .f32 0x00000000#32))
      (asCol d)
      (mulf (Host.gather gather_S10000x512_S170000x1_S170000x512_1_0_n_n_0_1_1512 z (asCol (wrapNeg 10000#32 s)))
        (broadcastInDim S170000x512 ![0, 1] bcast_S170000x1_S170000x512_0_1 (asCol w))))
    (broadcastInDim S10000x512 ![0, 1] bcast_S1x512_S10000x512_0_1 (broadcastInDim S1x512 ![1] bcast_S512_S1x512_1 b))

def relu (z : FVec F S10000x512 .f32) : FVec F S10000x512 .f32 :=
  maximumf z (broadcastInDim S10000x512 ![] bcast_S_S10000x512 (constant S_ .f32 0x00000000#32))

def layer1Of (s d : IVec S170000 32) (w : FVec F S170000 .f32) (x : FVec F S10000x2208 .f32) (w1 : FVec F S2208x512 .f32)
    (b1 : FVec F S512 .f32) : FVec F S10000x512 .f32 :=
  relu (aggOf s d w (Host.dotGeneral dot_S10000x2208_S2208x512_S10000x512_1_0_0_1_n_n none x w1) b1)

def layerMidOf (s d : IVec S170000 32) (w : FVec F S170000 .f32) (h : FVec F S10000x512 .f32) (wk : FVec F S512x512 .f32)
    (bk : FVec F S512 .f32) : FVec F S10000x512 .f32 :=
  relu (aggOf s d w (Host.dotGeneral dot_S10000x512_S512x512_S10000x512_1_0_0_1_n_n none h wk) bk)

def aggLastOf (s d : IVec S170000 32) (w : FVec F S170000 .f32) (y : FVec F S10000x2 .f32) (b4 : FVec F S2 .f32) :
    FVec F S10000x2 .f32 :=
  addf
    (Host.scatterAdd scatter_S10000x2_S170000x1_S170000x2_1_0_0_1
      (broadcastInDim S10000x2 ![] bcast_S_S10000x2 (constant S_ .f32 0x00000000#32))
      (asCol d)
      (mulf (Host.gather gather_S10000x2_S170000x1_S170000x2_1_0_n_n_0_1_12 y (asCol (wrapNeg 10000#32 s)))
        (broadcastInDim S170000x2 ![0, 1] bcast_S170000x1_S170000x2_0_1 (asCol w))))
    (broadcastInDim S10000x2 ![0, 1] bcast_S1x2_S10000x2_0_1 (broadcastInDim S1x2 ![1] bcast_S2_S1x2_1 b4))

def lastZOf (s d : IVec S170000 32) (w : FVec F S170000 .f32) (h : FVec F S10000x512 .f32) (w4 : FVec F S512x2 .f32)
    (b4 : FVec F S2 .f32) : FVec F S10000x2 .f32 :=
  aggLastOf s d w (Host.dotGeneral dot_S10000x512_S512x2_S10000x2_1_0_0_1_n_n none h w4) b4

def spreadRows (v : FVec F S10000 .f32) : FVec F S10000x2 .f32 :=
  broadcastInDim S10000x2 ![0, 1] bcast_S10000x1_S10000x2_0_1 (broadcastInDim S10000x1 ![0] bcast_S10000_S10000x1_0 v)

def rowMax (z : FVec F S10000x2 .f32) : FVec F S10000 .f32 :=
  maximumf (broadcastInDim S10000 ![] bcast_S_S10000 (constant S_ .f32 0xFF800000#32))
    (Host.reduce FloatOps.maximumf z (constant S_ .f32 0xFF800000#32) reducesTo_S10000x2_S10000_d1 h_S_)

def shifted (z : FVec F S10000x2 .f32) : FVec F S10000x2 .f32 := subf z (spreadRows (rowMax z))

def logSumExp (z : FVec F S10000x2 .f32) : FVec F S10000x1 .f32 :=
  Host.log (broadcastInDim S10000x1 ![0] bcast_S10000_S10000x1_0
    (Host.reduceAdd (Host.exp (shifted z)) (constant S_ .f32 0x00000000#32) reducesTo_S10000x2_S10000_d1 h_S_))

def logSoftmax (z : FVec F S10000x2 .f32) : FVec F S10000x2 .f32 :=
  subf (shifted z) (broadcastInDim S10000x2 ![0, 1] bcast_S10000x1_S10000x2_0_1 (logSumExp z))

def hidden1 (ei : IVec S2x160000 32) (x : FVec F S10000x2208 .f32) (w1 : FVec F S2208x512 .f32) (b1 : FVec F S512 .f32) :
    FVec F S10000x512 .f32 :=
  layer1Of (srcIdx ei) (dstIdx ei) (edgeNorm (F := F) ei) x w1 b1

def hiddenNext (ei : IVec S2x160000 32) (h : FVec F S10000x512 .f32) (wk : FVec F S512x512 .f32) (bk : FVec F S512 .f32) :
    FVec F S10000x512 .f32 :=
  layerMidOf (srcIdx ei) (dstIdx ei) (edgeNorm (F := F) ei) h wk bk

def lastZ (ei : IVec S2x160000 32) (h : FVec F S10000x512 .f32) (w4 : FVec F S512x2 .f32) (b4 : FVec F S2 .f32) :
    FVec F S10000x2 .f32 :=
  lastZOf (srcIdx ei) (dstIdx ei) (edgeNorm (F := F) ei) h w4 b4

def refOut (x : FVec F S10000x2208 .f32) (ei : IVec S2x160000 32) (w1 : FVec F S2208x512 .f32) (b1 : FVec F S512 .f32)
    (w2 : FVec F S512x512 .f32) (b2 : FVec F S512 .f32) (w3 : FVec F S512x512 .f32) (b3 : FVec F S512 .f32)
    (w4 : FVec F S512x2 .f32) (b4 : FVec F S2 .f32) : FVec F S10000x2 .f32 :=
  logSoftmax (lastZ ei (hiddenNext ei (hiddenNext ei (hidden1 ei x w1 b1) w2 b2) w3 b3) w4 b4)

theorem ops_sub : (ops : List (HloOp τ sig (Elt F))).Forall fun op => op.bufs ⊆ tcRefs τ sig := by
  simp only [ops, List.forall_append, List.Forall, nullary_bufs_sub, unary_bufs_sub, binary_bufs_sub, ternary_bufs_sub,
    reshape_bufs_sub, and_self]

theorem ops_fresh : (ops : List (HloOp τ sig (Elt F))).Forall fun op => op.fresh = ∅ := by
  simp only [ops, List.forall_append, List.Forall]; repeat' constructor

abbrev opsA_W : List (Ref sig .tc) :=
  [main_v0, main_v1, main_v2, main_v3, main_v4, main_v5, main_v6, main_cst, main_v7, main_cst_0, main_v8, main_v9,
   main_v10, main_cst_1, main_v11, main_v12, main_v13, main_cst_2, main_call0_v0, main_call0_v1, main_v14, main_c,
   main_v15, main_v16, main_c_3, main_v17, main_v18, main_v19, main_v20, main_v21, main_c_4, main_v22, main_v23, main_c_5,
   main_v24, main_v25, main_v26, main_v27, main_v28, main_v29]

abbrev opsB_W : List (Ref sig .tc) :=
  [main_v30, main_c_6, main_v31, main_v32, main_c_7, main_v33, main_v34, main_v35, main_v36, main_v37, main_v38, main_v39,
   main_v40, main_cst_8, main_v41, main_v42, main_v43, main_v44, main_v45, main_v46, main_call1_cst, main_call1_v0,
   main_v47]

abbrev opsC_W : List (Ref sig .tc) :=
  [main_v48, main_c_9, main_v49, main_v50, main_c_10, main_v51, main_v52, main_v53, main_v54, main_v55, main_v56,
   main_v57, main_v58, main_cst_11, main_v59, main_v60, main_v61, main_v62, main_v63, main_v64, main_call2_cst,
   main_call2_v0, main_v65]

abbrev opsD_W : List (Ref sig .tc) :=
  [main_v66, main_c_12, main_v67, main_v68, main_c_13, main_v69, main_v70, main_v71, main_v72, main_v73, main_v74,
   main_v75, main_v76, main_cst_14, main_v77, main_v78, main_v79, main_v80, main_v81, main_v82, main_call3_cst,
   main_call3_v0, main_v83]

abbrev opsE_W : List (Ref sig .tc) :=
  [main_v84, main_c_15, main_v85, main_v86, main_c_16, main_v87, main_v88, main_v89, main_v90, main_v91, main_v92,
   main_v93, main_v94, main_cst_17, main_v95, main_v96, main_v97, main_v98, main_v99, main_v100]

abbrev opsF_W : List (Ref sig .tc) :=
  [main_call4_cst, main_call4_v0, main_call4_cst_0, main_call4_v1, main_call4_v2, main_call4_v3, main_call4_v4,
   main_call4_v5, main_call4_v6, main_call4_cst_1, main_call4_v7, main_call4_v8, main_call4_v9, main_call4_v10, main_v101]

abbrev opsW : List (Ref sig .tc) := opsA_W ++ (opsB_W ++ (opsC_W ++ (opsD_W ++ (opsE_W ++ opsF_W))))

-- Every operation of the line l writes only references of the list Wl.
def Wr (l : List (HloOp τ sig (Elt F))) (Wl : List (Ref sig .tc)) : Prop :=
  l.Forall fun op => op.writes ⊆ (Wl.map (Proc.devRef (τ := τ) .tc)).toFinset

theorem ops_writes : Wr (F := F) opsA opsA_W ∧ Wr (F := F) opsB opsB_W ∧ Wr (F := F) opsC opsC_W ∧ Wr (F := F) opsD opsD_W
    ∧ Wr (F := F) opsE opsE_W ∧ Wr (F := F) opsF opsF_W := by
  simp only [Wr, List.Forall]
  repeat' apply And.intro
  all_goals (simp only [nullary_writes, unary_writes, binary_writes, ternary_writes, reshape_writes, Finset.singleton_subset_iff, List.mem_toFinset]; exact List.mem_map_of_mem (by decide))

-- A reference outside Wl keeps its contents along l.
theorem keep {l : List (HloOp τ sig (Elt F))} {Wl : List (Ref sig .tc)} (h : Wr l Wl) (W : Valuation τ sig (Elt F))
    (r : Ref sig .tc) (hr : r ∉ Wl) : after l W (Proc.devRef .tc r) = W (Proc.devRef .tc r) :=
  after_of_writes_sub l W h hr

section Stretches

variable (W : Valuation τ sig (Elt F))

theorem opsA_v5 : (after opsA W main_v5 : S170000.Idx → BitVec 32) = srcIdx (W main_arg1) := by
  after_results_simp
  rfl

theorem opsA_v6 : (after opsA W main_v6 : S170000.Idx → BitVec 32) = dstIdx (W main_arg1) := by
  after_results_simp
  rfl

theorem opsA_v29 : (after opsA W main_v29 : S170000.Idx → F .f32) = edgeNorm (F := F) (W main_arg1) := by
  after_results_simp
  rfl

theorem opsB_v47 : (after opsB W main_v47 : S10000x512.Idx → F .f32)
    = layer1Of (W main_v5) (W main_v6) (W main_v29) (W main_arg0) (W main_arg3) (W main_arg4) := by
  after_results_simp
  rfl

theorem opsC_v65 : (after opsC W main_v65 : S10000x512.Idx → F .f32)
    = layerMidOf (W main_v5) (W main_v6) (W main_v29) (W main_v47) (W main_arg5) (W main_arg6) := by
  after_results_simp
  rfl

theorem opsD_v83 : (after opsD W main_v83 : S10000x512.Idx → F .f32)
    = layerMidOf (W main_v5) (W main_v6) (W main_v29) (W main_v65) (W main_arg7) (W main_arg8) := by
  after_results_simp
  rfl

theorem opsE_v100 : (after opsE W main_v100 : S10000x2.Idx → F .f32)
    = lastZOf (W main_v5) (W main_v6) (W main_v29) (W main_v83) (W main_arg9) (W main_arg10) := by
  after_results_simp
  rfl

set_option maxRecDepth 65536 in
theorem opsF_v101 : (after opsF W main_v101 : S10000x2.Idx → F .f32) = logSoftmax (W main_v100) := by
  after_results_simp
  rfl

end Stretches

section Chain

variable (V : Valuation τ sig (Elt F))

theorem after_ops : after ops V = after opsF (after opsE (after opsD (after opsC (after opsB (after opsA V))))) := by
  show after (opsA ++ (opsB ++ (opsC ++ (opsD ++ (opsE ++ opsF))))) V = _
  rw [after_append, after_append, after_append, after_append, after_append]

-- A reference no stretch writes holds at the end what it held at the start.
theorem ops_keep (r : Ref sig .tc) (h : r ∉ opsW) :
    after ops V (Proc.devRef .tc r) = V (Proc.devRef .tc r) := by
  simp only [opsW, List.mem_append, not_or] at h
  rw [after_ops, keep ops_writes.2.2.2.2.2 _ r h.2.2.2.2.2, keep ops_writes.2.2.2.2.1 _ r h.2.2.2.2.1,
    keep ops_writes.2.2.2.1 _ r h.2.2.2.1, keep ops_writes.2.2.1 _ r h.2.2.1, keep ops_writes.2.1 _ r h.2.1,
    keep ops_writes.1 _ r h.1]

-- Each stretch's result is rewritten to its function; what a stretch reads of an earlier one is carried back to where it was written.
theorem ops_v101 : (after ops V main_v101 : S10000x2.Idx → F .f32)
    = refOut (V main_arg0) (V main_arg1) (V main_arg3) (V main_arg4) (V main_arg5) (V main_arg6) (V main_arg7) (V main_arg8) (V main_arg9) (V main_arg10) := by
  have kA := keep (F := F) ops_writes.1
  have kB := keep (F := F) ops_writes.2.1
  have kC := keep (F := F) ops_writes.2.2.1
  have kD := keep (F := F) ops_writes.2.2.2.1
  rw [after_ops, opsF_v101, opsE_v100, opsD_v83, opsC_v65, opsB_v47,
    kD _ main_v5 (by decide), kD _ main_v6 (by decide), kD _ main_v29 (by decide), kD _ main_arg9 (by decide),
    kD _ main_arg10 (by decide),
    kC _ main_v5 (by decide), kC _ main_v6 (by decide), kC _ main_v29 (by decide), kC _ main_arg7 (by decide),
    kC _ main_arg8 (by decide), kC _ main_arg9 (by decide), kC _ main_arg10 (by decide),
    kB _ main_v5 (by decide), kB _ main_v6 (by decide), kB _ main_v29 (by decide), kB _ main_arg5 (by decide),
    kB _ main_arg6 (by decide), kB _ main_arg7 (by decide), kB _ main_arg8 (by decide), kB _ main_arg9 (by decide),
    kB _ main_arg10 (by decide),
    opsA_v5, opsA_v6, opsA_v29, kA _ main_arg0 (by decide), kA _ main_arg3 (by decide), kA _ main_arg4 (by decide),
    kA _ main_arg5 (by decide), kA _ main_arg6 (by decide), kA _ main_arg7 (by decide), kA _ main_arg8 (by decide),
    kA _ main_arg9 (by decide), kA _ main_arg10 (by decide)]
  rfl

end Chain

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101)
        = refOut (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun s h c =>
      have k (r : Ref sig .tc) (hr : r ∉ opsW) : s.2.mem ((c.tc : Thread nD τ).loc r) = m ((c.tc : Thread nD τ).loc r) :=
        (h c r).trans (ops_keep (launchContents m c) r hr)
      ⟨(h c main_v101).trans (ops_v101 (launchContents m c)), k main_arg0 (by decide), k main_arg1 (by decide),
        k main_arg2 (by decide), k main_arg3 (by decide), k main_arg4 (by decide), k main_arg5 (by decide),
        k main_arg6 (by decide), k main_arg7 (by decide), k main_arg8 (by decide), k main_arg9 (by decide),
        k main_arg10 (by decide)⟩)
    (run_seq scopedRefs_eq scopedSems_eq defs main (fun _ => ops) main_eq (fun _ => ops_sub) m ρ
      (fun _ => List.forall_iff_forall_mem.mp ops_fresh))

end Cert.ReferenceIdeal.ValueH
-- ==== Proof.PreRange.lean ====
import proofs.«401117_j39195871543847_2_alg».proof.Pre_finite_inputs
import Idealize.ShloMosaic.Lib.StableHlo.Predicate
import Idealize.ShloMosaic.Lib.ReduceAll

namespace Cert.Proof.PreRange

open Idealize.ShloMosaic
open Cert.Pre_finite_inputs

instance subsingleton_S_Idx : Subsingleton S_.Idx := ⟨fun a b => funext fun d => d.elim0⟩

def j0 : S_.Idx := fun d => d.elim0

theorem toInt_zero32 : (0#32 : BitVec 32).toInt = 0 := by decide
theorem toInt_tenThousand32 : (10000#32 : BitVec 32).toInt = 10000 := by decide

theorem edge_range {F : FTy → Type} [FloatOps F] [hPre : Cert.Pre_finite_inputs.Facts]
    (a0 : FVec F S10000x2208 .f32) (a1 : IVec S2x160000 32) (a2 : IVec S10000 32) (a3 : FVec F S2208x512 .f32)
    (a4 : FVec F S512 .f32) (a5 : FVec F S512x512 .f32) (a6 : FVec F S512 .f32) (a7 : FVec F S512x512 .f32)
    (a8 : FVec F S512 .f32) (a9 : FVec F S512x2 .f32) (a10 : FVec F S2 .f32)
    (h : Cert.Pre_finite_inputs.fn (F := F) a0 a1 a2 a3 a4 a5 a6 a7 a8 a9 a10 = fun _ => 1#1) :
    ∀ k : Cert.Pre_finite_inputs.S2x160000.Idx, 0 ≤ (a1 k).toInt ∧ (a1 k).toInt < 10000 := by
  intro k

  have e := congrFun h j0
  dsimp only [fn, fn_part1, fn_part2] at e

  have e49 := (IntOp.andi_eq_one.1 e).2

  have ek := Host.reduce_andi_all _ _ _ _ j0 e49 k

  obtain ⟨hge, hlt⟩ := IntOp.andi_eq_one.1 ek
  have hge' := IntOp.cmpi_sge.1 hge
  have hlt' := IntOp.cmpi_slt.1 hlt
  refine ⟨?_, ?_⟩
  · have : (0#32 : BitVec 32).toInt ≤ (a1 k).toInt := hge'
    rwa [toInt_zero32] at this
  · have : (a1 k).toInt < (10000#32 : BitVec 32).toInt := hlt'
    rwa [toInt_tenThousand32] at this

end Cert.Proof.PreRange
-- ==== Proof.LibAggSum.lean ====
import Mathlib.Data.EReal.Operations
import Mathlib.Algebra.BigOperators.Fin
import Mathlib.Algebra.BigOperators.Group.Finset.Sigma
import Mathlib.Data.Fintype.BigOperators
import Mathlib.Algebra.Order.BigOperators.Group.Finset
import Mathlib.Logic.Equiv.Fin.Basic

namespace Idealize.ShloMosaic.AggSum

open Finset

theorem sum_mul_of_nonneg {ι : Type*} (s : Finset ι) (a : ι → EReal) (ha : ∀ i ∈ s, 0 ≤ a i) (c : EReal) :
    (∑ i ∈ s, a i) * c = ∑ i ∈ s, a i * c := by
  classical
  induction s using Finset.induction_on with
  | empty => simp
  | insert x s hx ih =>
    have hs : ∀ i ∈ s, 0 ≤ a i := fun i hi => ha i (Finset.mem_insert_of_mem hi)
    rw [Finset.sum_insert hx, Finset.sum_insert hx,
      EReal.right_distrib_of_nonneg (ha x (Finset.mem_insert_self x s)) (Finset.sum_nonneg hs), ih hs]

theorem dense_eq_sparse {E NP : ℕ} (n G : Fin E → EReal) (hn : ∀ e, 0 ≤ n e) (dI sI : Fin E → ℤ)
    (hs : ∀ e, 0 ≤ sI e ∧ sI e < (NP : ℤ)) (i : ℤ) (Tp : Fin NP → EReal)
    (hG : ∀ e (j : Fin NP), sI e = (j.val : ℤ) → G e = Tp j) :
    ∑ j : Fin NP, (0 + ∑ e ∈ Finset.univ.filter (fun e : Fin E => dI e = i ∧ sI e = (j.val : ℤ)), n e) * Tp j
      = 0 + ∑ e ∈ Finset.univ.filter (fun e : Fin E => dI e = i), G e * n e := by
  simp only [zero_add]
  have h1 : ∀ j : Fin NP,
      (∑ e ∈ univ.filter (fun e : Fin E => dI e = i ∧ sI e = (j.val : ℤ)), n e) * Tp j
        = ∑ e ∈ univ.filter (fun e : Fin E => dI e = i ∧ sI e = (j.val : ℤ)), G e * n e := by
    intro j
    rw [sum_mul_of_nonneg _ _ (fun e _ => hn e)]
    refine Finset.sum_congr rfl fun e he => ?_
    rw [Finset.mem_filter] at he
    rw [hG e j he.2.2, EReal.mul_comm]
  simp only [h1]
  rw [Finset.sum_comm' (t' := univ.filter (fun e : Fin E => dI e = i))
    (s' := fun e => univ.filter (fun j : Fin NP => sI e = (j.val : ℤ)))]
  · refine Finset.sum_congr rfl fun e _ => ?_
    obtain ⟨h0, hlt⟩ := hs e
    have hb : (sI e).toNat < NP := by omega
    have hone : univ.filter (fun j : Fin NP => sI e = (j.val : ℤ)) = {⟨(sI e).toNat, hb⟩} := by
      ext j
      simp only [mem_filter, mem_univ, true_and, mem_singleton, Fin.ext_iff]
      omega
    rw [hone, sum_singleton]
  · intro j e
    simp only [mem_filter, mem_univ, true_and]
    tauto

theorem block_lt {K B : ℕ} (kb : Fin K) (kk : Fin B) : kb.val * B + kk.val < K * B :=
  calc kb.val * B + kk.val < kb.val * B + B := Nat.add_lt_add_left kk.2 _
    _ = (kb.val + 1) * B := (Nat.succ_mul _ _).symm
    _ ≤ K * B := Nat.mul_le_mul_right _ kb.2

theorem sum_blocks {M : Type*} [AddCommMonoid M] {K B : ℕ} (f : Fin (K * B) → M) :
    ∑ j : Fin (K * B), f j = ∑ kb : Fin K, ∑ kk : Fin B, f ⟨kb.val * B + kk.val, block_lt kb kk⟩ := by
  rw [← Fintype.sum_prod_type', ← finProdFinEquiv.sum_comp]
  refine Fintype.sum_congr _ _ fun x => ?_
  congr 1
  ext
  simp only [finProdFinEquiv_apply_val]
  rw [Nat.add_comm, Nat.mul_comm]

end Idealize.ShloMosaic.AggSum
-- ==== Proof.LibGcnLayer.lean ====
import proofs.«401117_j39195871543847_2_alg».proof.Proof.LibAggSum

namespace Idealize.ShloMosaic.AggSum

open Finset

-- Dense aggregation equals sparse aggregation with each row's weighted feature sum as the table; bias and clamp act on both sides alike.
theorem layer_relu_dense_eq_sparse {E N NP K : ℕ} (hN : N ≤ NP) (n : Fin E → EReal) (hn : ∀ e, 0 ≤ n e)
    (dI sI : Fin E → ℤ) (hs : ∀ e, 0 ≤ sI e ∧ sI e < (N : ℤ)) (i : ℤ) (A : Fin NP → EReal)
    (hA : ∀ j : Fin NP, A j = 0 + ∑ e ∈ Finset.univ.filter (fun e : Fin E => dI e = i ∧ sI e = (j.val : ℤ)), n e)
    (HK : Fin NP → Fin K → EReal) (HR : Fin N → Fin K → EReal)
    (hH : ∀ (j : Fin NP) (h : j.val < N) (k : Fin K), HK j k = HR ⟨j.val, h⟩ k) (Wt : Fin K → EReal) (b : EReal) :
    max ((∑ j : Fin NP, A j * ∑ k : Fin K, HK j k * Wt k) + b) 0
      = max ((0 + ∑ e ∈ Finset.univ.filter (fun e : Fin E => dI e = i),
          (∑ k : Fin K, HR ⟨(sI e).toNat, by have := hs e; omega⟩ k * Wt k) * n e) + b) 0 := by
  refine congrArg (fun t => max (t + b) 0) ?_
  simp only [hA]
  have hs' : ∀ e, 0 ≤ sI e ∧ sI e < (NP : ℤ) := fun e => ⟨(hs e).1, by have := (hs e).2; omega⟩
  refine dense_eq_sparse n (fun e => ∑ k : Fin K, HR ⟨(sI e).toNat, by have := hs e; omega⟩ k * Wt k) hn dI sI hs' i
    (fun j => ∑ k : Fin K, HK j k * Wt k) ?_
  intro e j hj
  have hjN : j.val < N := by have := (hs e).2; omega
  have hidx : ∀ p, (⟨(sI e).toNat, p⟩ : Fin N) = ⟨j.val, hjN⟩ := fun p =>
    Fin.ext (by show (sI e).toNat = j.val; omega)
  refine Finset.sum_congr rfl fun k _ => ?_
  rw [hH j hjN k, hidx]

end Idealize.ShloMosaic.AggSum
-- ==== Proof.LibGraphOps.lean ====
import Idealize.ShloMosaic.PureOps.Dims
import Idealize.ShloMosaic.PureOps.ShapeOps
import Idealize.ShloMosaic.PureOps.Ideal
import Idealize.ShloMosaic.Lib.ValueIdx

namespace Idealize.ShloMosaic.GraphOps

open Idealize.ShloMosaic Idealize.ShloMosaic.ValueIdx

theorem ix1_val {n : Nat} (a : Fin n) (i : Fin 1) : (ix1 a i).val = a.val := by
  match i with
  | ⟨0, _⟩ => rfl

theorem ix2_val_zero {n0 n1 : Nat} (a : Fin n0) (b : Fin n1) (x : Fin 2) (h : x.val = 0) : (ix2 a b x).val = a.val := by
  match x, h with
  | ⟨0, _⟩, _ => rfl

theorem ix2_val_one {n0 n1 : Nat} (a : Fin n0) (b : Fin n1) (x : Fin 2) (h : x.val = 1) : (ix2 a b x).val = b.val := by
  match x, h with
  | ⟨1, _⟩, _ => rfl

-- Both coordinates of the scattered position are in range exactly when they are the target's, since the position is their pair.
theorem resultIdx?_ix2 {C0 C1 w : Nat} {si su : Shape} (d : ScatterDims ⟨2, ![C0, C1]⟩ si su) (j : su.Idx) (idx : IVec si w)
    (c0 : Fin C0) (c1 : Fin C1) (p0 p1 : ℤ)
    (h0 : d.start j idx 0 + (d.window j 0 : ℤ) = p0) (h1 : d.start j idx 1 + (d.window j 1 : ℤ) = p1) :
    d.resultIdx? j idx = some (ix2 c0 c1) ↔ p0 = (c0.val : ℤ) ∧ p1 = (c1.val : ℤ) := by
  unfold ScatterDims.resultIdx?
  constructor
  · intro h
    split at h
    · rename_i hc
      have he := Option.some.inj h
      have e0 : (d.start j idx 0 + (d.window j 0 : ℤ)).toNat = c0.val := congrArg (fun g => (g 0).val) he
      have e1 : (d.start j idx 1 + (d.window j 1 : ℤ)).toNat = c1.val := congrArg (fun g => (g 1).val) he
      have b0 := (hc 0).1
      have b1 := (hc 1).1
      rw [h0] at e0 b0
      rw [h1] at e1 b1
      exact ⟨by omega, by omega⟩
    · cases h
  · rintro ⟨rfl, rfl⟩
    have hl0 : c0.val < C0 := c0.isLt
    have hl1 : c1.val < C1 := c1.isLt
    rw [dif_pos (by
      intro a
      match a with
      | ⟨0, _⟩ =>
        show 0 ≤ d.start j idx 0 + (d.window j 0 : ℤ) ∧ d.start j idx 0 + (d.window j 0 : ℤ) < (C0 : ℤ)
        rw [h0]; omega
      | ⟨1, _⟩ =>
        show 0 ≤ d.start j idx 1 + (d.window j 1 : ℤ) ∧ d.start j idx 1 + (d.window j 1 : ℤ) < (C1 : ℤ)
        rw [h1]; omega)]
    congr 1
    funext a
    apply Fin.ext
    match a with
    | ⟨0, _⟩ =>
      show (d.start j idx 0 + (d.window j 0 : ℤ)).toNat = c0.val
      rw [h0]; omega
    | ⟨1, _⟩ =>
      show (d.start j idx 1 + (d.window j 1 : ℤ)).toNat = c1.val
      rw [h1]; omega

section rows
variable {C D N w : Nat} (d : ScatterDims ⟨2, ![C, D]⟩ ⟨2, ![N, 1]⟩ ⟨2, ![N, D]⟩)

theorem rows_uScatter (huw : d.updateWindowDims = [1]) : ∀ a ∈ d.uScatter, a.val = 0 := by
  intro a ha
  have hna : a ∉ d.updateWindowDims := by
    have := (List.mem_filter.mp ha).2
    simpa using this
  rw [huw] at hna
  have h2 : a.val < 2 := a.isLt
  by_contra hne
  exact hna (List.mem_singleton.mpr (Fin.ext (by show a.val = 1; omega)))

theorem rows_siIdx (huw : d.updateWindowDims = [1]) (hsd : d.scatterDimsToOperandDims = [0]) (hivd : d.indexVectorDim = 1)
    (r : Fin N) (b : Fin D) (k : Fin d.scatterDimsToOperandDims.length) :
    d.siIdx (ix2 r b) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix2_val_zero r b _ (rows_uScatter d huw _ (List.getElem_mem _))
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

theorem rows_start_zero (huw : d.updateWindowDims = [1]) (hsd : d.scatterDimsToOperandDims = [0]) (hivd : d.indexVectorDim = 1)
    (idx : IVec ⟨2, ![N, 1]⟩ w) (r : Fin N) (b : Fin D) :
    d.start (ix2 r b) idx 0 = (idx (ix2 r (0 : Fin 1))).toInt := by
  have hm : (0 : Fin 2) ∈ d.scatterDimsToOperandDims := by rw [hsd]; exact List.mem_singleton.mpr rfl
  unfold ScatterDims.start
  rw [dif_pos hm, rows_siIdx d huw hsd hivd r b]

theorem rows_start_one (hsd : d.scatterDimsToOperandDims = [0]) (idx : IVec ⟨2, ![N, 1]⟩ w) (r : Fin N) (b : Fin D) :
    d.start (ix2 r b) idx 1 = 0 := by
  have hm : (1 : Fin 2) ∉ d.scatterDimsToOperandDims := by rw [hsd]; simp
  unfold ScatterDims.start
  rw [dif_neg hm]

theorem rows_window_zero (hiw : d.insertedWindowDims = [0]) (r : Fin N) (b : Fin D) : d.window (ix2 r b) 0 = 0 := by
  have hk : (0 : Fin 2) ∉ d.sKept := by
    intro h
    have := (List.mem_filter.mp h).2
    rw [hiw] at this
    simp at this
  unfold ScatterDims.window
  rw [dif_neg hk]

theorem rows_window_one (huw : d.updateWindowDims = [1]) (hiw : d.insertedWindowDims = [0]) (r : Fin N) (b : Fin D) :
    d.window (ix2 r b) 1 = b.val := by
  have hk : (1 : Fin 2) ∈ d.sKept := by
    refine List.mem_filter.mpr ⟨List.mem_finRange _, ?_⟩
    rw [hiw]; simp
  have hwin : ∀ a ∈ d.updateWindowDims, a.val = 1 := by
    intro a ha; rw [huw] at ha; rw [List.mem_singleton.mp ha]; rfl
  unfold ScatterDims.window
  rw [dif_pos hk]
  exact ix2_val_one r b _ (hwin _ (List.getElem_mem _))

end rows

theorem rows_hit {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (idx : IVec ⟨2, ![N, 1]⟩ w) (r : Fin N) (b f : Fin D) (c : Fin C) :
    d.resultIdx? (ix2 r b) idx = some (ix2 c f) ↔ (idx (ix2 r (0 : Fin 1))).toInt = (c.val : ℤ) ∧ b = f := by
  rw [resultIdx?_ix2 d (ix2 r b) idx c f (idx (ix2 r (0 : Fin 1))).toInt (b.val : ℤ)
    (by rw [rows_start_zero d huw hsd hivd idx r b, rows_window_zero d hiw r b]; omega)
    (by rw [rows_start_one d hsd idx r b, rows_window_one d huw hiw r b]; omega)]
  exact and_congr_right fun _ => ⟨fun h => Fin.ext (by omega), fun h => by rw [h]⟩

end Idealize.ShloMosaic.GraphOps
-- ==== Proof.LibScatterSums.lean ====
import proofs.«401117_j39195871543847_2_alg».proof.Proof.LibGraphOps

namespace Idealize.ShloMosaic.GraphOps

open Idealize.ShloMosaic Idealize.ShloMosaic.ValueIdx

section pairs
variable {C0 C1 N w : Nat} (d : ScatterDims ⟨2, ![C0, C1]⟩ ⟨2, ![N, 2]⟩ ⟨1, ![N]⟩)

theorem pairs_siIdx (hivd : d.indexVectorDim = 1) (r : Fin N) (k : Fin d.scatterDimsToOperandDims.length)
    (c : Fin 2) (hkc : k.val = c.val) : d.siIdx (ix1 r) k = ix2 r c := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix1_val r _
  | ⟨1, _⟩ =>
    unfold ScatterDims.siIdx
    rw [dif_pos (by rw [hivd])]
    show k.val = c.val
    exact hkc

theorem pairs_start (hsd : d.scatterDimsToOperandDims = [0, 1]) (hivd : d.indexVectorDim = 1)
    (idx : IVec ⟨2, ![N, 2]⟩ w) (r : Fin N) (c : Fin 2) :
    d.start (ix1 r) idx c = (idx (ix2 r c)).toInt := by
  have hm : c ∈ d.scatterDimsToOperandDims := by
    rw [hsd]
    match c with
    | ⟨0, _⟩ => exact List.mem_cons.mpr (Or.inl rfl)
    | ⟨1, _⟩ => exact List.mem_cons.mpr (Or.inr (List.mem_cons.mpr (Or.inl rfl)))
  have hi : d.scatterDimsToOperandDims.idxOf c = c.val := by
    rw [hsd]
    match c with
    | ⟨0, _⟩ => rfl
    | ⟨1, _⟩ => rfl
  unfold ScatterDims.start
  rw [dif_pos hm, pairs_siIdx d hivd r ⟨d.scatterDimsToOperandDims.idxOf c, List.idxOf_lt_length_iff.2 hm⟩ c hi]

theorem pairs_window (hiw : d.insertedWindowDims = [0, 1]) (r : Fin N) (a : Fin 2) : d.window (ix1 r) a = 0 := by
  have hk : a ∉ d.sKept := by
    intro h
    have h2 := (List.mem_filter.mp h).2
    rw [hiw] at h2
    revert h2
    match a with
    | ⟨0, _⟩ => simp
    | ⟨1, _⟩ => simp
  unfold ScatterDims.window
  rw [dif_neg hk]

end pairs

theorem pairs_hit {C0 C1 N w : Nat} (d : ScatterDims ⟨2, ![C0, C1]⟩ ⟨2, ![N, 2]⟩ ⟨1, ![N]⟩)
    (huw : d.updateWindowDims = []) (hiw : d.insertedWindowDims = [0, 1]) (hsd : d.scatterDimsToOperandDims = [0, 1])
    (hivd : d.indexVectorDim = 1)
    (idx : IVec ⟨2, ![N, 2]⟩ w) (r : Fin N) (c0 : Fin C0) (c1 : Fin C1) :
    d.resultIdx? (ix1 r) idx = some (ix2 c0 c1) ↔
      (idx (ix2 r (0 : Fin 2))).toInt = (c0.val : ℤ) ∧ (idx (ix2 r (1 : Fin 2))).toInt = (c1.val : ℤ) := by
  have _ := huw
  exact resultIdx?_ix2 d (ix1 r) idx c0 c1 (idx (ix2 r (0 : Fin 2))).toInt (idx (ix2 r (1 : Fin 2))).toInt
    (by rw [pairs_start d hsd hivd idx r 0, pairs_window d hiw r 0]; omega)
    (by rw [pairs_start d hsd hivd idx r 1, pairs_window d hiw r 1]; omega)

theorem pairs_scatterAdd_apply {C0 C1 N w : Nat} (d : ScatterDims ⟨2, ![C0, C1]⟩ ⟨2, ![N, 2]⟩ ⟨1, ![N]⟩)
    (huw : d.updateWindowDims = []) (hiw : d.insertedWindowDims = [0, 1]) (hsd : d.scatterDimsToOperandDims = [0, 1])
    (hivd : d.indexVectorDim = 1)
    (x : (⟨2, ![C0, C1]⟩ : Shape).Idx → EReal) (idx : IVec ⟨2, ![N, 2]⟩ w) (upd : (⟨1, ![N]⟩ : Shape).Idx → EReal)
    (c0 : Fin C0) (c1 : Fin C1) :
    Ideal.hostScatterAdd d x idx upd (ix2 c0 c1) =
      x (ix2 c0 c1) + ∑ r ∈ Finset.univ.filter (fun r : Fin N =>
        (idx (ix2 r (0 : Fin 2))).toInt = (c0.val : ℤ) ∧ (idx (ix2 r (1 : Fin 2))).toInt = (c1.val : ℤ)), upd (ix1 r) := by
  unfold Ideal.hostScatterAdd
  congr 1
  refine Finset.sum_nbij' (fun j => j 0) (fun r => ix1 r) ?_ ?_ ?_ ?_ ?_
  · intro j hj
    obtain ⟨r, rfl⟩ : ∃ r, j = ix1 r := ⟨j 0, eq_ix1 j⟩
    exact Finset.mem_filter.mpr ⟨Finset.mem_univ _, (pairs_hit d huw hiw hsd hivd idx r c0 c1).mp (Finset.mem_filter.mp hj).2⟩
  · intro r hr
    exact Finset.mem_filter.mpr ⟨Finset.mem_univ _, (pairs_hit d huw hiw hsd hivd idx r c0 c1).mpr (Finset.mem_filter.mp hr).2⟩
  · intro j _
    exact (eq_ix1 j).symm
  · intro r _
    rfl
  · intro j _
    exact congrArg upd (eq_ix1 j)

theorem rows_scatterAdd_apply {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (x : (⟨2, ![C, D]⟩ : Shape).Idx → EReal) (idx : IVec ⟨2, ![N, 1]⟩ w) (upd : (⟨2, ![N, D]⟩ : Shape).Idx → EReal)
    (c : Fin C) (f : Fin D) :
    Ideal.hostScatterAdd d x idx upd (ix2 c f) =
      x (ix2 c f) + ∑ r ∈ Finset.univ.filter (fun r : Fin N => (idx (ix2 r (0 : Fin 1))).toInt = (c.val : ℤ)),
        upd (ix2 r f) := by
  unfold Ideal.hostScatterAdd
  congr 1
  have key : ∀ j, d.resultIdx? j idx = some (ix2 c f) →
      (idx (ix2 (j 0) (0 : Fin 1))).toInt = (c.val : ℤ) ∧ ix2 (j 0) f = j := fun j hj => by
    obtain ⟨r, b, rfl⟩ : ∃ r b, j = ix2 r b := ⟨j 0, j 1, eq_ix2 j⟩
    obtain ⟨h, rfl⟩ := (rows_hit d huw hiw hsd hivd idx r b f c).mp hj
    exact ⟨h, rfl⟩
  refine Finset.sum_nbij' (fun j => j 0) (fun r => ix2 r f) ?_ ?_ ?_ ?_ ?_
  · exact fun j hj => Finset.mem_filter.mpr ⟨Finset.mem_univ _, (key j (Finset.mem_filter.mp hj).2).1⟩
  · intro r hr
    exact Finset.mem_filter.mpr ⟨Finset.mem_univ _,
      (rows_hit d huw hiw hsd hivd idx r f f c).mpr ⟨(Finset.mem_filter.mp hr).2, rfl⟩⟩
  · exact fun j hj => (key j (Finset.mem_filter.mp hj).2).2
  · exact fun r _ => rfl
  · exact fun j hj => congrArg upd (key j (Finset.mem_filter.mp hj).2).2.symm

end Idealize.ShloMosaic.GraphOps
-- ==== Proof.LibTakeRows.lean ====
import Idealize.ShloMosaic.PureOps.Dims
import Idealize.ShloMosaic.PureOps.ShapeOps
import Idealize.ShloMosaic.PureOps.Ideal
import Idealize.ShloMosaic.Lib.ValueIdx

namespace Idealize.ShloMosaic.GraphOps

open Idealize.ShloMosaic Idealize.ShloMosaic.ValueIdx

theorem take_vec_apply {α : Type} {N M w : Nat} (hN : 0 < N) (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hivd : d.indexVectorDim = 1)
    (hss : d.sliceSizes = ![1]) (x : (⟨1, ![N]⟩ : Shape).Idx → α) (idx : IVec ⟨2, ![M, 1]⟩ w) (e : Fin M) :
    Host.gather d x idx (ix1 e) = x (ix1 ⟨min (idx (ix2 e (0 : Fin 1))).toInt.toNat (N - 1), by omega⟩) := by
  obtain ⟨od, cs, ob, sb, sm, ivd, ss, wf⟩ := d
  dsimp only at hod hcs hob hsb hsm hivd hss
  subst hod hcs hob hsb hsm hivd hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ [(0 : Fin 1)] from List.mem_singleton.mpr rfl)]
  have hsi : GatherDims.siIdx (s := ⟨1, ![N]⟩) (si := ⟨2, ![M, 1]⟩) (t := ⟨1, ![M]⟩)
      ⟨[], [0], [], [], [0], 1, ![1], wf⟩ (ix1 e) ⟨List.idxOf (0 : Fin 1) [(0 : Fin 1)],
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem clamp_in_range {N : Nat} (v : Int) (hr : 0 ≤ v ∧ v < (N : Int)) : min v.toNat (N - 1) = v.toNat := by omega

theorem take_rows_apply {α : Type} {N D M w : Nat} (hN : 0 < N) (d : GatherDims ⟨2, ![N, D]⟩ ⟨2, ![M, 1]⟩ ⟨2, ![M, D]⟩)
    (hod : d.offsetDims = [1]) (hcs : d.collapsedSliceDims = [0]) (hob : d.operandBatchingDims = [])
    (hsb : d.startIndicesBatchingDims = []) (hsm : d.startIndexMap = [0]) (hivd : d.indexVectorDim = 1)
    (hss : d.sliceSizes = ![1, D]) (x : (⟨2, ![N, D]⟩ : Shape).Idx → α) (idx : IVec ⟨2, ![M, 1]⟩ w) (e : Fin M)
    (b : Fin D) :
    Host.gather d x idx (ix2 e b) = x (ix2 ⟨min (idx (ix2 e (0 : Fin 1))).toInt.toNat (N - 1), by omega⟩ b) := by
  obtain ⟨od, cs, ob, sb, sm, ivd, ss, wf⟩ := d
  dsimp only at hod hcs hob hsb hsm hivd hss
  subst hod hcs hob hsb hsm hivd hss
  unfold Host.gather
  congr 1
  funext a
  refine Fin.ext ?_
  match a with
  | ⟨0, _⟩ =>
    show GatherDims.start _ (ix2 e b) idx 0 + GatherDims.batchCoord _ (ix2 e b) 0 + GatherDims.offCoord _ (ix2 e b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (s := ⟨2, ![N, D]⟩) (si := ⟨2, ![M, 1]⟩) (t := ⟨2, ![M, D]⟩)
        ⟨[1], [0], [], [], [0], 1, ![1, D], wf⟩ (ix2 e b) ⟨List.idxOf (0 : Fin 2) [(0 : Fin 2)],
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show GatherDims.start _ (ix2 e b) idx 1 + GatherDims.batchCoord _ (ix2 e b) 1 + GatherDims.offCoord _ (ix2 e b) 1 = _
    rw [GatherDims.batchCoord_eq_zero _ _ _ List.not_mem_nil]
    unfold GatherDims.start
    rw [dif_neg (show (1 : Fin 2) ∉ [(0 : Fin 2)] by decide)]
    simp only [Nat.add_zero, Nat.zero_add]
    rfl

theorem take_rows_apply_of_inRange {α : Type} {N D M w : Nat} (hN : 0 < N)
    (d : GatherDims ⟨2, ![N, D]⟩ ⟨2, ![M, 1]⟩ ⟨2, ![M, D]⟩)
    (hod : d.offsetDims = [1]) (hcs : d.collapsedSliceDims = [0]) (hob : d.operandBatchingDims = [])
    (hsb : d.startIndicesBatchingDims = []) (hsm : d.startIndexMap = [0]) (hivd : d.indexVectorDim = 1)
    (hss : d.sliceSizes = ![1, D]) (x : (⟨2, ![N, D]⟩ : Shape).Idx → α) (idx : IVec ⟨2, ![M, 1]⟩ w) (e : Fin M)
    (b : Fin D)
    (hr : 0 ≤ (idx (ix2 e (0 : Fin 1))).toInt ∧ (idx (ix2 e (0 : Fin 1))).toInt < (N : Int)) :
    Host.gather d x idx (ix2 e b) = x (ix2 ⟨(idx (ix2 e (0 : Fin 1))).toInt.toNat, by omega⟩ b) :=
  (take_rows_apply hN d hod hcs hob hsb hsm hivd hss x idx e b).trans
    (congrArg (fun k => x (ix2 k b)) (Fin.ext (clamp_in_range _ hr)))

theorem guarded_rsqrt_nonneg (x : EReal) : 0 ≤ (if 0 < x then Ideal.rsqrt x else 0) := by
  split_ifs with h
  · induction x using EReal.rec with
    | bot => exact absurd h (by simp)
    | top => rw [Ideal.rsqrt_top]
    | coe r =>
      have hr : 0 < r := by exact_mod_cast h
      rw [Ideal.rsqrt_coe, if_neg (not_lt.mpr hr.le), if_neg hr.ne']
      exact_mod_cast inv_nonneg.mpr (Real.sqrt_nonneg r)
  · exact le_refl _

theorem select_rsqrt_nonneg {S : Shape} (deg z : FVec Ideal S .f32) (hz : ∀ i, z i = 0) (i : S.Idx) :
    (0 : EReal) ≤ select (cmpf (F := Ideal) .ogt deg z) (Host.rsqrt (F := Ideal) deg) z i := by
  have h := guarded_rsqrt_nonneg (deg i)
  rw [select_apply, cmpf_apply]
  show (0 : EReal) ≤ Scalar.select (Ideal.cmp .ogt (deg i) (z i)) (Ideal.rsqrt (deg i)) (z i)
  rw [hz i]
  unfold Ideal.cmp Scalar.select
  by_cases hp : (0 : EReal) < deg i
  · rw [if_pos hp] at h
    simpa [hp] using h
  · simp [hp]

end Idealize.ShloMosaic.GraphOps
-- ==== Proof.Val.RefLayers.lean ====
import proofs.«401117_j39195871543847_2_alg».proof.Proof.RefRead
import proofs.«401117_j39195871543847_2_alg».proof.Proof.LibScatterSums
import proofs.«401117_j39195871543847_2_alg».proof.Proof.LibTakeRows
import Idealize.ShloMosaic.Lib.ValueIdx
import Idealize.ShloMosaic.Lib.Affine
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.GraphOps

theorem toInt_ofNat32_small (n : Nat) (h : n < 10000) : (BitVec.ofNat 32 n).toInt = (n : ℤ) := by
  rw [BitVec.toInt_eq_toNat_of_lt (by rw [BitVec.toNat_ofNat]; omega), BitVec.toNat_ofNat]
  omega

theorem wrap_id (w z a : BitVec 32) (hz : z = 0#32) (h0 : 0 ≤ w.toInt) :
    Scalar.select (IntOp.cmpi .slt w z) a w = w := by
  subst hz
  have hne : ¬ IntOp.cmpi .slt w 0#32 = 1#1 := by
    intro h
    have h1 := IntOp.cmpi_slt.1 h
    have h2 : (0#32 : BitVec 32).toInt = 0 := by decide
    omega
  rw [eq_zero_of_ne_one hne, select_zero]

theorem gather_scale_scatter_apply {N D E : Nat} (hN : 0 < N)
    (gd : GatherDims ⟨2, ![N, D]⟩ ⟨2, ![E, 1]⟩ ⟨2, ![E, D]⟩)
    (hod : gd.offsetDims = [1]) (hcs : gd.collapsedSliceDims = [0]) (hob : gd.operandBatchingDims = [])
    (hsb : gd.startIndicesBatchingDims = []) (hsm : gd.startIndexMap = [0]) (hgiv : gd.indexVectorDim = 1)
    (hss : gd.sliceSizes = ![1, D])
    (sd : ScatterDims ⟨2, ![N, D]⟩ ⟨2, ![E, 1]⟩ ⟨2, ![E, D]⟩)
    (huw : sd.updateWindowDims = [1]) (hiw : sd.insertedWindowDims = [0]) (hsd : sd.scatterDimsToOperandDims = [0])
    (hsiv : sd.indexVectorDim = 1)
    (T z : FVec Ideal ⟨2, ![N, D]⟩ .f32)
    (scol dcol : IVec ⟨2, ![E, 1]⟩ 32) (wgt : FVec Ideal ⟨2, ![E, D]⟩ .f32)
    (s d : IVec ⟨1, ![E]⟩ 32) (n : FVec Ideal ⟨1, ![E]⟩ .f32)
    (hs : ∀ e : Fin E, scol (ix2 e (0 : Fin 1)) = s (ix1 e))
    (hd : ∀ e : Fin E, dcol (ix2 e (0 : Fin 1)) = d (ix1 e))
    (hw : ∀ (e : Fin E) (f : Fin D), wgt (ix2 e f) = n (ix1 e))
    (hz : ∀ j, z j = 0)
    (hsr : ∀ e : Fin E, 0 ≤ (s (ix1 e)).toInt ∧ (s (ix1 e)).toInt < (N : ℤ))
    (i : Fin N) (f : Fin D) :
    Host.scatterAdd (F := Ideal) sd z dcol (mulf (Host.gather gd T scol) wgt) (ix2 i f)
      = 0 + ∑ e ∈ Finset.univ.filter (fun e : Fin E => (d (ix1 e)).toInt = (i.val : ℤ)),
          T (ix2 ⟨(s (ix1 e)).toInt.toNat, by have := hsr e; omega⟩ f) * n (ix1 e) := by
  show Ideal.hostScatterAdd sd z dcol _ (ix2 i f) = _
  rw [rows_scatterAdd_apply sd huw hiw hsd hsiv z dcol _ i f, hz]
  congr 1
  have hfilter : (Finset.univ.filter fun r : Fin E => (dcol (ix2 r (0 : Fin 1))).toInt = (i.val : ℤ))
      = Finset.univ.filter (fun e : Fin E => (d (ix1 e)).toInt = (i.val : ℤ)) := by
    refine Finset.filter_congr fun e _ => ?_
    rw [hd e]
  rw [hfilter]
  refine Finset.sum_congr rfl fun e _ => ?_
  have hre : 0 ≤ (scol (ix2 e (0 : Fin 1))).toInt ∧ (scol (ix2 e (0 : Fin 1))).toInt < (N : ℤ) := by
    rw [hs e]; exact hsr e
  rw [mulf_apply, hw e f, take_rows_apply_of_inRange hN gd hod hcs hob hsb hsm hgiv hss T scol e f hre]
  have hrow : (⟨(scol (ix2 e (0 : Fin 1))).toInt.toNat, by omega⟩ : Fin N)
      = ⟨(s (ix1 e)).toInt.toNat, by have := hsr e; omega⟩ :=
    Fin.ext (congrArg (fun w : BitVec 32 => w.toInt.toNat) (hs e))
  rw [hrow]

theorem concat_iota_range (a : IVec S160000 32) (b : IVec S10000 32) (h : Shape.Concatenates [S160000, S10000] S170000 0)
    (ha : ∀ j, 0 ≤ (a j).toInt ∧ (a j).toInt < 10000) (hb : ∀ k : Fin 10000, b (ix1 k) = BitVec.ofNat 32 k.val)
    (e : Fin 170000) :
    0 ≤ (concatenate S170000 0 [⟨S160000, a⟩, ⟨S10000, b⟩] h (ix1 e)).toInt ∧
      (concatenate S170000 0 [⟨S160000, a⟩, ⟨S10000, b⟩] h (ix1 e)).toInt < 10000 := by
  by_cases hlt : e.val < 160000
  · rw [concatenate_pair_apply_left (0 : Fin S170000.rank) a b h (ix1 e) rfl (ix1 ⟨e.val, hlt⟩)
      (fun c => by match c with | ⟨0, _⟩ => rfl)]
    exact ha _
  · have h2 : e.val - 160000 < 10000 := by have := e.isLt; omega
    rw [concatenate_pair_apply_right (0 : Fin S170000.rank) a b h (ix1 e) rfl rfl (ix1 ⟨e.val - 160000, h2⟩)
      (fun c hc => absurd (Subsingleton.elim _ _) hc)
      (by show (e.val - 160000) + 160000 = e.val; omega), hb, toInt_ofNat32_small _ h2]
    omega

section layers

variable (x0 : (⟨S10000x2208, .f32⟩ : BufTy).Contents (Elt Ideal)) (x1 : (⟨S2x160000, .i32⟩ : BufTy).Contents (Elt Ideal))
  (x3 : (⟨S2208x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x2, .f32⟩ : BufTy).Contents (Elt Ideal)) (x10 : (⟨S2, .f32⟩ : BufTy).Contents (Elt Ideal))

theorem src_range (hr : ∀ k : S2x160000.Idx, 0 ≤ (x1 k).toInt ∧ (x1 k).toInt < 10000) (e : Fin 170000) :
    0 ≤ (val_main_v5 (F := Ideal) x1 (ix1 e)).toInt ∧ (val_main_v5 (F := Ideal) x1 (ix1 e)).toInt < 10000 := by
  unfold val_main_v5
  exact concat_iota_range _ _ _ (fun j => by rw [val_main_v1_apply, val_main_v0_apply]; exact hr _) (fun k => rfl) e

theorem src_lt (hr : ∀ k : S2x160000.Idx, 0 ≤ (x1 k).toInt ∧ (x1 k).toInt < 10000) (e : Fin 170000) :
    (val_main_v5 (F := Ideal) x1 (ix1 e)).toInt.toNat < 10000 := by
  have := src_range x1 hr e
  omega

theorem ref_layer1 (hr : ∀ k : S2x160000.Idx, 0 ≤ (x1 k).toInt ∧ (x1 k).toInt < 10000) (i : Fin 10000) (f : Fin 512) :
    val_main_v47 (F := Ideal) x0 x1 x3 x4 (ix2 i f)
      = max ((0 + ∑ e ∈ Finset.univ.filter (fun e : Fin 170000 => (val_main_v6 (F := Ideal) x1 (ix1 e)).toInt = (i.val : ℤ)),
          val_main_v30 (F := Ideal) x0 x3 (ix2 ⟨(val_main_v5 (F := Ideal) x1 (ix1 e)).toInt.toNat, src_lt x1 hr e⟩ f)
            * val_main_v29 (F := Ideal) x1 (ix1 e)) + x4 (ix1 f)) 0 := by
  have hagg := gather_scale_scatter_apply (by decide)
    gather_S10000x512_S170000x1_S170000x512_1_0_n_n_0_1_1512 rfl rfl rfl rfl rfl rfl rfl
    scatter_S10000x512_S170000x1_S170000x512_1_0_0_1 rfl rfl rfl rfl
    (val_main_v30 x0 x3) (val_main_v41 (F := Ideal)) (val_main_v36 x1) (val_main_v42 x1)
    (val_main_v39 x1) (val_main_v5 x1) (val_main_v6 x1) (val_main_v29 x1)
    (fun e => by
      rw [val_main_v36_apply, show idx_main_v36 (ix2 e (0 : Fin 1)) = ix1 e from eq_ix1 _,
        val_main_v35_apply, val_main_v32_apply, val_main_v31_apply, val_main_c_6_apply]
      exact wrap_id _ _ _ rfl (src_range x1 hr e).1)
    (fun e => by
      rw [val_main_v42_apply, show idx_main_v42 (ix2 e (0 : Fin 1)) = ix1 e from eq_ix1 _])
    (fun e f => by
      rw [val_main_v39_apply, val_main_v38_apply,
        show idx_main_v38 (idx_main_v39 (ix2 e f)) = ix1 e from eq_ix1 _])
    (fun j => by rw [val_main_v41_apply, val_main_cst_8_apply]; exact Ideal.ofBits_zero_f32)
    (src_range x1 hr) i f
  rw [val_main_v47_apply, val_main_v46_apply, val_main_call1_v0_apply, val_main_call1_cst_apply, val_main_v45_apply,
    val_main_v44_apply, show idx_main_v44 (idx_main_v45 (ix2 i f)) = ix1 f from eq_ix1 _,
    show val_main_v43 x0 x1 x3 (ix2 i f) = _ from hagg]
  show max (_ + x4 (ix1 f)) (Ideal.ofBits .f32 0x00000000#32) = _
  rw [Ideal.ofBits_zero_f32]

theorem ref_layer2 (hr : ∀ k : S2x160000.Idx, 0 ≤ (x1 k).toInt ∧ (x1 k).toInt < 10000) (i : Fin 10000) (f : Fin 512) :
    val_main_v65 (F := Ideal) x0 x1 x3 x4 x5 x6 (ix2 i f)
      = max ((0 + ∑ e ∈ Finset.univ.filter (fun e : Fin 170000 => (val_main_v6 (F := Ideal) x1 (ix1 e)).toInt = (i.val : ℤ)),
          val_main_v48 (F := Ideal) x0 x1 x3 x4 x5 (ix2 ⟨(val_main_v5 (F := Ideal) x1 (ix1 e)).toInt.toNat, src_lt x1 hr e⟩ f)
            * val_main_v29 (F := Ideal) x1 (ix1 e)) + x6 (ix1 f)) 0 := by
  have hagg := gather_scale_scatter_apply (by decide)
    gather_S10000x512_S170000x1_S170000x512_1_0_n_n_0_1_1512 rfl rfl rfl rfl rfl rfl rfl
    scatter_S10000x512_S170000x1_S170000x512_1_0_0_1 rfl rfl rfl rfl
    (val_main_v48 x0 x1 x3 x4 x5) (val_main_v59 (F := Ideal)) (val_main_v54 x1) (val_main_v60 x1)
    (val_main_v57 x1) (val_main_v5 x1) (val_main_v6 x1) (val_main_v29 x1)
    (fun e => by
      rw [val_main_v54_apply, show idx_main_v54 (ix2 e (0 : Fin 1)) = ix1 e from eq_ix1 _,
        val_main_v53_apply, val_main_v50_apply, val_main_v49_apply, val_main_c_9_apply]
      exact wrap_id _ _ _ rfl (src_range x1 hr e).1)
    (fun e => by
      rw [val_main_v60_apply, show idx_main_v60 (ix2 e (0 : Fin 1)) = ix1 e from eq_ix1 _])
    (fun e f => by
      rw [val_main_v57_apply, val_main_v56_apply,
        show idx_main_v56 (idx_main_v57 (ix2 e f)) = ix1 e from eq_ix1 _])
    (fun j => by rw [val_main_v59_apply, val_main_cst_11_apply]; exact Ideal.ofBits_zero_f32)
    (src_range x1 hr) i f
  rw [val_main_v65_apply, val_main_v64_apply, val_main_call2_v0_apply, val_main_call2_cst_apply, val_main_v63_apply,
    val_main_v62_apply, show idx_main_v62 (idx_main_v63 (ix2 i f)) = ix1 f from eq_ix1 _,
    show val_main_v61 x0 x1 x3 x4 x5 (ix2 i f) = _ from hagg]
  show max (_ + x6 (ix1 f)) (Ideal.ofBits .f32 0x00000000#32) = _
  rw [Ideal.ofBits_zero_f32]

theorem ref_layer3 (hr : ∀ k : S2x160000.Idx, 0 ≤ (x1 k).toInt ∧ (x1 k).toInt < 10000) (i : Fin 10000) (f : Fin 512) :
    val_main_v83 (F := Ideal) x0 x1 x3 x4 x5 x6 x7 x8 (ix2 i f)
      = max ((0 + ∑ e ∈ Finset.univ.filter (fun e : Fin 170000 => (val_main_v6 (F := Ideal) x1 (ix1 e)).toInt = (i.val : ℤ)),
          val_main_v66 (F := Ideal) x0 x1 x3 x4 x5 x6 x7 (ix2 ⟨(val_main_v5 (F := Ideal) x1 (ix1 e)).toInt.toNat, src_lt x1 hr e⟩ f)
            * val_main_v29 (F := Ideal) x1 (ix1 e)) + x8 (ix1 f)) 0 := by
  have hagg := gather_scale_scatter_apply (by decide)
    gather_S10000x512_S170000x1_S170000x512_1_0_n_n_0_1_1512 rfl rfl rfl rfl rfl rfl rfl
    scatter_S10000x512_S170000x1_S170000x512_1_0_0_1 rfl rfl rfl rfl
    (val_main_v66 x0 x1 x3 x4 x5 x6 x7) (val_main_v77 (F := Ideal)) (val_main_v72 x1) (val_main_v78 x1)
    (val_main_v75 x1) (val_main_v5 x1) (val_main_v6 x1) (val_main_v29 x1)
    (fun e => by
      rw [val_main_v72_apply, show idx_main_v72 (ix2 e (0 : Fin 1)) = ix1 e from eq_ix1 _,
        val_main_v71_apply, val_main_v68_apply, val_main_v67_apply, val_main_c_12_apply]
      exact wrap_id _ _ _ rfl (src_range x1 hr e).1)
    (fun e => by
      rw [val_main_v78_apply, show idx_main_v78 (ix2 e (0 : Fin 1)) = ix1 e from eq_ix1 _])
    (fun e f => by
      rw [val_main_v75_apply, val_main_v74_apply,
        show idx_main_v74 (idx_main_v75 (ix2 e f)) = ix1 e from eq_ix1 _])
    (fun j => by rw [val_main_v77_apply, val_main_cst_14_apply]; exact Ideal.ofBits_zero_f32)
    (src_range x1 hr) i f
  rw [val_main_v83_apply, val_main_v82_apply, val_main_call3_v0_apply, val_main_call3_cst_apply, val_main_v81_apply,
    val_main_v80_apply, show idx_main_v80 (idx_main_v81 (ix2 i f)) = ix1 f from eq_ix1 _,
    show val_main_v79 x0 x1 x3 x4 x5 x6 x7 (ix2 i f) = _ from hagg]
  show max (_ + x8 (ix1 f)) (Ideal.ofBits .f32 0x00000000#32) = _
  rw [Ideal.ofBits_zero_f32]

theorem ref_layer4 (hr : ∀ k : S2x160000.Idx, 0 ≤ (x1 k).toInt ∧ (x1 k).toInt < 10000) (i : Fin 10000) (f : Fin 2) :
    val_main_v100 (F := Ideal) x0 x1 x3 x4 x5 x6 x7 x8 x9 x10 (ix2 i f)
      = (0 + ∑ e ∈ Finset.univ.filter (fun e : Fin 170000 => (val_main_v6 (F := Ideal) x1 (ix1 e)).toInt = (i.val : ℤ)),
          val_main_v84 (F := Ideal) x0 x1 x3 x4 x5 x6 x7 x8 x9 (ix2 ⟨(val_main_v5 (F := Ideal) x1 (ix1 e)).toInt.toNat, src_lt x1 hr e⟩ f)
            * val_main_v29 (F := Ideal) x1 (ix1 e)) + x10 (ix1 f) := by
  have hagg := gather_scale_scatter_apply (by decide)
    gather_S10000x2_S170000x1_S170000x2_1_0_n_n_0_1_12 rfl rfl rfl rfl rfl rfl rfl
    scatter_S10000x2_S170000x1_S170000x2_1_0_0_1 rfl rfl rfl rfl
    (val_main_v84 x0 x1 x3 x4 x5 x6 x7 x8 x9) (val_main_v95 (F := Ideal)) (val_main_v90 x1) (val_main_v96 x1)
    (val_main_v93 x1) (val_main_v5 x1) (val_main_v6 x1) (val_main_v29 x1)
    (fun e => by
      rw [val_main_v90_apply, show idx_main_v90 (ix2 e (0 : Fin 1)) = ix1 e from eq_ix1 _,
        val_main_v89_apply, val_main_v86_apply, val_main_v85_apply, val_main_c_15_apply]
      exact wrap_id _ _ _ rfl (src_range x1 hr e).1)
    (fun e => by
      rw [val_main_v96_apply, show idx_main_v96 (ix2 e (0 : Fin 1)) = ix1 e from eq_ix1 _])
    (fun e f => by
      rw [val_main_v93_apply, val_main_v92_apply,
        show idx_main_v92 (idx_main_v93 (ix2 e f)) = ix1 e from eq_ix1 _])
    (fun j => by rw [val_main_v95_apply, val_main_cst_17_apply]; exact Ideal.ofBits_zero_f32)
    (src_range x1 hr) i f
  rw [val_main_v100_apply, val_main_v99_apply,
    val_main_v98_apply, show idx_main_v98 (idx_main_v99 (ix2 i f)) = ix1 f from eq_ix1 _,
    show val_main_v97 x0 x1 x3 x4 x5 x6 x7 x8 x9 (ix2 i f) = _ from hagg]
  rfl

theorem val_main_v30_coords (j : Fin 10000) (f : Fin 512) :
    val_main_v30 (F := Ideal) x0 x3 (ix2 j f) = ∑ k : Fin 2208, x0 (ix2 j k) * x3 (ix2 k f) := by
  rw [val_main_v30_apply]
  refine Finset.sum_congr rfl fun k _ => ?_
  rw [show lidx_main_v30 (ix2 j f) k = ix2 j k from Shape.idx_ext₂ rfl rfl,
    show ridx_main_v30 (ix2 j f) k = ix2 k f from Shape.idx_ext₂ rfl rfl]

theorem val_main_v48_coords (j : Fin 10000) (f : Fin 512) :
    val_main_v48 (F := Ideal) x0 x1 x3 x4 x5 (ix2 j f)
      = ∑ k : Fin 512, val_main_v47 (F := Ideal) x0 x1 x3 x4 (ix2 j k) * x5 (ix2 k f) := by
  rw [val_main_v48_apply]
  refine Finset.sum_congr rfl fun k _ => ?_
  rw [show lidx_main_v48 (ix2 j f) k = ix2 j k from Shape.idx_ext₂ rfl rfl,
    show ridx_main_v48 (ix2 j f) k = ix2 k f from Shape.idx_ext₂ rfl rfl]

theorem val_main_v66_coords (j : Fin 10000) (f : Fin 512) :
    val_main_v66 (F := Ideal) x0 x1 x3 x4 x5 x6 x7 (ix2 j f)
      = ∑ k : Fin 512, val_main_v65 (F := Ideal) x0 x1 x3 x4 x5 x6 (ix2 j k) * x7 (ix2 k f) := by
  rw [val_main_v66_apply]
  refine Finset.sum_congr rfl fun k _ => ?_
  rw [show lidx_main_v66 (ix2 j f) k = ix2 j k from Shape.idx_ext₂ rfl rfl,
    show ridx_main_v66 (ix2 j f) k = ix2 k f from Shape.idx_ext₂ rfl rfl]

theorem val_main_v84_coords (j : Fin 10000) (f : Fin 2) :
    val_main_v84 (F := Ideal) x0 x1 x3 x4 x5 x6 x7 x8 x9 (ix2 j f)
      = ∑ k : Fin 512, val_main_v83 (F := Ideal) x0 x1 x3 x4 x5 x6 x7 x8 (ix2 j k) * x9 (ix2 k f) := by
  rw [val_main_v84_apply]
  refine Finset.sum_congr rfl fun k _ => ?_
  rw [show lidx_main_v84 (ix2 j f) k = ix2 j k from Shape.idx_ext₂ rfl rfl,
    show ridx_main_v84 (ix2 j f) k = ix2 k f from Shape.idx_ext₂ rfl rfl]

def tailR (t4 : (⟨S10000x2, .f32⟩ : BufTy).Contents (Elt Ideal)) : (⟨S10000x2, .f32⟩ : BufTy).Contents (Elt Ideal) :=
  let m : FVec Ideal S10000 .f32 :=
    maximumf (F := Ideal) (φ := .f32) (val_main_call4_v1 (F := Ideal))
      (Host.reduce (FloatOps.maximumf (F := Ideal) (φ := .f32)) t4 (val_main_call4_cst (F := Ideal))
        reducesTo_S10000x2_S10000_d1 h_S_)
  let c : FVec Ideal S10000x2 .f32 :=
    subf (F := Ideal) (φ := .f32) t4 (broadcastInDim S10000x2 ![0, 1] bcast_S10000x1_S10000x2_0_1
      (broadcastInDim S10000x1 ![0] bcast_S10000_S10000x1_0 m))
  let l : FVec Ideal S10000x1 .f32 :=
    Host.log (F := Ideal) (φ := .f32) (broadcastInDim S10000x1 ![0] bcast_S10000_S10000x1_0
      (Host.reduceAdd (F := Ideal) (φ := .f32) (Host.exp (F := Ideal) (φ := .f32) c) (val_main_call4_cst_1 (F := Ideal))
        reducesTo_S10000x2_S10000_d1 h_S_))
  subf (F := Ideal) (φ := .f32) c (broadcastInDim S10000x2 ![0, 1] bcast_S10000x1_S10000x2_0_1 l)

theorem val_main_v101_tail :
    val_main_v101 (F := Ideal) x0 x1 x3 x4 x5 x6 x7 x8 x9 x10
      = tailR (val_main_v100 (F := Ideal) x0 x1 x3 x4 x5 x6 x7 x8 x9 x10) := rfl

end layers

end Cert.ReferenceIdeal.RefValue

end
-- ==== Proof.Val.RefNorm.lean ====
import proofs.«401117_j39195871543847_2_alg».proof.Proof.RefRead
import proofs.«401117_j39195871543847_2_alg».proof.Proof.LibTakeRows

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.GraphOps

theorem where_rsqrt_nonneg {S : Shape} (deg z z' : FVec Ideal S .f32) (hz : ∀ i, z i = 0) (hz' : ∀ i, z' i = 0)
    (i : S.Idx) : (0 : EReal) ≤ select (cmpf (F := Ideal) .ogt deg z) (Host.rsqrt (F := Ideal) deg) z' i := by
  have hzz : z' = z := funext fun j => (hz' j).trans (hz j).symm
  rw [hzz]
  exact select_rsqrt_nonneg deg z hz i

theorem dinv_nonneg (x1 : (⟨S2x160000, .i32⟩ : BufTy).Contents (Elt Ideal)) (i : S10000.Idx) :
    (0 : EReal) ≤ val_main_v14 (F := Ideal) x1 i := by
  unfold val_main_v14 val_main_v12 val_main_v13
  refine where_rsqrt_nonneg _ _ _ (fun j => ?_) (fun j => ?_) i
  · rw [val_main_v11_apply, val_main_cst_1_apply, Ideal.ofBits_def, Ideal.ofBits_zero_f32]
  · rw [val_main_call0_v1_apply, val_main_call0_v0_apply, val_main_cst_2_apply, Ideal.ofBits_def, Ideal.ofBits_zero_f32]

theorem take_dinv_nonneg (x1 : (⟨S2x160000, .i32⟩ : BufTy).Contents (Elt Ideal)) (idx : IVec S170000x1 32) (e : Fin 170000) :
    (0 : EReal) ≤ Host.gather gather_S10000_S170000x1_S170000_n_0_n_n_0_1_1 (val_main_v14 (F := Ideal) x1) idx (ix1 e) := by
  rw [take_vec_apply (by decide) _ rfl rfl rfl rfl rfl rfl rfl]
  exact dinv_nonneg x1 _

theorem norm_nonneg (x1 : (⟨S2x160000, .i32⟩ : BufTy).Contents (Elt Ideal)) (e : Fin 170000) :
    (0 : EReal) ≤ val_main_v29 (F := Ideal) x1 (ix1 e) := by
  rw [val_main_v29_apply, Ideal.mulf_def]
  exact EReal.mul_nonneg (take_dinv_nonneg x1 _ e) (take_dinv_nonneg x1 _ e)

end Cert.ReferenceIdeal.RefValue

end
-- ==== Proof.Val.HostK.lean ====
import proofs.«401117_j39195871543847_2_alg».proof.Proof.Gen.KernelIdeal.Regions
import Idealize.ShloMosaic.Lib.StableHlo.Run
set_option maxRecDepth 4096

noncomputable section

namespace Cert.KernelIdeal.Hand
open Cert.KernelIdeal Cert.KernelIdeal.Gen
open Idealize.ShloMosaic Idealize.ShloMosaic.TcCoe Idealize.SL.Sem

variable {F : FTy → Type} [FloatOps F]

def edgeRow0 (ei : IVec S2x160000 32) : IVec S160000 32 :=
  shapeCast S160000 (extractStridedSlice S1x160000 ![0, 0] ei slices_S2x160000_S1x160000_0_0) shapeCasts_S1x160000_S160000

def edgeRow1 (ei : IVec S2x160000 32) : IVec S160000 32 :=
  shapeCast S160000 (extractStridedSlice S1x160000 ![1, 0] ei slices_S2x160000_S1x160000_1_0) shapeCasts_S1x160000_S160000

def srcIdx (ei : IVec S2x160000 32) : IVec S170000 32 :=
  concatenate S170000 0 [⟨S160000, edgeRow0 ei⟩, ⟨S10000, iotaInDim S10000 32 0⟩] concatenates_S160000_S10000_S170000_d0

def dstIdx (ei : IVec S2x160000 32) : IVec S170000 32 :=
  concatenate S170000 0 [⟨S160000, edgeRow1 ei⟩, ⟨S10000, iotaInDim S10000 32 0⟩] concatenates_S160000_S10000_S170000_d0

def asCol {α : Type} (v : S170000.Idx → α) : S170000x1.Idx → α :=
  broadcastInDim S170000x1 ![0] bcast_S170000_S170000x1_0 v

def wrapNeg (n : BitVec 32) (v : IVec S170000 32) : IVec S170000 32 :=
  select (cmpi .slt v (broadcastInDim S170000 ![] bcast_S_S170000 (constantI S_ 32 0#32)))
    (addi v (broadcastInDim S170000 ![] bcast_S_S170000 (constantI S_ 32 n))) v

def degOf (d : IVec S170000 32) : FVec F S10000 .f32 :=
  Host.scatterAdd scatter_S10000_S170000x1_S170000_n_0_0_1
    (broadcastInDim S10000 ![] bcast_S_S10000 (constant S_ .f32 0x00000000#32))
    (asCol d)
    (broadcastInDim S170000 ![] bcast_S_S170000 (constant S_ .f32 0x3F800000#32))

def degPosOf (d : IVec S170000 32) : IVec S10000 1 :=
  cmpf .ogt (degOf (F := F) d) (broadcastInDim S10000 ![] bcast_S_S10000 (constant S_ .f32 0x00000000#32))

def dinvOf (d : IVec S170000 32) : FVec F S10000 .f32 :=
  select (degPosOf (F := F) d) (Host.rsqrt (degOf (F := F) d))
    (broadcastInDim S10000 ![] bcast_S_S10000 (constant S_ .f32 0x00000000#32))

def edgeNormOf (s d : IVec S170000 32) (dv : FVec F S10000 .f32) : FVec F S170000 .f32 :=
  mulf (Host.gather gather_S10000_S170000x1_S170000_n_0_n_n_0_1_1 dv (asCol (wrapNeg 10000#32 s)))
    (Host.gather gather_S10000_S170000x1_S170000_n_0_n_n_0_1_1 dv (asCol (wrapNeg 10000#32 d)))

def adjPairsOf (s d : IVec S170000 32) : IVec S170000x2 32 :=
  concatenate S170000x2 1 [⟨S170000x1, asCol (wrapNeg 10240#32 d)⟩, ⟨S170000x1, asCol (wrapNeg 10240#32 s)⟩]
    concatenates_S170000x1_S170000x1_S170000x2_d1

def adjDenseOf (s d : IVec S170000 32) (w : FVec F S170000 .f32) : FVec F S10240x10240 .bf16 :=
  truncf .bf16
    (Host.scatterAdd scatter_S10240x10240_S170000x2_S170000_n_01_01_1
      (broadcastInDim S10240x10240 ![] bcast_S_S10240x10240 (constant S_ .f32 0x00000000#32)) (adjPairsOf s d) w)
    bitsLt_bf16_f32

def edgeNorm (ei : IVec S2x160000 32) : FVec F S170000 .f32 :=
  edgeNormOf (srcIdx ei) (dstIdx ei) (dinvOf (F := F) (dstIdx ei))

def adjDense (ei : IVec S2x160000 32) : FVec F S10240x10240 .bf16 :=
  adjDenseOf (srcIdx ei) (dstIdx ei) (edgeNorm (F := F) ei)

def xPad (x : FVec F S10000x2208 .f32) : FVec F S10240x2208 .bf16 :=
  truncf .bf16
    (Host.scatter scatter_S10240x2208_S1_S10000x2208_01_n_0_0 (fun _ b => b)
      (broadcastInDim S10240x2208 ![] bcast_S_S10240x2208 (constant S_ .f32 0x00000000#32))
      (broadcastInDim S1 ![] bcast_S_S1 (constantI S_ 32 0#32)) x)
    bitsLt_bf16_f32

def aggTailOf (t4 : FVec F S10240x2 .f32) (s d : IVec S170000 32) (w : FVec F S170000 .f32) (b4 : FVec F S2 .f32) :
    FVec F S10000x2 .f32 :=
  addf
    (Host.scatterAdd scatter_S10000x2_S170000x1_S170000x2_1_0_0_1
      (broadcastInDim S10000x2 ![] bcast_S_S10000x2 (constant S_ .f32 0x00000000#32))
      (asCol d)
      (mulf
        (Host.gather gather_S10000x2_S170000x1_S170000x2_1_0_n_n_0_1_12
          (extractStridedSlice S10000x2 ![0, 0] t4 slices_S10240x2_S10000x2_0_0) (asCol (wrapNeg 10000#32 s)))
        (broadcastInDim S170000x2 ![0, 1] bcast_S170000x1_S170000x2_0_1 (asCol w))))
    (broadcastInDim S10000x2 ![0, 1] bcast_S1x2_S10000x2_0_1 (broadcastInDim S1x2 ![1] bcast_S2_S1x2_1 b4))

def spreadRows (v : FVec F S10000 .f32) : FVec F S10000x2 .f32 :=
  broadcastInDim S10000x2 ![0, 1] bcast_S10000x1_S10000x2_0_1 (broadcastInDim S10000x1 ![0] bcast_S10000_S10000x1_0 v)

def rowMax (z : FVec F S10000x2 .f32) : FVec F S10000 .f32 :=
  maximumf (broadcastInDim S10000 ![] bcast_S_S10000 (constant S_ .f32 0xFF800000#32))
    (Host.reduce FloatOps.maximumf z (constant S_ .f32 0xFF800000#32) reducesTo_S10000x2_S10000_d1 h_S_)

def shifted (z : FVec F S10000x2 .f32) : FVec F S10000x2 .f32 := subf z (spreadRows (rowMax z))

def logSumExp (z : FVec F S10000x2 .f32) : FVec F S10000x1 .f32 :=
  Host.log (broadcastInDim S10000x1 ![0] bcast_S10000_S10000x1_0
    (Host.reduceAdd (Host.exp (shifted z)) (constant S_ .f32 0x00000000#32) reducesTo_S10000x2_S10000_d1 h_S_))

def logSoftmax (z : FVec F S10000x2 .f32) : FVec F S10000x2 .f32 :=
  subf (shifted z) (broadcastInDim S10000x2 ![0, 1] bcast_S10000x1_S10000x2_0_1 (logSumExp z))

def tailK (t4 : FVec F S10240x2 .f32) (ei : IVec S2x160000 32) (b4 : FVec F S2 .f32) : FVec F S10000x2 .f32 :=
  logSoftmax (aggTailOf t4 (srcIdx ei) (dstIdx ei) (edgeNorm (F := F) ei) b4)

def biasRow (b : FVec F S512 .f32) : FVec F S1x512 .f32 := shapeCast S1x512 b shapeCasts_S512_S1x512

section Stretches

variable (W : Valuation τ sig (Elt F))

theorem ops0_v5 : (StableHlo.after hostOps0 W main_v5 : S170000.Idx → BitVec 32) = srcIdx (W main_arg1) := by
  after_results_simp
  rfl

theorem ops0_v6 : (StableHlo.after hostOps0 W main_v6 : S170000.Idx → BitVec 32) = dstIdx (W main_arg1) := by
  after_results_simp
  rfl

theorem ops0_v12 : (StableHlo.after hostOps0 W main_v12 : S10000.Idx → BitVec 1) = degPosOf (F := F) (dstIdx (W main_arg1)) := by
  after_results_simp
  rfl

theorem ops0_v13 : (StableHlo.after hostOps0 W main_v13 : S10000.Idx → F .f32) = Host.rsqrt (degOf (F := F) (dstIdx (W main_arg1))) := by
  after_results_simp
  rfl

theorem ops0_cst2 : (StableHlo.after hostOps0 W main_cst_2 : S_.Idx → F .f32) = constant S_ .f32 0x00000000#32 := by
  after_results_simp

theorem ops01_v14 : (StableHlo.after hostOps0_1 W main_v14 : S10000.Idx → F .f32)
    = select (W main_v12) (W main_v13)
        (broadcastInDim S10000 ![] bcast_S_S10000 (W main_cst_2)) := by
  after_results_simp
  rfl

theorem ops02_v29 : (StableHlo.after hostOps0_2 W main_v29 : S170000.Idx → F .f32)
    = edgeNormOf (W main_v5) (W main_v6) (W main_v14) := by
  after_results_simp
  rfl

theorem ops02_v45 : (StableHlo.after hostOps0_2 W main_v45 : S10240x10240.Idx → F .bf16)
    = adjDenseOf (W main_v5) (W main_v6) (edgeNormOf (W main_v5) (W main_v6) (W main_v14)) := by
  after_results_simp
  rfl

theorem ops02_v49 : (StableHlo.after hostOps0_2 W main_v49 : S10240x2208.Idx → F .bf16) = xPad (W main_arg0) := by
  after_results_simp
  rfl

theorem ops02_v50 : (StableHlo.after hostOps0_2 W main_v50 : S2208x512.Idx → F .bf16)
    = truncf .bf16 (W main_arg3) bitsLt_bf16_f32 := by
  after_results_simp

theorem ops02_v51 : (StableHlo.after hostOps0_2 W main_v51 : S512x512.Idx → F .bf16)
    = truncf .bf16 (W main_arg5) bitsLt_bf16_f32 := by
  after_results_simp

theorem ops02_v52 : (StableHlo.after hostOps0_2 W main_v52 : S512x512.Idx → F .bf16)
    = truncf .bf16 (W main_arg7) bitsLt_bf16_f32 := by
  after_results_simp

theorem ops02_v53 : (StableHlo.after hostOps0_2 W main_v53 : S512x2.Idx → F .bf16)
    = truncf .bf16 (W main_arg9) bitsLt_bf16_f32 := by
  after_results_simp

theorem ops1_v55 : (StableHlo.after hostOps1 W main_v55 : S1x512.Idx → F .f32) = biasRow (W main_arg4 : FVec F S512 .f32) := by
  after_results_simp
  rfl

theorem ops3_v58 : (StableHlo.after hostOps3 W main_v58 : S1x512.Idx → F .f32) = biasRow (W main_arg6 : FVec F S512 .f32) := by
  after_results_simp
  rfl

theorem ops5_v61 : (StableHlo.after hostOps5 W main_v61 : S1x512.Idx → F .f32) = biasRow (W main_arg8 : FVec F S512 .f32) := by
  after_results_simp
  rfl

theorem ops7_v80 : (StableHlo.after hostOps7 W main_v80 : S10000x2.Idx → F .f32)
    = aggTailOf (W main_v63) (W main_v5) (W main_v6) (W main_v29)
        (W main_arg10) := by
  after_results_simp
  rfl

set_option maxRecDepth 65536 in
theorem ops71_v81 : (StableHlo.after hostOps7_1 W main_v81 : S10000x2.Idx → F .f32)
    = logSoftmax (W main_v80) := by
  after_results_simp
  rfl

end Stretches

section Valuations

variable (m : (ℓ : Loc nD τ sig) → Buf (Elt F) ℓ) (outs : Outs (F := F)) (c : Dev nD)

theorem V2_launch (r : Ref sig .tc) (h0 : r ∉ hostOps0_W) (h1 : r ∉ hostOps0_1_W) : V2 m c r = V0 m c r :=
  (V2_of m c r h1).trans (V1_of m c r h0)

theorem V3_launch (r : Ref sig .tc) (h0 : r ∉ hostOps0_W) (h1 : r ∉ hostOps0_1_W) (h2 : r ∉ hostOps0_2_W) :
    V3 m c r = V0 m c r :=
  (V3_of m c r h2).trans (V2_launch m c r h0 h1)

theorem V1_v12 : (V1 m c main_v12 : S10000.Idx → BitVec 1) = degPosOf (F := F) (dstIdx (m ((c : Thread nD τ).loc main_arg1))) :=
  ops0_v12 (V0 m c)

theorem V1_v13 : (V1 m c main_v13 : S10000.Idx → F .f32)
    = Host.rsqrt (degOf (F := F) (dstIdx (m ((c : Thread nD τ).loc main_arg1)))) :=
  ops0_v13 (V0 m c)

theorem V1_cst2 : (V1 m c main_cst_2 : S_.Idx → F .f32) = constant S_ .f32 0x00000000#32 :=
  ops0_cst2 (V0 m c)

theorem V2_v5 : (V2 m c main_v5 : S170000.Idx → BitVec 32) = srcIdx (m ((c : Thread nD τ).loc main_arg1)) :=
  (V2_of m c main_v5 (by decide)).trans (ops0_v5 (V0 m c))

theorem V2_v6 : (V2 m c main_v6 : S170000.Idx → BitVec 32) = dstIdx (m ((c : Thread nD τ).loc main_arg1)) :=
  (V2_of m c main_v6 (by decide)).trans (ops0_v6 (V0 m c))

theorem V2_v14 : (V2 m c main_v14 : S10000.Idx → F .f32) = dinvOf (F := F) (dstIdx (m ((c : Thread nD τ).loc main_arg1))) := by
  have h := ops01_v14 (V1 m c)
  rw [V1_v12, V1_v13, V1_cst2] at h
  exact h

theorem V3_v5 : (V3 m c main_v5 : S170000.Idx → BitVec 32) = srcIdx (m ((c : Thread nD τ).loc main_arg1)) :=
  (V3_of m c main_v5 (by decide)).trans (V2_v5 m c)

theorem V3_v6 : (V3 m c main_v6 : S170000.Idx → BitVec 32) = dstIdx (m ((c : Thread nD τ).loc main_arg1)) :=
  (V3_of m c main_v6 (by decide)).trans (V2_v6 m c)

theorem V3_v29 : (V3 m c main_v29 : S170000.Idx → F .f32) = edgeNorm (F := F) (m ((c : Thread nD τ).loc main_arg1)) := by
  have h := ops02_v29 (V2 m c)
  rw [V2_v5, V2_v6, V2_v14] at h
  exact h

theorem V3_v45 : (V3 m c main_v45 : S10240x10240.Idx → F .bf16) = adjDense (F := F) (m ((c : Thread nD τ).loc main_arg1)) := by
  have h := ops02_v45 (V2 m c)
  rw [V2_v5, V2_v6, V2_v14] at h
  exact h

theorem V3_v49 : (V3 m c main_v49 : S10240x2208.Idx → F .bf16) = xPad (m ((c : Thread nD τ).loc main_arg0)) := by
  have h := ops02_v49 (V2 m c)
  rw [V2_launch m c main_arg0 (by decide) (by decide)] at h
  exact h

theorem V3_v50 : (V3 m c main_v50 : S2208x512.Idx → F .bf16)
    = truncf .bf16 (m ((c : Thread nD τ).loc main_arg3) : FVec F S2208x512 .f32) bitsLt_bf16_f32 := by
  have h := ops02_v50 (V2 m c)
  rw [V2_launch m c main_arg3 (by decide) (by decide)] at h
  exact h

theorem V3_v51 : (V3 m c main_v51 : S512x512.Idx → F .bf16)
    = truncf .bf16 (m ((c : Thread nD τ).loc main_arg5) : FVec F S512x512 .f32) bitsLt_bf16_f32 := by
  have h := ops02_v51 (V2 m c)
  rw [V2_launch m c main_arg5 (by decide) (by decide)] at h
  exact h

theorem V3_v52 : (V3 m c main_v52 : S512x512.Idx → F .bf16)
    = truncf .bf16 (m ((c : Thread nD τ).loc main_arg7) : FVec F S512x512 .f32) bitsLt_bf16_f32 := by
  have h := ops02_v52 (V2 m c)
  rw [V2_launch m c main_arg7 (by decide) (by decide)] at h
  exact h

theorem V3_v53 : (V3 m c main_v53 : S512x2.Idx → F .bf16)
    = truncf .bf16 (m ((c : Thread nD τ).loc main_arg9) : FVec F S512x2 .f32) bitsLt_bf16_f32 := by
  have h := ops02_v53 (V2 m c)
  rw [V2_launch m c main_arg9 (by decide) (by decide)] at h
  exact h

theorem V13_v63 : V13 m outs c main_v63 = outs 13 main_v63 c := Function.update_self _ _ _

-- No item from the first region to the last writes the endpoint lists, the edge weights or the last bias.
theorem V13_keep : V13 m outs c main_v5 = V3 m c main_v5 ∧ V13 m outs c main_v6 = V3 m c main_v6
    ∧ V13 m outs c main_v29 = V3 m c main_v29 ∧ V13 m outs c main_arg10 = V3 m c main_arg10 := by
  refine ⟨?_, ?_, ?_, ?_⟩ <;>
  exact (V13_of m outs c _ (by decide)).trans <| (V12_of m outs c _ (by decide)).trans <|
    (V11_of m outs c _ (by decide)).trans <| (V10_of m outs c _ (by decide)).trans <|
    (V9_of m outs c _ (by decide)).trans <| (V8_of m outs c _ (by decide)).trans <|
    (V7_of m outs c _ (by decide)).trans <| (V6_of m outs c _ (by decide)).trans <|
    (V5_of m outs c _ (by decide)).trans (V4_of m outs c _ (by decide))

theorem V14_v80 : (V14 m outs c main_v80 : S10000x2.Idx → F .f32)
    = aggTailOf (outs 13 main_v63 c : FVec F S10240x2 .f32) (srcIdx (m ((c : Thread nD τ).loc main_arg1)))
        (dstIdx (m ((c : Thread nD τ).loc main_arg1))) (edgeNorm (F := F) (m ((c : Thread nD τ).loc main_arg1)))
        (m ((c : Thread nD τ).loc main_arg10)) := by
  have h := ops7_v80 (V13 m outs c)
  have k := V13_keep m outs c
  rw [V13_v63, k.1, k.2.1, k.2.2.1, k.2.2.2, V3_v5, V3_v6, V3_v29,
    V3_launch m c main_arg10 (by decide) (by decide) (by decide)] at h
  exact h

theorem V15_v81 : (V15 m outs c main_v81 : S10000x2.Idx → F .f32)
    = tailK (outs 13 main_v63 c : FVec F S10240x2 .f32) (m ((c : Thread nD τ).loc main_arg1))
        (m ((c : Thread nD τ).loc main_arg10)) := by
  have h := ops71_v81 (V14 m outs c)
  rw [V14_v80] at h
  exact h

end Valuations

end Cert.KernelIdeal.Hand
-- ==== Proof.Val.HostRead.lean ====
import proofs.«401117_j39195871543847_2_alg».proof.Proof.Val.HostK
import proofs.«401117_j39195871543847_2_alg».proof.Proof.LibTakeRows
import proofs.«401117_j39195871543847_2_alg».proof.Proof.LibScatterSums
import Idealize.ShloMosaic.Lib.ValueIdx
import Idealize.ShloMosaic.Lib.Pipeline.Value
import Idealize.ShloMosaic.Lib.ValueLayout
import Idealize.ShloMosaic.PureOps.Ideal.Laws
set_option maxRecDepth 4096

noncomputable section

namespace Cert.KernelIdeal.Hand
open Cert.KernelIdeal Cert.KernelIdeal.Gen
open Idealize.ShloMosaic Idealize.ShloMosaic.TcCoe Idealize.SL.Sem
open Idealize.ShloMosaic.ValueIdx Idealize.ShloMosaic.GraphOps

theorem toInt_ofNat32 (k : Nat) (hk : k < 2147483648) : (BitVec.ofNat 32 k).toInt = (k : Int) := by
  rw [BitVec.toInt_eq_toNat_cond, BitVec.toNat_ofNat]
  have h2 : (2 : Nat) ^ 32 = 4294967296 := by norm_num
  rw [h2, Nat.mod_eq_of_lt (by omega), if_pos (by omega)]

theorem edgeRow0_apply (ei : IVec S2x160000 32) (q : Fin 160000) : edgeRow0 ei (ix1 q) = ei (ix2 (0 : Fin 2) q) := by
  unfold edgeRow0
  rw [shapeCast_1a_a_apply]
  exact slice2_axis0_apply 0 ei _ (0 : Fin 1) q (0 : Fin 2) rfl

theorem edgeRow1_apply (ei : IVec S2x160000 32) (q : Fin 160000) : edgeRow1 ei (ix1 q) = ei (ix2 (1 : Fin 2) q) := by
  unfold edgeRow1
  rw [shapeCast_1a_a_apply]
  exact slice2_axis0_apply 1 ei _ (0 : Fin 1) q (1 : Fin 2) rfl

-- An endpoint list is a row of the edge table followed by the node numbers 0 … 9999.
theorem cat_apply_lt (a : IVec S160000 32) (e : Fin 170000) (h : e.val < 160000) :
    concatenate S170000 0 [⟨S160000, a⟩, ⟨S10000, iotaInDim S10000 32 0⟩] concatenates_S160000_S10000_S170000_d0 (ix1 e)
      = a (ix1 ⟨e.val, h⟩) := by
  refine concatenate_pair_apply_left (s₁ := S160000) (s₂ := S10000) _ _ _ _ (ix1 e) rfl (ix1 (⟨e.val, h⟩ : Fin 160000)) ?_
  intro b
  match b with
  | ⟨0, _⟩ => rfl

theorem cat_apply_ge (a : IVec S160000 32) (e : Fin 170000) (h : 160000 ≤ e.val) :
    concatenate S170000 0 [⟨S160000, a⟩, ⟨S10000, iotaInDim S10000 32 0⟩] concatenates_S160000_S10000_S170000_d0 (ix1 e)
      = BitVec.ofNat 32 (e.val - 160000) := by
  refine (concatenate_pair_apply_right (s₁ := S160000) (s₂ := S10000) _ _ _ _ (ix1 e) rfl rfl
    (ix1 (⟨e.val - 160000, by omega⟩ : Fin 10000)) ?_ ?_).trans rfl
  · intro b hb
    exact absurd (Subsingleton.elim _ _) hb
  · show (e.val - 160000) + 160000 = e.val
    omega

-- No entry of the list is negative when no entry of the row is: a node number is not.
theorem cat_nonneg (a : IVec S160000 32) (ha : ∀ q : Fin 160000, 0 ≤ (a (ix1 q)).toInt) (e : Fin 170000) :
    0 ≤ (concatenate S170000 0 [⟨S160000, a⟩, ⟨S10000, iotaInDim S10000 32 0⟩] concatenates_S160000_S10000_S170000_d0
      (ix1 e)).toInt := by
  by_cases h : e.val < 160000
  · rw [cat_apply_lt a e h]
    exact ha _
  · rw [cat_apply_ge a e (by omega), toInt_ofNat32 _ (by omega)]
    omega

theorem srcIdx_nonneg (ei : IVec S2x160000 32) (hr : ∀ k : S2x160000.Idx, 0 ≤ (ei k).toInt ∧ (ei k).toInt < 10000)
    (e : Fin 170000) : 0 ≤ (srcIdx ei (ix1 e)).toInt :=
  cat_nonneg (edgeRow0 ei) (fun q => by rw [edgeRow0_apply]; exact (hr _).1) e

theorem dstIdx_nonneg (ei : IVec S2x160000 32) (hr : ∀ k : S2x160000.Idx, 0 ≤ (ei k).toInt ∧ (ei k).toInt < 10000)
    (e : Fin 170000) : 0 ≤ (dstIdx ei (ix1 e)).toInt :=
  cat_nonneg (edgeRow1 ei) (fun q => by rw [edgeRow1_apply]; exact (hr _).1) e

theorem biasRow_apply (b : FVec Ideal S512 .f32) (q : Fin 512) :
    (biasRow (F := Ideal) b : S1x512.Idx → EReal) (ix2 (0 : Fin 1) q) = b (ix1 q) := by
  unfold biasRow
  exact shapeCast_a_1a_apply b _ (0 : Fin 1) q

theorem zeros_apply {t : Shape} (hb : S_.BroadcastsInDim t (![] : Fin 0 → Fin t.rank)) (i : t.Idx) :
    (broadcastInDim t ![] hb (constant (F := Ideal) S_ .f32 0x00000000#32) : t.Idx → EReal) i = 0 := by
  refine (broadcastInDim_apply _ hb _ i (fun a => a.elim0) (fun a => a.elim0)).trans ?_
  rw [constant_apply, Ideal.ofBits_zero_f32]

theorem wrapNeg_apply_of_nonneg (n : BitVec 32) (v : IVec S170000 32) (e : Fin 170000) (h : 0 ≤ (v (ix1 e)).toInt) :
    wrapNeg n v (ix1 e) = v (ix1 e) := by
  unfold wrapNeg
  rw [select_apply]
  have hz : (broadcastInDim S170000 ![] bcast_S_S170000 (constantI S_ 32 0#32) : S170000.Idx → BitVec 32) (ix1 e) = 0#32 :=
    (broadcastInDim_apply _ bcast_S_S170000 _ (ix1 e) (fun a => a.elim0) (fun a => a.elim0)).trans rfl
  have hc : cmpi .slt v (broadcastInDim S170000 ![] bcast_S_S170000 (constantI S_ 32 0#32)) (ix1 e) = 0#1 := by
    show IntOp.cmpi .slt (v (ix1 e)) _ = 0#1
    rw [hz]
    show BitVec.ofBool ((v (ix1 e)).slt 0#32) = 0#1
    rw [BitVec.slt_eq_decide, BitVec.toInt_zero, decide_eq_false (by omega)]
    rfl
  rw [hc, select_zero]

theorem asCol_apply {α : Type} (v : S170000.Idx → α) (e : Fin 170000) (c : Fin 1) : asCol v (ix2 e c) = v (ix1 e) := by
  unfold asCol
  refine (broadcastInDim_apply _ bcast_S170000_S170000x1_0 v (ix2 e c) (ix1 e) ?_).trans rfl
  intro a
  match a with
  | ⟨0, _⟩ => rfl

theorem adjPairsOf_apply_zero (s d : IVec S170000 32) (e : Fin 170000) :
    adjPairsOf s d (ix2 e (0 : Fin 2)) = wrapNeg 10240#32 d (ix1 e) := by
  unfold adjPairsOf
  refine (concatenate_pair_apply_left (s₁ := S170000x1) (s₂ := S170000x1) _ _ _ _ (ix2 e (0 : Fin 2)) rfl
    (ix2 e (0 : Fin 1)) ?_).trans (asCol_apply _ e 0)
  intro b
  match b with
  | ⟨0, _⟩ => rfl
  | ⟨1, _⟩ => rfl

theorem adjPairsOf_apply_one (s d : IVec S170000 32) (e : Fin 170000) :
    adjPairsOf s d (ix2 e (1 : Fin 2)) = wrapNeg 10240#32 s (ix1 e) := by
  unfold adjPairsOf
  refine (concatenate_pair_apply_right (s₁ := S170000x1) (s₂ := S170000x1) _ _ _ _ (ix2 e (1 : Fin 2)) rfl rfl
    (ix2 e (0 : Fin 1)) ?_ ?_).trans (asCol_apply _ e 0)
  · intro b hb
    match b with
    | ⟨0, _⟩ => rfl
    | ⟨1, _⟩ => exact absurd rfl hb
  · rfl

theorem adjDense_apply (ei : IVec S2x160000 32) (hr : ∀ k : S2x160000.Idx, 0 ≤ (ei k).toInt ∧ (ei k).toInt < 10000)
    (r j : Fin 10240) :
    (adjDense (F := Ideal) ei : S10240x10240.Idx → EReal) (ix2 r j)
      = 0 + ∑ e ∈ Finset.univ.filter (fun e : Fin 170000 =>
          (dstIdx ei (ix1 e)).toInt = (r.val : ℤ) ∧ (srcIdx ei (ix1 e)).toInt = (j.val : ℤ)),
          (edgeNorm (F := Ideal) ei : S170000.Idx → EReal) (ix1 e) := by
  unfold adjDense adjDenseOf
  rw [truncf_apply]
  show Ideal.hostScatterAdd scatter_S10240x10240_S170000x2_S170000_n_01_01_1 _ _ _ (ix2 r j) = _
  rw [pairs_scatterAdd_apply _ rfl rfl rfl rfl, zeros_apply]
  have h0 : ∀ e : Fin 170000, adjPairsOf (srcIdx ei) (dstIdx ei) (ix2 e (0 : Fin 2)) = dstIdx ei (ix1 e) := fun e => by
    rw [adjPairsOf_apply_zero, wrapNeg_apply_of_nonneg _ _ _ (dstIdx_nonneg ei hr e)]
  have h1 : ∀ e : Fin 170000, adjPairsOf (srcIdx ei) (dstIdx ei) (ix2 e (1 : Fin 2)) = srcIdx ei (ix1 e) := fun e => by
    rw [adjPairsOf_apply_one, wrapNeg_apply_of_nonneg _ _ _ (srcIdx_nonneg ei hr e)]
  simp only [h0, h1]

section WindowScatter

theorem foldl_keep {ι κ α : Type} (step : (κ → α) → ι → (κ → α)) (g : ι → Option κ) (i : κ)
    (H1 : ∀ r n, g n ≠ some i → step r n i = r i) :
    ∀ (l : List ι) (x : κ → α), (∀ n ∈ l, g n ≠ some i) → l.foldl step x i = x i := by
  intro l
  induction l with
  | nil => intro x _; rfl
  | cons n l ih =>
    intro x h
    rw [List.foldl_cons, ih _ (fun m hm => h m (List.mem_cons_of_mem _ hm)), H1 _ _ (h n List.mem_cons_self)]

theorem foldl_hit {ι κ α : Type} (step : (κ → α) → ι → (κ → α)) (g : ι → Option κ) (u : ι → α) (i : κ)
    (H1 : ∀ r n, g n ≠ some i → step r n i = r i) (H2 : ∀ r n, g n = some i → step r n i = u n)
    (l1 l2 : List ι) (n : ι) (x : κ → α) (hn : g n = some i) (h2 : ∀ m ∈ l2, g m ≠ some i) :
    (l1 ++ n :: l2).foldl step x i = u n := by
  rw [List.foldl_append, List.foldl_cons, foldl_keep step g i H1 l2 _ h2, H2 _ _ hn]

abbrev winDims (C N D : Nat) (wf : ScatterDims.WF ⟨2, ![C, D]⟩ ⟨1, ![1]⟩ ⟨2, ![N, D]⟩ [0, 1] [] [0] 0) :
    ScatterDims ⟨2, ![C, D]⟩ ⟨1, ![1]⟩ ⟨2, ![N, D]⟩ where
  updateWindowDims := [0, 1]
  insertedWindowDims := []
  scatterDimsToOperandDims := [0]
  indexVectorDim := 0
  wf := wf

theorem window_resultIdx {C N D w : Nat} (hNC : N ≤ C) (d : ScatterDims ⟨2, ![C, D]⟩ ⟨1, ![1]⟩ ⟨2, ![N, D]⟩)
    (huw : d.updateWindowDims = [0, 1]) (hiw : d.insertedWindowDims = []) (hsd : d.scatterDimsToOperandDims = [0])
    (hivd : d.indexVectorDim = 0) (idx : IVec ⟨1, ![1]⟩ w) (hidx : ∀ k, (idx k).toInt = 0) (a : Fin N) (b : Fin D) :
    d.resultIdx? (ix2 a b) idx = some (ix2 ⟨a.val, by omega⟩ b) := by
  obtain ⟨uw, iw, sd, ivd, wf⟩ := d
  dsimp only at huw hiw hsd hivd
  subst huw hiw hsd hivd
  have hs0 : (winDims C N D wf).start (ix2 a b) idx 0 = 0 := by
    unfold ScatterDims.start
    rw [dif_pos (show (0 : Fin 2) ∈ [(0 : Fin 2)] from List.mem_singleton.mpr rfl)]
    exact hidx _
  have hs1 : (winDims C N D wf).start (ix2 a b) idx 1 = 0 := by
    unfold ScatterDims.start
    rw [dif_neg (show (1 : Fin 2) ∉ [(0 : Fin 2)] by decide)]
  have hw0 : (winDims C N D wf).window (ix2 a b) 0 = a.val := rfl
  have hw1 : (winDims C N D wf).window (ix2 a b) 1 = b.val := rfl
  have ha := a.isLt
  have hb := b.isLt
  show (winDims C N D wf).resultIdx? (ix2 a b) idx = _
  unfold ScatterDims.resultIdx?
  rw [dif_pos (by
    intro c
    match c with
    | ⟨0, _⟩ =>
      show 0 ≤ (winDims C N D wf).start (ix2 a b) idx 0 + ((winDims C N D wf).window (ix2 a b) 0 : ℤ) ∧
        (winDims C N D wf).start (ix2 a b) idx 0 + ((winDims C N D wf).window (ix2 a b) 0 : ℤ) < (C : ℤ)
      rw [hs0, hw0]; omega
    | ⟨1, _⟩ =>
      show 0 ≤ (winDims C N D wf).start (ix2 a b) idx 1 + ((winDims C N D wf).window (ix2 a b) 1 : ℤ) ∧
        (winDims C N D wf).start (ix2 a b) idx 1 + ((winDims C N D wf).window (ix2 a b) 1 : ℤ) < (D : ℤ)
      rw [hs1, hw1]; omega)]
  congr 1
  funext c
  apply Fin.ext
  match c with
  | ⟨0, _⟩ =>
    show ((winDims C N D wf).start (ix2 a b) idx 0 + ((winDims C N D wf).window (ix2 a b) 0 : ℤ)).toNat = a.val
    rw [hs0, hw0]; omega
  | ⟨1, _⟩ =>
    show ((winDims C N D wf).start (ix2 a b) idx 1 + ((winDims C N D wf).window (ix2 a b) 1 : ℤ)).toNat = b.val
    rw [hs1, hw1]; omega

end WindowScatter

theorem window_scatter_apply {α : Type} {C N D w : Nat} (hNC : N ≤ C)
    (d : ScatterDims ⟨2, ![C, D]⟩ ⟨1, ![1]⟩ ⟨2, ![N, D]⟩)
    (huw : d.updateWindowDims = [0, 1]) (hiw : d.insertedWindowDims = []) (hsd : d.scatterDimsToOperandDims = [0])
    (hivd : d.indexVectorDim = 0) (x : (⟨2, ![C, D]⟩ : Shape).Idx → α) (idx : IVec ⟨1, ![1]⟩ w)
    (hidx : ∀ k, (idx k).toInt = 0) (upd : (⟨2, ![N, D]⟩ : Shape).Idx → α) (c : Fin C) (f : Fin D) :
    Host.scatter d (fun _ b => b) x idx upd (ix2 c f)
      = if h : c.val < N then upd (ix2 ⟨c.val, h⟩ f) else x (ix2 c f) := by
  have hq : ∀ q : (⟨2, ![N, D]⟩ : Shape).Idx,
      d.resultIdx? q idx = some (ix2 ⟨(q 0).val, by have := idx2_lt0 q; omega⟩ (q 1)) := fun q => by
    conv_lhs => rw [eq_ix2 q]
    exact window_resultIdx hNC d huw hiw hsd hivd idx hidx (q 0) (q 1)
  unfold Host.scatter
  by_cases h : c.val < N
  · rw [dif_pos h]
    obtain ⟨l1, l2, hl⟩ := List.append_of_mem
      (List.mem_finRange ((⟨2, ![N, D]⟩ : Shape).rowMajor (ix2 ⟨c.val, h⟩ f)))
    have hnd : (l1 ++ (⟨2, ![N, D]⟩ : Shape).rowMajor (ix2 ⟨c.val, h⟩ f) :: l2).Nodup := hl ▸ List.nodup_finRange _
    have hnot : (⟨2, ![N, D]⟩ : Shape).rowMajor (ix2 ⟨c.val, h⟩ f) ∉ l2 :=
      (List.nodup_cons.mp (List.Nodup.of_append_right hnd)).1
    rw [hl]
    refine (foldl_hit _ (fun n => d.resultIdx? ((⟨2, ![N, D]⟩ : Shape).rowMajor.symm n) idx)
      (fun n => upd ((⟨2, ![N, D]⟩ : Shape).rowMajor.symm n)) (ix2 c f) ?_ ?_ l1 l2 _ x ?_ ?_).trans ?_
    · intro r n hne
      beta_reduce
      cases hk : d.resultIdx? ((⟨2, ![N, D]⟩ : Shape).rowMajor.symm n) idx with
      | none => rfl
      | some k =>
        show (if ix2 c f = k then _ else r (ix2 c f)) = r (ix2 c f)
        exact if_neg (fun hik => hne (hk.trans (congrArg some hik.symm)))
    · intro r n hn
      beta_reduce
      cases hk : d.resultIdx? ((⟨2, ![N, D]⟩ : Shape).rowMajor.symm n) idx with
      | none => exact absurd (hk.symm.trans hn) (by simp)
      | some k =>
        show (if ix2 c f = k then upd ((⟨2, ![N, D]⟩ : Shape).rowMajor.symm n) else r (ix2 c f)) = _
        exact if_pos (Option.some.inj (hk.symm.trans hn)).symm
    · show d.resultIdx? ((⟨2, ![N, D]⟩ : Shape).rowMajor.symm ((⟨2, ![N, D]⟩ : Shape).rowMajor (ix2 ⟨c.val, h⟩ f))) idx
        = some (ix2 c f)
      rw [Equiv.symm_apply_apply]
      exact window_resultIdx hNC d huw hiw hsd hivd idx hidx ⟨c.val, h⟩ f
    · intro m hm hgm
      apply hnot
      have e' := Option.some.inj ((hq _).symm.trans hgm)
      have e0 : (((⟨2, ![N, D]⟩ : Shape).rowMajor.symm m) 0).val = c.val := congrArg (fun z => (z 0).val) e'
      have e1 : (((⟨2, ![N, D]⟩ : Shape).rowMajor.symm m) 1).val = f.val := congrArg (fun z => (z 1).val) e'
      have hp : (⟨2, ![N, D]⟩ : Shape).rowMajor.symm m = ix2 ⟨c.val, h⟩ f := Shape.idx_ext₂ e0 e1
      rw [← hp, Equiv.apply_symm_apply]
      exact hm
    · show upd ((⟨2, ![N, D]⟩ : Shape).rowMajor.symm ((⟨2, ![N, D]⟩ : Shape).rowMajor (ix2 ⟨c.val, h⟩ f))) = _
      rw [Equiv.symm_apply_apply]
  · rw [dif_neg h]
    refine foldl_keep _ (fun n => d.resultIdx? ((⟨2, ![N, D]⟩ : Shape).rowMajor.symm n) idx) (ix2 c f) ?_ _ x ?_
    · intro r n hne
      beta_reduce
      cases hk : d.resultIdx? ((⟨2, ![N, D]⟩ : Shape).rowMajor.symm n) idx with
      | none => rfl
      | some k =>
        show (if ix2 c f = k then _ else r (ix2 c f)) = r (ix2 c f)
        exact if_neg (fun hik => hne (hk.trans (congrArg some hik.symm)))
    · intro m _ hgm
      have e' := Option.some.inj ((hq _).symm.trans hgm)
      have e0 : (((⟨2, ![N, D]⟩ : Shape).rowMajor.symm m) 0).val = c.val := congrArg (fun z => (z 0).val) e'
      have := idx2_lt0 ((⟨2, ![N, D]⟩ : Shape).rowMajor.symm m)
      omega

theorem xPad_apply (x : FVec Ideal S10000x2208 .f32) (j : Fin 10240) (k : Fin 2208) :
    (xPad (F := Ideal) x : S10240x2208.Idx → EReal) (ix2 j k)
      = if h : j.val < 10000 then x (ix2 ⟨j.val, h⟩ k) else 0 := by
  unfold xPad
  rw [truncf_apply]
  refine (window_scatter_apply (by decide) scatter_S10240x2208_S1_S10000x2208_01_n_0_0 rfl rfl rfl rfl _ _ ?_ _ j k).trans ?_
  · intro q
    have hz : (broadcastInDim S1 ![] bcast_S_S1 (constantI S_ 32 0#32) : S1.Idx → BitVec 32) q = 0#32 :=
      (broadcastInDim_apply _ bcast_S_S1 _ q (fun a => a.elim0) (fun a => a.elim0)).trans rfl
    rw [hz, BitVec.toInt_zero]
  · by_cases h : j.val < 10000
    · rw [dif_pos h, dif_pos h]
    · rw [dif_neg h, dif_neg h]
      exact zeros_apply _ _

end Cert.KernelIdeal.Hand

end
-- ==== Proof.LibDenseVal.lean ====
import Idealize.ShloMosaic.Lib.Pipeline.Value
import Idealize.ShloMosaic.Lib.ValueIdx
import Idealize.ShloMosaic.PureOps.Ideal.Laws

noncomputable section

namespace Cert.Proof.LibDenseVal

open Idealize.ShloMosaic Idealize.ShloMosaic.ValueIdx

theorem zeros2 : (![0, 0] : Fin 2 → Nat) = fun _ => 0 :=
  funext fun a => match a with | ⟨0, _⟩ => rfl | ⟨1, _⟩ => rfl

-- The operand indices of a plain product at (p, q) and contraction position k are (p, k) and (k, q); re-index the sum by k.
theorem matmul_plain_apply {M K N : Nat} {φ₁ φ₂ : FTy} (prec : Option ContractPrecision)
    (x : FVec Ideal ⟨2, ![M, K]⟩ φ₁) (y : FVec Ideal ⟨2, ![K, N]⟩ φ₂) (acc : FVec Ideal ⟨2, ![M, N]⟩ .f32)
    (p : Fin M) (q : Fin N) :
    FloatOps.matmul (DotDims.plain M K N) prec x y acc (ix2 p q)
      = acc (ix2 p q) + ∑ k : Fin K, x (ix2 p k) * y (ix2 k q) := by
  rw [Ideal.matmul_apply, ← Equiv.sum_comp (contrEquiv1 (DotDims.plain M K N) K rfl rfl).symm]
  refine congrArg (acc (ix2 p q) + ·) (Finset.sum_congr rfl fun k _ => ?_)
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

theorem matmul_plain_zero_apply {M K N : Nat} {φ₁ φ₂ : FTy} (prec : Option ContractPrecision)
    (x : FVec Ideal ⟨2, ![M, K]⟩ φ₁) (y : FVec Ideal ⟨2, ![K, N]⟩ φ₂) (p : Fin M) (q : Fin N) :
    FloatOps.matmul (DotDims.plain M K N) prec x y (constant ⟨2, ![M, N]⟩ .f32 0x00000000#32) (ix2 p q)
      = ∑ k : Fin K, x (ix2 p k) * y (ix2 k q) := by
  rw [matmul_plain_apply]
  show Ideal.ofBits .f32 0x00000000#32 + _ = _
  rw [Ideal.ofBits_zero_f32, zero_add]

-- A one-row block repeated over the rows reads, at (p, q), the row's entry q.
theorem broadcastTo_row_apply {α : Type} {M N : Nat} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) :=
  broadcastTo_apply b h (ix2 p q) (ix2 (0 : Fin 1) q) fun a => by
    match a with
    | ⟨0, _⟩ => exact (if_pos rfl).symm
    | ⟨1, _⟩ =>
      show q.val = if N = 1 then 0 else q.val
      have := q.isLt
      split <;> omega

-- Induction along a run: the first point holds its own addend, each later point adds its addend to what the point before left.
theorem acc_run {N J : Nat} {β : Type} [AddCommMonoid β] (f m : (n : Nat) → n < N → β)
    (h0 : ∀ n h, n % J = 0 → f n h = m n h)
    (hs : ∀ n (h : n + 1 < N), ¬(n + 1) % J = 0 → f (n + 1) h = f n (Nat.lt_of_succ_lt h) + m (n + 1) h)
    (b : Nat) : ∀ (j : Nat) (_ : j < J) (h : J * b + j < N),
      f (J * b + j) h = ∑ s : Fin (j + 1), m (J * b + s.val)
        (Nat.lt_of_le_of_lt (Nat.add_le_add_left (Nat.le_of_lt_succ s.isLt) _) h)
  | 0, _, h => by
    show f (J * b + 0) h = ∑ s : Fin 1, m (J * b + s.val) _
    rw [Fin.sum_univ_one]
    exact h0 _ h (Nat.mul_mod_right _ _)
  | j + 1, hj, h => by
    rw [Fin.sum_univ_castSucc]
    refine (hs (J * b + j) h ?_).trans (congrArg (· + m (J * b + (j + 1)) h) (acc_run f m h0 hs b j (Nat.lt_of_succ_lt hj) (Nat.lt_of_succ_lt h)))
    rw [Nat.add_assoc, Nat.mul_add_mod, Nat.mod_eq_of_lt hj]
    exact Nat.succ_ne_zero j

theorem run_lt {N J t : Nat} (ht : t < N) (h9 : t % J + 1 = J) (s : Fin J) : J * (t / J) + s.val < N :=
  Nat.lt_of_le_of_lt (Nat.add_le_add_left (Nat.le_of_lt_succ (Nat.lt_of_lt_of_eq s.isLt h9.symm)) _)
    (Nat.lt_of_le_of_lt (Nat.le_of_eq (Nat.div_add_mod t J)) ht)

-- At the last point of its run the accumulator holds the sum of the whole run's addends.
theorem acc_run_last {N J : Nat} {β : Type} [AddCommMonoid β] (f m : (n : Nat) → n < N → β)
    (h0 : ∀ n h, n % J = 0 → f n h = m n h)
    (hs : ∀ n (h : n + 1 < N), ¬(n + 1) % J = 0 → f (n + 1) h = f n (Nat.lt_of_succ_lt h) + m (n + 1) h)
    (t : Nat) (ht : t < N) (h9 : t % J + 1 = J) :
    f t ht = ∑ s : Fin J, m (J * (t / J) + s.val) (run_lt ht h9 s) := by
  obtain ⟨J', rfl⟩ : ∃ J', J = J' + 1 := ⟨t % J, h9.symm⟩
  have e : (J' + 1) * (t / (J' + 1)) + J' = t :=
    (congrArg ((J' + 1) * (t / (J' + 1)) + ·) (Nat.succ.inj h9)).symm.trans (Nat.div_add_mod t (J' + 1))
  have same : ∀ (u : Nat) (hu : u < N), u = t → f u hu = f t ht := fun u hu e => by subst e; rfl
  rw [← same _ (Nat.lt_of_le_of_lt (Nat.le_of_eq e) ht) e]
  exact acc_run f m h0 hs (t / (J' + 1)) J' (Nat.lt_succ_self J') _

end Cert.Proof.LibDenseVal

end
-- ==== Proof.Val.Dense0.lean ====
import proofs.«401117_j39195871543847_2_alg».proof.Proof.KI.Dense0
import proofs.«401117_j39195871543847_2_alg».proof.Proof.LibDenseVal

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

abbrev prod0 (a : S10240x2208.Idx → EReal) (b : S2208x512.Idx → EReal) : S10240x512.Idx → EReal :=
  fun j => ∑ k : Fin 2208, a (ix2 ⟨(j 0).val, (j 0).isLt⟩ k) * b (ix2 k ⟨(j 1).val, (j 1).isLt⟩)

section Region0

variable (V : (c : Dev nD) → (b : Ref sig .tc) → Buf (Elt Ideal) ((c : Thread nD τ).loc b))

theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (F := Ideal) V c).flushed 2 t
      = ((cfg0.win 2).blk t).view.read (Elt Ideal) (prod0 (V c main_v49) (V c main_v50)) := by
  show (cfg0.win 2).cut (grid0.coords t) ((dat0 (F := Ideal) V c).after 2 t) = _
  rw [after0_2]
  unfold out0_2
  rw [View.canon_unit_zero zeros2]
  simp only [View.ld_unit_zero (S := S2560x2208) zeros2, View.ld_unit_zero (S := S2208x512) zeros2]
  obtain ⟨e00, e01, e10, e11, e20, e21⟩ := idx_facts0 t
  funext y
  obtain ⟨p, q, rfl⟩ : ∃ (p : Fin 2560) (q : Fin 512), y = ix2 p q := ⟨y 0, y 1, eq_ix2 y⟩
  show k0_pay1 (F := Ideal) (iblk0 V c 0 t) (iblk0 V c 1 t) (ix2 p q)
    = prod0 (V c main_v49) (V c main_v50) (((cfg0.win 2).blk t).view.emb (ix2 p q))
  unfold k0_pay1
  show FloatOps.matmul (F := Ideal) (φ₁ := .bf16) (φ₂ := .bf16) _ none _ _ _ (ix2 p q) = _
  rw [shapeCast_self, shapeCast_self]
  refine (matmul_plain_zero_apply (φ₁ := .bf16) (φ₂ := .bf16) none _ _ p q).trans
    (Finset.sum_congr rfl fun k _ => congrArg₂ (fun x y : EReal => x * y) ?_ ?_)
  · show (V c main_v49 : S10240x2208.Idx → EReal) (((cfg0.win 0).blk t).view.emb (ix2 p k)) = _
    exact congrArg _ (Shape.idx_ext₂ (by show win0_0.index t (0 : Fin 2) * 2560 + 1 * p.val = win0_2.index t (0 : Fin 2) * 2560 + 1 * p.val; omega)
      (by show win0_0.index t (1 : Fin 2) * 2208 + 1 * k.val = k.val; omega))
  · show (V c main_v50 : S2208x512.Idx → EReal) (((cfg0.win 1).blk t).view.emb (ix2 k q)) = _
    exact congrArg _ (Shape.idx_ext₂ (by show win0_1.index t (0 : Fin 2) * 2208 + 1 * k.val = k.val; omega)
      (by show win0_1.index t (1 : Fin 2) * 512 + 1 * q.val = win0_2.index t (1 : Fin 2) * 512 + 1 * q.val; omega))

theorem cover0 (i : S10240x512.Idx) :
    ∃ t : Fin cfg0.N, (cfg0.win 2).flush t = true ∧ i ∈ ((cfg0.win 2).blk t).view.set := by
  have hi0 : (i 0).val < 10240 := (i 0).isLt
  have hi1 : (i 1).val < 512 := (i 1).isLt
  obtain ⟨t, ht⟩ : ∃ t : Fin cfg0.N, t.val = (i 0).val / 2560 :=
    ⟨⟨_, show (i 0).val / 2560 < grid0.N by rw [N_0]; omega⟩, rfl⟩
  obtain ⟨-, -, -, -, e20, e21⟩ := idx_facts0 t
  refine ⟨t, flush0_2 t, ?_⟩
  show i ∈ ((View.whole main_v54).slice (win0_2.rect t)).set
  rw [View.set_slice_whole, Rect.mem_set_unit]
  intro a
  match a with
  | ⟨0, _⟩ =>
    show win0_2.index t (0 : Fin 2) * 2560 ≤ (i 0).val ∧ (i 0).val < win0_2.index t (0 : Fin 2) * 2560 + 2560
    omega
  | ⟨1, _⟩ =>
    show win0_2.index t (1 : Fin 2) * 512 ≤ (i 1).val ∧ (i 1).val < win0_2.index t (1 : Fin 2) * 512 + 512
    omega

theorem dense0_final (c : Dev nD) :
    ((dat0 (F := Ideal) V c).arrAt 2 cfg0.N : S10240x512.Idx → EReal) = prod0 (V c main_v49) (V c main_v50) :=
  (dat0 (F := Ideal) V c).arrAt_eq_of_cover 2 (prod0 (V c main_v49) (V c main_v50))
    (fun t _ => flushed0_eq V c t) cover0

end Region0

end Cert.KernelIdeal.Hand

end
-- ==== Proof.Val.Dense2.lean ====
import proofs.«401117_j39195871543847_2_alg».proof.Proof.KI.Dense2
import proofs.«401117_j39195871543847_2_alg».proof.Proof.LibDenseVal

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

abbrev prod2 (a : S10240x512.Idx → EReal) (b : S512x512.Idx → EReal) : S10240x512.Idx → EReal :=
  fun j => ∑ k : Fin 512, a (ix2 ⟨(j 0).val, (j 0).isLt⟩ k) * b (ix2 k ⟨(j 1).val, (j 1).isLt⟩)

section Region2

variable (V : (c : Dev nD) → (b : Ref sig .tc) → Buf (Elt Ideal) ((c : Thread nD τ).loc b))

theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (c : Dev nD) (t : Fin cfg2.N) :
    (dat2 (F := Ideal) V c).flushed 2 t
      = ((cfg2.win 2).blk t).view.read (Elt Ideal) (prod2 (V c main_v56) (V c main_v51)) := by
  show (cfg2.win 2).cut (grid2.coords t) ((dat2 (F := Ideal) V c).after 2 t) = _
  rw [after2_2]
  unfold out2_2
  rw [View.canon_unit_zero zeros2]
  simp only [View.ld_unit_zero (S := S5120x512) zeros2, View.ld_unit_zero (S := S512x512) zeros2]
  obtain ⟨e00, e01, e10, e11, e20, e21⟩ := idx_facts2 t
  funext y
  obtain ⟨p, q, rfl⟩ : ∃ (p : Fin 5120) (q : Fin 512), y = ix2 p q := ⟨y 0, y 1, eq_ix2 y⟩
  show k2_pay1 (F := Ideal) (iblk2 V c 0 t) (iblk2 V c 1 t) (ix2 p q)
    = prod2 (V c main_v56) (V c main_v51) (((cfg2.win 2).blk t).view.emb (ix2 p q))
  unfold k2_pay1
  show FloatOps.matmul (F := Ideal) (φ₁ := .bf16) (φ₂ := .bf16) _ none _ _ _ (ix2 p q) = _
  rw [shapeCast_self, shapeCast_self]
  refine (matmul_plain_zero_apply (φ₁ := .bf16) (φ₂ := .bf16) none _ _ p q).trans
    (Finset.sum_congr rfl fun k _ => congrArg₂ (fun x y : EReal => x * y) ?_ ?_)
  · show (V c main_v56 : S10240x512.Idx → EReal) (((cfg2.win 0).blk t).view.emb (ix2 p k)) = _
    exact congrArg _ (Shape.idx_ext₂ (by show win2_0.index t (0 : Fin 2) * 5120 + 1 * p.val = win2_2.index t (0 : Fin 2) * 5120 + 1 * p.val; omega)
      (by show win2_0.index t (1 : Fin 2) * 512 + 1 * k.val = k.val; omega))
  · show (V c main_v51 : S512x512.Idx → EReal) (((cfg2.win 1).blk t).view.emb (ix2 k q)) = _
    exact congrArg _ (Shape.idx_ext₂ (by show win2_1.index t (0 : Fin 2) * 512 + 1 * k.val = k.val; omega)
      (by show win2_1.index t (1 : Fin 2) * 512 + 1 * q.val = win2_2.index t (1 : Fin 2) * 512 + 1 * q.val; omega))

theorem cover2 (i : S10240x512.Idx) :
    ∃ t : Fin cfg2.N, (cfg2.win 2).flush t = true ∧ i ∈ ((cfg2.win 2).blk t).view.set := by
  have hi0 : (i 0).val < 10240 := (i 0).isLt
  have hi1 : (i 1).val < 512 := (i 1).isLt
  obtain ⟨t, ht⟩ : ∃ t : Fin cfg2.N, t.val = (i 0).val / 5120 :=
    ⟨⟨_, show (i 0).val / 5120 < grid2.N by rw [N_2]; omega⟩, rfl⟩
  obtain ⟨-, -, -, -, e20, e21⟩ := idx_facts2 t
  refine ⟨t, flush2_2 t, ?_⟩
  show i ∈ ((View.whole main_v57).slice (win2_2.rect t)).set
  rw [View.set_slice_whole, Rect.mem_set_unit]
  intro a
  match a with
  | ⟨0, _⟩ =>
    show win2_2.index t (0 : Fin 2) * 5120 ≤ (i 0).val ∧ (i 0).val < win2_2.index t (0 : Fin 2) * 5120 + 5120
    omega
  | ⟨1, _⟩ =>
    show win2_2.index t (1 : Fin 2) * 512 ≤ (i 1).val ∧ (i 1).val < win2_2.index t (1 : Fin 2) * 512 + 512
    omega

theorem dense2_final (c : Dev nD) :
    ((dat2 (F := Ideal) V c).arrAt 2 cfg2.N : S10240x512.Idx → EReal) = prod2 (V c main_v56) (V c main_v51) :=
  (dat2 (F := Ideal) V c).arrAt_eq_of_cover 2 (prod2 (V c main_v56) (V c main_v51))
    (fun t _ => flushed2_eq V c t) cover2

end Region2

end Cert.KernelIdeal.Hand

end
-- ==== Proof.Val.Dense4.lean ====
import proofs.«401117_j39195871543847_2_alg».proof.Proof.KI.Dense4
import proofs.«401117_j39195871543847_2_alg».proof.Proof.LibDenseVal

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

abbrev prod4 (a : S10240x512.Idx → EReal) (b : S512x512.Idx → EReal) : S10240x512.Idx → EReal :=
  fun j => ∑ k : Fin 512, a (ix2 ⟨(j 0).val, (j 0).isLt⟩ k) * b (ix2 k ⟨(j 1).val, (j 1).isLt⟩)

section Region4

variable (V : (c : Dev nD) → (b : Ref sig .tc) → Buf (Elt Ideal) ((c : Thread nD τ).loc b))

theorem idx_facts4 : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4_eq (c : Dev nD) (t : Fin cfg4.N) :
    (dat4 (F := Ideal) V c).flushed 2 t
      = ((cfg4.win 2).blk t).view.read (Elt Ideal) (prod4 (V c main_v59) (V c main_v52)) := by
  show (cfg4.win 2).cut (grid4.coords t) ((dat4 (F := Ideal) V c).after 2 t) = _
  rw [after4_2]
  unfold out4_2
  rw [View.canon_unit_zero zeros2]
  simp only [View.ld_unit_zero (S := S5120x512) zeros2, View.ld_unit_zero (S := S512x512) zeros2]
  obtain ⟨e00, e01, e10, e11, e20, e21⟩ := idx_facts4 t
  funext y
  obtain ⟨p, q, rfl⟩ : ∃ (p : Fin 5120) (q : Fin 512), y = ix2 p q := ⟨y 0, y 1, eq_ix2 y⟩
  show k4_pay1 (F := Ideal) (iblk4 V c 0 t) (iblk4 V c 1 t) (ix2 p q)
    = prod4 (V c main_v59) (V c main_v52) (((cfg4.win 2).blk t).view.emb (ix2 p q))
  unfold k4_pay1
  show FloatOps.matmul (F := Ideal) (φ₁ := .bf16) (φ₂ := .bf16) _ none _ _ _ (ix2 p q) = _
  rw [shapeCast_self, shapeCast_self]
  refine (matmul_plain_zero_apply (φ₁ := .bf16) (φ₂ := .bf16) none _ _ p q).trans
    (Finset.sum_congr rfl fun k _ => congrArg₂ (fun x y : EReal => x * y) ?_ ?_)
  · show (V c main_v59 : S10240x512.Idx → EReal) (((cfg4.win 0).blk t).view.emb (ix2 p k)) = _
    exact congrArg _ (Shape.idx_ext₂ (by show win4_0.index t (0 : Fin 2) * 5120 + 1 * p.val = win4_2.index t (0 : Fin 2) * 5120 + 1 * p.val; omega)
      (by show win4_0.index t (1 : Fin 2) * 512 + 1 * k.val = k.val; omega))
  · show (V c main_v52 : S512x512.Idx → EReal) (((cfg4.win 1).blk t).view.emb (ix2 k q)) = _
    exact congrArg _ (Shape.idx_ext₂ (by show win4_1.index t (0 : Fin 2) * 512 + 1 * k.val = k.val; omega)
      (by show win4_1.index t (1 : Fin 2) * 512 + 1 * q.val = win4_2.index t (1 : Fin 2) * 512 + 1 * q.val; omega))

theorem cover4 (i : S10240x512.Idx) :
    ∃ t : Fin cfg4.N, (cfg4.win 2).flush t = true ∧ i ∈ ((cfg4.win 2).blk t).view.set := by
  have hi0 : (i 0).val < 10240 := (i 0).isLt
  have hi1 : (i 1).val < 512 := (i 1).isLt
  obtain ⟨t, ht⟩ : ∃ t : Fin cfg4.N, t.val = (i 0).val / 5120 :=
    ⟨⟨_, show (i 0).val / 5120 < grid4.N by rw [N_4]; omega⟩, rfl⟩
  obtain ⟨-, -, -, -, e20, e21⟩ := idx_facts4 t
  refine ⟨t, flush4_2 t, ?_⟩
  show i ∈ ((View.whole main_v60).slice (win4_2.rect t)).set
  rw [View.set_slice_whole, Rect.mem_set_unit]
  intro a
  match a with
  | ⟨0, _⟩ =>
    show win4_2.index t (0 : Fin 2) * 5120 ≤ (i 0).val ∧ (i 0).val < win4_2.index t (0 : Fin 2) * 5120 + 5120
    omega
  | ⟨1, _⟩ =>
    show win4_2.index t (1 : Fin 2) * 512 ≤ (i 1).val ∧ (i 1).val < win4_2.index t (1 : Fin 2) * 512 + 512
    omega

theorem dense4_final (c : Dev nD) :
    ((dat4 (F := Ideal) V c).arrAt 2 cfg4.N : S10240x512.Idx → EReal) = prod4 (V c main_v59) (V c main_v52) :=
  (dat4 (F := Ideal) V c).arrAt_eq_of_cover 2 (prod4 (V c main_v59) (V c main_v52))
    (fun t _ => flushed4_eq V c t) cover4

end Region4

end Cert.KernelIdeal.Hand

end
-- ==== Proof.Val.Dense6.lean ====
import proofs.«401117_j39195871543847_2_alg».proof.Proof.KI.Dense6
import proofs.«401117_j39195871543847_2_alg».proof.Proof.LibDenseVal

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

abbrev prod6 (a : S10240x512.Idx → EReal) (b : S512x2.Idx → EReal) : S10240x2.Idx → EReal :=
  fun j => ∑ k : Fin 512, a (ix2 ⟨(j 0).val, (j 0).isLt⟩ k) * b (ix2 k ⟨(j 1).val, (j 1).isLt⟩)

section Region6

variable (V : (c : Dev nD) → (b : Ref sig .tc) → Buf (Elt Ideal) ((c : Thread nD τ).loc b))

theorem idx_facts6 : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem flushed6_eq (c : Dev nD) (t : Fin cfg6.N) :
    (dat6 (F := Ideal) V c).flushed 2 t
      = ((cfg6.win 2).blk t).view.read (Elt Ideal) (prod6 (V c main_v62) (V c main_v53)) := by
  show (cfg6.win 2).cut (grid6.coords t) ((dat6 (F := Ideal) V c).after 2 t) = _
  rw [after6_2]
  unfold out6_2
  rw [View.canon_unit_zero zeros2]
  simp only [View.ld_unit_zero (S := S5120x512) zeros2, View.ld_unit_zero (S := S512x2) zeros2]
  obtain ⟨e00, e01, e10, e11, e20, e21⟩ := idx_facts6 t
  funext y
  obtain ⟨p, q, rfl⟩ : ∃ (p : Fin 5120) (q : Fin 2), y = ix2 p q := ⟨y 0, y 1, eq_ix2 y⟩
  show k6_pay1 (F := Ideal) (iblk6 V c 0 t) (iblk6 V c 1 t) (ix2 p q)
    = prod6 (V c main_v62) (V c main_v53) (((cfg6.win 2).blk t).view.emb (ix2 p q))
  unfold k6_pay1
  show FloatOps.matmul (F := Ideal) (φ₁ := .bf16) (φ₂ := .bf16) _ none _ _ _ (ix2 p q) = _
  rw [shapeCast_self, shapeCast_self]
  refine (matmul_plain_zero_apply (φ₁ := .bf16) (φ₂ := .bf16) none _ _ p q).trans
    (Finset.sum_congr rfl fun k _ => congrArg₂ (fun x y : EReal => x * y) ?_ ?_)
  · show (V c main_v62 : S10240x512.Idx → EReal) (((cfg6.win 0).blk t).view.emb (ix2 p k)) = _
    exact congrArg _ (Shape.idx_ext₂ (by show win6_0.index t (0 : Fin 2) * 5120 + 1 * p.val = win6_2.index t (0 : Fin 2) * 5120 + 1 * p.val; omega)
      (by show win6_0.index t (1 : Fin 2) * 512 + 1 * k.val = k.val; omega))
  · show (V c main_v53 : S512x2.Idx → EReal) (((cfg6.win 1).blk t).view.emb (ix2 k q)) = _
    exact congrArg _ (Shape.idx_ext₂ (by show win6_1.index t (0 : Fin 2) * 512 + 1 * k.val = k.val; omega)
      (by show win6_1.index t (1 : Fin 2) * 2 + 1 * q.val = win6_2.index t (1 : Fin 2) * 2 + 1 * q.val; omega))

theorem cover6 (i : S10240x2.Idx) :
    ∃ t : Fin cfg6.N, (cfg6.win 2).flush t = true ∧ i ∈ ((cfg6.win 2).blk t).view.set := by
  have hi0 : (i 0).val < 10240 := (i 0).isLt
  have hi1 : (i 1).val < 2 := (i 1).isLt
  obtain ⟨t, ht⟩ : ∃ t : Fin cfg6.N, t.val = (i 0).val / 5120 :=
    ⟨⟨_, show (i 0).val / 5120 < grid6.N by rw [N_6]; omega⟩, rfl⟩
  obtain ⟨-, -, -, -, e20, e21⟩ := idx_facts6 t
  refine ⟨t, flush6_2 t, ?_⟩
  show i ∈ ((View.whole main_v63).slice (win6_2.rect t)).set
  rw [View.set_slice_whole, Rect.mem_set_unit]
  intro a
  match a with
  | ⟨0, _⟩ =>
    show win6_2.index t (0 : Fin 2) * 5120 ≤ (i 0).val ∧ (i 0).val < win6_2.index t (0 : Fin 2) * 5120 + 5120
    omega
  | ⟨1, _⟩ =>
    show win6_2.index t (1 : Fin 2) * 2 ≤ (i 1).val ∧ (i 1).val < win6_2.index t (1 : Fin 2) * 2 + 2
    omega

theorem dense6_final (c : Dev nD) :
    ((dat6 (F := Ideal) V c).arrAt 2 cfg6.N : S10240x2.Idx → EReal) = prod6 (V c main_v62) (V c main_v53) :=
  (dat6 (F := Ideal) V c).arrAt_eq_of_cover 2 (prod6 (V c main_v62) (V c main_v53))
    (fun t _ => flushed6_eq V c t) cover6

end Region6

end Cert.KernelIdeal.Hand

end
-- ==== Proof.Val.Agg1.lean ====
import proofs.«401117_j39195871543847_2_alg».proof.Proof.KI.Agg1
import proofs.«401117_j39195871543847_2_alg».proof.Proof.LibDenseVal
import proofs.«401117_j39195871543847_2_alg».proof.Proof.LibAggSum
import Idealize.ShloMosaic.Lib.ValueLayout

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

theorem k1_pay1_apply (p : Fin 5120) (q : Fin 512) : k1_pay1 (F := Ideal) (ix2 p q) = 0 := by
  unfold k1_pay1
  rw [shapeCast_self]
  exact Ideal.ofBits_zero_f32

theorem k1_pay2_apply (x0 : Vec Ideal S5120x1024 .bf16) (x1 : Vec Ideal S1024x512 .bf16) (acc : Vec Ideal S5120x512 .f32)
    (p : Fin 5120) (q : Fin 512) :
    k1_pay2 (F := Ideal) x0 x1 acc (ix2 p q) = acc (ix2 p q) + ∑ k : Fin 1024, x0 (ix2 p k) * x1 (ix2 k q) := by
  unfold k1_pay2
  rw [shapeCast_self, shapeCast_self, shapeCast_self]
  show acc (ix2 p q) + FloatOps.matmul (F := Ideal) (φ₁ := .bf16) (φ₂ := .bf16) _ none x0 x1 _ (ix2 p q) = _
  exact congrArg (acc (ix2 p q) + ·) (matmul_plain_zero_apply (φ₁ := .bf16) (φ₂ := .bf16) none x0 x1 p q)

theorem k1_pay3_apply (acc : Vec Ideal S5120x512 .f32) (bias : Vec Ideal S1x512 .f32) (p : Fin 5120) (q : Fin 512) :
    k1_pay3 (F := Ideal) acc bias (ix2 p q) = max (acc (ix2 p q) + bias (ix2 (0 : Fin 1) q)) 0 := by
  unfold k1_pay3
  rw [shapeCast_self]
  show max (acc (ix2 p q) + broadcastTo S5120x512 bias broadcasts_S1x512_S5120x512 (ix2 p q)) (Ideal.ofBits .f32 0x00000000#32) = _
  rw [Ideal.ofBits_zero_f32]
  exact congrArg (fun z => max (acc (ix2 p q) + z) 0) (broadcastTo_row_apply bias broadcasts_S1x512_S5120x512 p q)

abbrev agg1 (a : S10240x10240.Idx → EReal) (tb : S10240x512.Idx → EReal) (b : S1x512.Idx → EReal) : S10240x512.Idx → EReal :=
  fun j => max ((∑ k : Fin 10240, a (ix2 ⟨(j 0).val, (j 0).isLt⟩ k) * tb (ix2 k ⟨(j 1).val, (j 1).isLt⟩))
    + b (ix2 (0 : Fin 1) ⟨(j 1).val, (j 1).isLt⟩)) 0

section Region1

variable (V : (c : Dev nD) → (b : Ref sig .tc) → Buf (Elt Ideal) ((c : Thread nD τ).loc b))

abbrev arrA1 (c : Dev nD) : S10240x10240.Idx → EReal := V c main_v45
abbrev arrT1 (c : Dev nD) : S10240x512.Idx → EReal := V c main_v54
abbrev arrB1 (c : Dev nD) : S1x512.Idx → EReal := V c main_v55

abbrev ablk1 (c : Dev nD) (t : Fin cfg1.N) : Vec Ideal S5120x1024 .bf16 := iblk1 V c 0 t
abbrev tblk1 (c : Dev nD) (t : Fin cfg1.N) : Vec Ideal S1024x512 .bf16 := iblk1 V c 1 t
abbrev bblk1 (c : Dev nD) (t : Fin cfg1.N) : Vec Ideal S1x512 .f32 := iblk1 V c 2 t

theorem idx_facts1 : ∀ t : Fin cfg1.N,
    win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = 0 ∧ win1_2.index t (1 : Fin 2) = 0
    ∧ win1_3.index t (0 : Fin 2) = t.val / 10 ∧ win1_3.index t (1 : Fin 2) = 0 :=
  (by decide +kernel : ∀ t : Fin grid1.N, _)

-- A block's entry sits, on each axis, at the block index times the block's extent plus the entry's coordinate.
theorem step1_apply (c : Dev nD) (t : Fin cfg1.N) (p : Fin 5120) (k : Fin 1024) (q : Fin 512) (r j : Fin 10240) (q' : Fin 512)
    (hr : r.val = 5120 * (t.val / 10) + p.val) (hj : j.val = 1024 * (t.val % 10) + k.val) (hq : q'.val = q.val) :
    @Eq EReal (ablk1 V c t (ix2 p k) * tblk1 V c t (ix2 k q)) (arrA1 V c (ix2 r j) * arrT1 V c (ix2 j q')) := by
  obtain ⟨e00, e01, e10, e11, -⟩ := idx_facts1 t
  refine congrArg₂ (fun x y : EReal => x * y) ?_ ?_
  · show (V c main_v45 : S10240x10240.Idx → EReal) (((cfg1.win 0).blk t).view.emb (ix2 p k)) = _
    exact congrArg _ (Shape.idx_ext₂ (by show win1_0.index t (0 : Fin 2) * 5120 + 1 * p.val = r.val; omega)
      (by show win1_0.index t (1 : Fin 2) * 1024 + 1 * k.val = j.val; omega))
  · show (V c main_v54 : S10240x512.Idx → EReal) (((cfg1.win 1).blk t).view.emb (ix2 k q)) = _
    exact congrArg _ (Shape.idx_ext₂ (by show win1_1.index t (0 : Fin 2) * 1024 + 1 * k.val = j.val; omega)
      (by show win1_1.index t (1 : Fin 2) * 512 + 1 * q.val = q'.val; omega))

theorem bblk1_apply (c : Dev nD) (t : Fin cfg1.N) (q q' : Fin 512) (hq : q'.val = q.val) :
    @Eq EReal (bblk1 V c t (ix2 (0 : Fin 1) q)) (arrB1 V c (ix2 (0 : Fin 1) q')) := by
  obtain ⟨-, -, -, -, e20, e21, -⟩ := idx_facts1 t
  show (V c main_v55 : S1x512.Idx → EReal) (((cfg1.win 2).blk t).view.emb (ix2 (0 : Fin 1) q)) = _
  exact congrArg _ (Shape.idx_ext₂ (by show win1_2.index t (0 : Fin 2) * 1 + 1 * 0 = 0; omega)
    (by show win1_2.index t (1 : Fin 2) * 512 + 1 * q.val = q'.val; omega))

-- The accumulator restarts at each row tile's first step and adds one block's products per step; ten blocks of 1024 columns are the 10240 columns.
theorem acc1_last (c : Dev nD) (t : Fin cfg1.N) (h9 : t.val % 10 = 9) (p : Fin 5120) (q : Fin 512) (r : Fin 10240)
    (q' : Fin 512) (hr : r.val = 5120 * (t.val / 10) + p.val) (hq : q'.val = q.val) :
    @Eq EReal (soutsAt1 V c t.val t.isLt (ix2 p q)) (∑ j : Fin 10240, arrA1 V c (ix2 r j) * arrT1 V c (ix2 j q')) := by
  have hlast : t.val % 10 + 1 = 10 := by omega
  refine (acc_run_last (J := 10) (fun n h => soutsAt1 V c n h (ix2 p q))
    (fun n h => ∑ kk : Fin 1024, ablk1 V c ⟨n, h⟩ (ix2 p kk) * tblk1 V c ⟨n, h⟩ (ix2 kk q))
    (fun n h hn => (congrFun (soutsAt1_zero V c ⟨n, h⟩ hn) (ix2 p q)).trans
      ((k1_pay2_apply _ _ _ p q).trans (by rw [k1_pay1_apply, zero_add])))
    (fun n h hn => (congrFun (soutsAt1_pos V c ⟨n + 1, h⟩ hn) (ix2 p q)).trans (k1_pay2_apply _ _ _ p q))
    t.val t.isLt hlast).trans ?_
  refine Eq.trans (Finset.sum_congr rfl fun s _ => Finset.sum_congr rfl fun kk _ => ?_)
    (AggSum.sum_blocks (K := 10) (B := 1024) (fun j : Fin 10240 => arrA1 V c (ix2 r j) * arrT1 V c (ix2 j q'))).symm
  have hs : s.val < 10 := s.isLt
  exact step1_apply V c ⟨10 * (t.val / 10) + s.val, run_lt t.isLt hlast s⟩ p kk q r ⟨s.val * 1024 + kk.val, AggSum.block_lt s kk⟩ q'
    (by show r.val = 5120 * ((10 * (t.val / 10) + s.val) / 10) + p.val; omega)
    (by show s.val * 1024 + kk.val = 1024 * ((10 * (t.val / 10) + s.val) % 10) + kk.val; omega) hq

theorem flushed1_eq (c : Dev nD) (t : Fin cfg1.N) (hf : (cfg1.win 3).flush t = true) :
    (dat1 (F := Ideal) V c).flushed 3 t
      = ((cfg1.win 3).blk t).view.read (Elt Ideal) (agg1 (V c main_v45) (V c main_v54) (V c main_v55)) := by
  have h9 : t.val % 10 = 9 := (flush1_3 t).mp hf
  obtain ⟨-, -, -, -, -, -, e30, e31⟩ := idx_facts1 t
  show (cfg1.win 3).cut (grid1.coords t) ((dat1 (F := Ideal) V c).after 3 t) = _
  rw [after1_3]
  unfold outsAt1
  funext y
  obtain ⟨p, q, rfl⟩ : ∃ (p : Fin 5120) (q : Fin 512), y = ix2 p q := ⟨y 0, y 1, eq_ix2 y⟩
  show k1_pay3 (F := Ideal) (soutsAt1 V c t.val t.isLt) (iblk1 V c 2 t) (ix2 p q)
    = agg1 (V c main_v45) (V c main_v54) (V c main_v55) (((cfg1.win 3).blk t).view.emb (ix2 p q))
  exact (k1_pay3_apply _ _ p q).trans (congrArg₂ (fun x y : EReal => max (x + y) 0)
    (acc1_last V c t h9 p q _ _
      (by show win1_3.index t (0 : Fin 2) * 5120 + 1 * p.val = 5120 * (t.val / 10) + p.val; omega)
      (by show win1_3.index t (1 : Fin 2) * 512 + 1 * q.val = q.val; omega))
    (bblk1_apply V c t q _
      (by show win1_3.index t (1 : Fin 2) * 512 + 1 * q.val = q.val; omega)))

theorem cover1 (i : S10240x512.Idx) :
    ∃ t : Fin cfg1.N, (cfg1.win 3).flush t = true ∧ i ∈ ((cfg1.win 3).blk t).view.set := by
  have hi0 : (i 0).val < 10240 := (i 0).isLt
  have hi1 : (i 1).val < 512 := (i 1).isLt
  obtain ⟨t, ht⟩ : ∃ t : Fin cfg1.N, t.val = 10 * ((i 0).val / 5120) + 9 :=
    ⟨⟨_, show 10 * ((i 0).val / 5120) + 9 < grid1.N by rw [N_1]; omega⟩, rfl⟩
  obtain ⟨-, -, -, -, -, -, e30, e31⟩ := idx_facts1 t
  refine ⟨t, (flush1_3 t).mpr (by omega), ?_⟩
  show i ∈ ((View.whole main_v56).slice (win1_3.rect t)).set
  rw [View.set_slice_whole, Rect.mem_set_unit]
  intro a
  match a with
  | ⟨0, _⟩ =>
    show win1_3.index t (0 : Fin 2) * 5120 ≤ (i 0).val ∧ (i 0).val < win1_3.index t (0 : Fin 2) * 5120 + 5120
    omega
  | ⟨1, _⟩ =>
    show win1_3.index t (1 : Fin 2) * 512 ≤ (i 1).val ∧ (i 1).val < win1_3.index t (1 : Fin 2) * 512 + 512
    omega

theorem agg1_whole (c : Dev nD) :
    ((dat1 (F := Ideal) V c).arrAt 3 cfg1.N : S10240x512.Idx → EReal)
      = agg1 (V c main_v45) (V c main_v54) (V c main_v55) :=
  (dat1 (F := Ideal) V c).arrAt_eq_of_cover 3 (agg1 (V c main_v45) (V c main_v54) (V c main_v55))
    (fun t hf => flushed1_eq V c t hf) cover1

end Region1

end Cert.KernelIdeal.Hand

end
-- ==== Proof.Val.Agg3.lean ====
import proofs.«401117_j39195871543847_2_alg».proof.Proof.KI.Agg3
import proofs.«401117_j39195871543847_2_alg».proof.Proof.LibDenseVal
import proofs.«401117_j39195871543847_2_alg».proof.Proof.LibAggSum
import Idealize.ShloMosaic.Lib.ValueLayout

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

theorem k3_pay1_apply (p : Fin 5120) (q : Fin 512) : k3_pay1 (F := Ideal) (ix2 p q) = 0 := by
  unfold k3_pay1
  rw [shapeCast_self]
  exact Ideal.ofBits_zero_f32

theorem k3_pay2_apply (x0 : Vec Ideal S5120x1024 .bf16) (x1 : Vec Ideal S1024x512 .bf16) (acc : Vec Ideal S5120x512 .f32)
    (p : Fin 5120) (q : Fin 512) :
    k3_pay2 (F := Ideal) x0 x1 acc (ix2 p q) = acc (ix2 p q) + ∑ k : Fin 1024, x0 (ix2 p k) * x1 (ix2 k q) := by
  unfold k3_pay2
  rw [shapeCast_self, shapeCast_self, shapeCast_self]
  show acc (ix2 p q) + FloatOps.matmul (F := Ideal) (φ₁ := .bf16) (φ₂ := .bf16) _ none x0 x1 _ (ix2 p q) = _
  exact congrArg (acc (ix2 p q) + ·) (matmul_plain_zero_apply (φ₁ := .bf16) (φ₂ := .bf16) none x0 x1 p q)

theorem k3_pay3_apply (acc : Vec Ideal S5120x512 .f32) (bias : Vec Ideal S1x512 .f32) (p : Fin 5120) (q : Fin 512) :
    k3_pay3 (F := Ideal) acc bias (ix2 p q) = max (acc (ix2 p q) + bias (ix2 (0 : Fin 1) q)) 0 := by
  unfold k3_pay3
  rw [shapeCast_self]
  show max (acc (ix2 p q) + broadcastTo S5120x512 bias broadcasts_S1x512_S5120x512 (ix2 p q)) (Ideal.ofBits .f32 0x00000000#32) = _
  rw [Ideal.ofBits_zero_f32]
  exact congrArg (fun z => max (acc (ix2 p q) + z) 0) (broadcastTo_row_apply bias broadcasts_S1x512_S5120x512 p q)

abbrev agg3 (a : S10240x10240.Idx → EReal) (tb : S10240x512.Idx → EReal) (b : S1x512.Idx → EReal) : S10240x512.Idx → EReal :=
  fun j => max ((∑ k : Fin 10240, a (ix2 ⟨(j 0).val, (j 0).isLt⟩ k) * tb (ix2 k ⟨(j 1).val, (j 1).isLt⟩))
    + b (ix2 (0 : Fin 1) ⟨(j 1).val, (j 1).isLt⟩)) 0

section Region3

variable (V : (c : Dev nD) → (b : Ref sig .tc) → Buf (Elt Ideal) ((c : Thread nD τ).loc b))

abbrev arrA3 (c : Dev nD) : S10240x10240.Idx → EReal := V c main_v45
abbrev arrT3 (c : Dev nD) : S10240x512.Idx → EReal := V c main_v57
abbrev arrB3 (c : Dev nD) : S1x512.Idx → EReal := V c main_v58

abbrev ablk3 (c : Dev nD) (t : Fin cfg3.N) : Vec Ideal S5120x1024 .bf16 := iblk3 V c 0 t
abbrev tblk3 (c : Dev nD) (t : Fin cfg3.N) : Vec Ideal S1024x512 .bf16 := iblk3 V c 1 t
abbrev bblk3 (c : Dev nD) (t : Fin cfg3.N) : Vec Ideal S1x512 .f32 := iblk3 V c 2 t

theorem idx_facts3 : ∀ t : Fin cfg3.N,
    win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0 :=
  (by decide +kernel : ∀ t : Fin grid3.N, _)

-- A block's entry sits, on each axis, at the block index times the block's extent plus the entry's coordinate.
theorem step3_apply (c : Dev nD) (t : Fin cfg3.N) (p : Fin 5120) (k : Fin 1024) (q : Fin 512) (r j : Fin 10240) (q' : Fin 512)
    (hr : r.val = 5120 * (t.val / 10) + p.val) (hj : j.val = 1024 * (t.val % 10) + k.val) (hq : q'.val = q.val) :
    @Eq EReal (ablk3 V c t (ix2 p k) * tblk3 V c t (ix2 k q)) (arrA3 V c (ix2 r j) * arrT3 V c (ix2 j q')) := by
  obtain ⟨e00, e01, e10, e11, -⟩ := idx_facts3 t
  refine congrArg₂ (fun x y : EReal => x * y) ?_ ?_
  · show (V c main_v45 : S10240x10240.Idx → EReal) (((cfg3.win 0).blk t).view.emb (ix2 p k)) = _
    exact congrArg _ (Shape.idx_ext₂ (by show win3_0.index t (0 : Fin 2) * 5120 + 1 * p.val = r.val; omega)
      (by show win3_0.index t (1 : Fin 2) * 1024 + 1 * k.val = j.val; omega))
  · show (V c main_v57 : S10240x512.Idx → EReal) (((cfg3.win 1).blk t).view.emb (ix2 k q)) = _
    exact congrArg _ (Shape.idx_ext₂ (by show win3_1.index t (0 : Fin 2) * 1024 + 1 * k.val = j.val; omega)
      (by show win3_1.index t (1 : Fin 2) * 512 + 1 * q.val = q'.val; omega))

theorem bblk3_apply (c : Dev nD) (t : Fin cfg3.N) (q q' : Fin 512) (hq : q'.val = q.val) :
    @Eq EReal (bblk3 V c t (ix2 (0 : Fin 1) q)) (arrB3 V c (ix2 (0 : Fin 1) q')) := by
  obtain ⟨-, -, -, -, e20, e21, -⟩ := idx_facts3 t
  show (V c main_v58 : S1x512.Idx → EReal) (((cfg3.win 2).blk t).view.emb (ix2 (0 : Fin 1) q)) = _
  exact congrArg _ (Shape.idx_ext₂ (by show win3_2.index t (0 : Fin 2) * 1 + 1 * 0 = 0; omega)
    (by show win3_2.index t (1 : Fin 2) * 512 + 1 * q.val = q'.val; omega))

-- The accumulator restarts at each row tile's first step and adds one block's products per step; ten blocks of 1024 columns are the 10240 columns.
theorem acc3_last (c : Dev nD) (t : Fin cfg3.N) (h9 : t.val % 10 = 9) (p : Fin 5120) (q : Fin 512) (r : Fin 10240)
    (q' : Fin 512) (hr : r.val = 5120 * (t.val / 10) + p.val) (hq : q'.val = q.val) :
    @Eq EReal (soutsAt3 V c t.val t.isLt (ix2 p q)) (∑ j : Fin 10240, arrA3 V c (ix2 r j) * arrT3 V c (ix2 j q')) := by
  have hlast : t.val % 10 + 1 = 10 := by omega
  refine (acc_run_last (J := 10) (fun n h => soutsAt3 V c n h (ix2 p q))
    (fun n h => ∑ kk : Fin 1024, ablk3 V c ⟨n, h⟩ (ix2 p kk) * tblk3 V c ⟨n, h⟩ (ix2 kk q))
    (fun n h hn => (congrFun (soutsAt3_zero V c ⟨n, h⟩ hn) (ix2 p q)).trans
      ((k3_pay2_apply _ _ _ p q).trans (by rw [k3_pay1_apply, zero_add])))
    (fun n h hn => (congrFun (soutsAt3_pos V c ⟨n + 1, h⟩ hn) (ix2 p q)).trans (k3_pay2_apply _ _ _ p q))
    t.val t.isLt hlast).trans ?_
  refine Eq.trans (Finset.sum_congr rfl fun s _ => Finset.sum_congr rfl fun kk _ => ?_)
    (AggSum.sum_blocks (K := 10) (B := 1024) (fun j : Fin 10240 => arrA3 V c (ix2 r j) * arrT3 V c (ix2 j q'))).symm
  have hs : s.val < 10 := s.isLt
  exact step3_apply V c ⟨10 * (t.val / 10) + s.val, run_lt t.isLt hlast s⟩ p kk q r ⟨s.val * 1024 + kk.val, AggSum.block_lt s kk⟩ q'
    (by show r.val = 5120 * ((10 * (t.val / 10) + s.val) / 10) + p.val; omega)
    (by show s.val * 1024 + kk.val = 1024 * ((10 * (t.val / 10) + s.val) % 10) + kk.val; omega) hq

theorem flushed3_eq (c : Dev nD) (t : Fin cfg3.N) (hf : (cfg3.win 3).flush t = true) :
    (dat3 (F := Ideal) V c).flushed 3 t
      = ((cfg3.win 3).blk t).view.read (Elt Ideal) (agg3 (V c main_v45) (V c main_v57) (V c main_v58)) := by
  have h9 : t.val % 10 = 9 := (flush3_3 t).mp hf
  obtain ⟨-, -, -, -, -, -, e30, e31⟩ := idx_facts3 t
  show (cfg3.win 3).cut (grid3.coords t) ((dat3 (F := Ideal) V c).after 3 t) = _
  rw [after3_3]
  unfold outsAt3
  funext y
  obtain ⟨p, q, rfl⟩ : ∃ (p : Fin 5120) (q : Fin 512), y = ix2 p q := ⟨y 0, y 1, eq_ix2 y⟩
  show k3_pay3 (F := Ideal) (soutsAt3 V c t.val t.isLt) (iblk3 V c 2 t) (ix2 p q)
    = agg3 (V c main_v45) (V c main_v57) (V c main_v58) (((cfg3.win 3).blk t).view.emb (ix2 p q))
  exact (k3_pay3_apply _ _ p q).trans (congrArg₂ (fun x y : EReal => max (x + y) 0)
    (acc3_last V c t h9 p q _ _
      (by show win3_3.index t (0 : Fin 2) * 5120 + 1 * p.val = 5120 * (t.val / 10) + p.val; omega)
      (by show win3_3.index t (1 : Fin 2) * 512 + 1 * q.val = q.val; omega))
    (bblk3_apply V c t q _
      (by show win3_3.index t (1 : Fin 2) * 512 + 1 * q.val = q.val; omega)))

theorem cover3 (i : S10240x512.Idx) :
    ∃ t : Fin cfg3.N, (cfg3.win 3).flush t = true ∧ i ∈ ((cfg3.win 3).blk t).view.set := by
  have hi0 : (i 0).val < 10240 := (i 0).isLt
  have hi1 : (i 1).val < 512 := (i 1).isLt
  obtain ⟨t, ht⟩ : ∃ t : Fin cfg3.N, t.val = 10 * ((i 0).val / 5120) + 9 :=
    ⟨⟨_, show 10 * ((i 0).val / 5120) + 9 < grid3.N by rw [N_3]; omega⟩, rfl⟩
  obtain ⟨-, -, -, -, -, -, e30, e31⟩ := idx_facts3 t
  refine ⟨t, (flush3_3 t).mpr (by omega), ?_⟩
  show i ∈ ((View.whole main_v59).slice (win3_3.rect t)).set
  rw [View.set_slice_whole, Rect.mem_set_unit]
  intro a
  match a with
  | ⟨0, _⟩ =>
    show win3_3.index t (0 : Fin 2) * 5120 ≤ (i 0).val ∧ (i 0).val < win3_3.index t (0 : Fin 2) * 5120 + 5120
    omega
  | ⟨1, _⟩ =>
    show win3_3.index t (1 : Fin 2) * 512 ≤ (i 1).val ∧ (i 1).val < win3_3.index t (1 : Fin 2) * 512 + 512
    omega

theorem agg3_whole (c : Dev nD) :
    ((dat3 (F := Ideal) V c).arrAt 3 cfg3.N : S10240x512.Idx → EReal)
      = agg3 (V c main_v45) (V c main_v57) (V c main_v58) :=
  (dat3 (F := Ideal) V c).arrAt_eq_of_cover 3 (agg3 (V c main_v45) (V c main_v57) (V c main_v58))
    (fun t hf => flushed3_eq V c t hf) cover3

end Region3

end Cert.KernelIdeal.Hand

end
-- ==== Proof.Val.Agg5.lean ====
import proofs.«401117_j39195871543847_2_alg».proof.Proof.KI.Agg5
import proofs.«401117_j39195871543847_2_alg».proof.Proof.LibDenseVal
import proofs.«401117_j39195871543847_2_alg».proof.Proof.LibAggSum
import Idealize.ShloMosaic.Lib.ValueLayout

set_option maxRecDepth 16384

noncomputable section

namespace Cert.KernelIdeal.Hand

open Cert.KernelIdeal Cert.KernelIdeal.Gen Cert.Proof.LibDenseVal
open Idealize.ShloMosaic Idealize.ShloMosaic.TcCoe Idealize.ShloMosaic.ValueIdx
open Idealize.SL.Sem
open Idealize.ShloMosaic.Pipeline (Dat)

theorem k5_pay1_apply (p : Fin 5120) (q : Fin 512) : k5_pay1 (F := Ideal) (ix2 p q) = 0 := by
  unfold k5_pay1
  rw [shapeCast_self]
  exact Ideal.ofBits_zero_f32

theorem k5_pay2_apply (x0 : Vec Ideal S5120x1024 .bf16) (x1 : Vec Ideal S1024x512 .bf16) (acc : Vec Ideal S5120x512 .f32)
    (p : Fin 5120) (q : Fin 512) :
    k5_pay2 (F := Ideal) x0 x1 acc (ix2 p q) = acc (ix2 p q) + ∑ k : Fin 1024, x0 (ix2 p k) * x1 (ix2 k q) := by
  unfold k5_pay2
  rw [shapeCast_self, shapeCast_self, shapeCast_self]
  show acc (ix2 p q) + FloatOps.matmul (F := Ideal) (φ₁ := .bf16) (φ₂ := .bf16) _ none x0 x1 _ (ix2 p q) = _
  exact congrArg (acc (ix2 p q) + ·) (matmul_plain_zero_apply (φ₁ := .bf16) (φ₂ := .bf16) none x0 x1 p q)

theorem k5_pay3_apply (acc : Vec Ideal S5120x512 .f32) (bias : Vec Ideal S1x512 .f32) (p : Fin 5120) (q : Fin 512) :
    k5_pay3 (F := Ideal) acc bias (ix2 p q) = max (acc (ix2 p q) + bias (ix2 (0 : Fin 1) q)) 0 := by
  unfold k5_pay3
  rw [shapeCast_self]
  show max (acc (ix2 p q) + broadcastTo S5120x512 bias broadcasts_S1x512_S5120x512 (ix2 p q)) (Ideal.ofBits .f32 0x00000000#32) = _
  rw [Ideal.ofBits_zero_f32]
  exact congrArg (fun z => max (acc (ix2 p q) + z) 0) (broadcastTo_row_apply bias broadcasts_S1x512_S5120x512 p q)

abbrev agg5 (a : S10240x10240.Idx → EReal) (tb : S10240x512.Idx → EReal) (b : S1x512.Idx → EReal) : S10240x512.Idx → EReal :=
  fun j => max ((∑ k : Fin 10240, a (ix2 ⟨(j 0).val, (j 0).isLt⟩ k) * tb (ix2 k ⟨(j 1).val, (j 1).isLt⟩))
    + b (ix2 (0 : Fin 1) ⟨(j 1).val, (j 1).isLt⟩)) 0

section Region5

variable (V : (c : Dev nD) → (b : Ref sig .tc) → Buf (Elt Ideal) ((c : Thread nD τ).loc b))

abbrev arrA5 (c : Dev nD) : S10240x10240.Idx → EReal := V c main_v45
abbrev arrT5 (c : Dev nD) : S10240x512.Idx → EReal := V c main_v60
abbrev arrB5 (c : Dev nD) : S1x512.Idx → EReal := V c main_v61

abbrev ablk5 (c : Dev nD) (t : Fin cfg5.N) : Vec Ideal S5120x1024 .bf16 := iblk5 V c 0 t
abbrev tblk5 (c : Dev nD) (t : Fin cfg5.N) : Vec Ideal S1024x512 .bf16 := iblk5 V c 1 t
abbrev bblk5 (c : Dev nD) (t : Fin cfg5.N) : Vec Ideal S1x512 .f32 := iblk5 V c 2 t

theorem idx_facts5 : ∀ t : Fin cfg5.N,
    win5_0.index t (0 : Fin 2) = t.val / 10 ∧ win5_0.index t (1 : Fin 2) = t.val % 10
    ∧ win5_1.index t (0 : Fin 2) = t.val % 10 ∧ win5_1.index t (1 : Fin 2) = 0
    ∧ win5_2.index t (0 : Fin 2) = 0 ∧ win5_2.index t (1 : Fin 2) = 0
    ∧ win5_3.index t (0 : Fin 2) = t.val / 10 ∧ win5_3.index t (1 : Fin 2) = 0 :=
  (by decide +kernel : ∀ t : Fin grid5.N, _)

-- A block's entry sits, on each axis, at the block index times the block's extent plus the entry's coordinate.
theorem step5_apply (c : Dev nD) (t : Fin cfg5.N) (p : Fin 5120) (k : Fin 1024) (q : Fin 512) (r j : Fin 10240) (q' : Fin 512)
    (hr : r.val = 5120 * (t.val / 10) + p.val) (hj : j.val = 1024 * (t.val % 10) + k.val) (hq : q'.val = q.val) :
    @Eq EReal (ablk5 V c t (ix2 p k) * tblk5 V c t (ix2 k q)) (arrA5 V c (ix2 r j) * arrT5 V c (ix2 j q')) := by
  obtain ⟨e00, e01, e10, e11, -⟩ := idx_facts5 t
  refine congrArg₂ (fun x y : EReal => x * y) ?_ ?_
  · show (V c main_v45 : S10240x10240.Idx → EReal) (((cfg5.win 0).blk t).view.emb (ix2 p k)) = _
    exact congrArg _ (Shape.idx_ext₂ (by show win5_0.index t (0 : Fin 2) * 5120 + 1 * p.val = r.val; omega)
      (by show win5_0.index t (1 : Fin 2) * 1024 + 1 * k.val = j.val; omega))
  · show (V c main_v60 : S10240x512.Idx → EReal) (((cfg5.win 1).blk t).view.emb (ix2 k q)) = _
    exact congrArg _ (Shape.idx_ext₂ (by show win5_1.index t (0 : Fin 2) * 1024 + 1 * k.val = j.val; omega)
      (by show win5_1.index t (1 : Fin 2) * 512 + 1 * q.val = q'.val; omega))

theorem bblk5_apply (c : Dev nD) (t : Fin cfg5.N) (q q' : Fin 512) (hq : q'.val = q.val) :
    @Eq EReal (bblk5 V c t (ix2 (0 : Fin 1) q)) (arrB5 V c (ix2 (0 : Fin 1) q')) := by
  obtain ⟨-, -, -, -, e20, e21, -⟩ := idx_facts5 t
  show (V c main_v61 : S1x512.Idx → EReal) (((cfg5.win 2).blk t).view.emb (ix2 (0 : Fin 1) q)) = _
  exact congrArg _ (Shape.idx_ext₂ (by show win5_2.index t (0 : Fin 2) * 1 + 1 * 0 = 0; omega)
    (by show win5_2.index t (1 : Fin 2) * 512 + 1 * q.val = q'.val; omega))

-- The accumulator restarts at each row tile's first step and adds one block's products per step; ten blocks of 1024 columns are the 10240 columns.
theorem acc5_last (c : Dev nD) (t : Fin cfg5.N) (h9 : t.val % 10 = 9) (p : Fin 5120) (q : Fin 512) (r : Fin 10240)
    (q' : Fin 512) (hr : r.val = 5120 * (t.val / 10) + p.val) (hq : q'.val = q.val) :
    @Eq EReal (soutsAt5 V c t.val t.isLt (ix2 p q)) (∑ j : Fin 10240, arrA5 V c (ix2 r j) * arrT5 V c (ix2 j q')) := by
  have hlast : t.val % 10 + 1 = 10 := by omega
  refine (acc_run_last (J := 10) (fun n h => soutsAt5 V c n h (ix2 p q))
    (fun n h => ∑ kk : Fin 1024, ablk5 V c ⟨n, h⟩ (ix2 p kk) * tblk5 V c ⟨n, h⟩ (ix2 kk q))
    (fun n h hn => (congrFun (soutsAt5_zero V c ⟨n, h⟩ hn) (ix2 p q)).trans
      ((k5_pay2_apply _ _ _ p q).trans (by rw [k5_pay1_apply, zero_add])))
    (fun n h hn => (congrFun (soutsAt5_pos V c ⟨n + 1, h⟩ hn) (ix2 p q)).trans (k5_pay2_apply _ _ _ p q))
    t.val t.isLt hlast).trans ?_
  refine Eq.trans (Finset.sum_congr rfl fun s _ => Finset.sum_congr rfl fun kk _ => ?_)
    (AggSum.sum_blocks (K := 10) (B := 1024) (fun j : Fin 10240 => arrA5 V c (ix2 r j) * arrT5 V c (ix2 j q'))).symm
  have hs : s.val < 10 := s.isLt
  exact step5_apply V c ⟨10 * (t.val / 10) + s.val, run_lt t.isLt hlast s⟩ p kk q r ⟨s.val * 1024 + kk.val, AggSum.block_lt s kk⟩ q'
    (by show r.val = 5120 * ((10 * (t.val / 10) + s.val) / 10) + p.val; omega)
    (by show s.val * 1024 + kk.val = 1024 * ((10 * (t.val / 10) + s.val) % 10) + kk.val; omega) hq

theorem flushed5_eq (c : Dev nD) (t : Fin cfg5.N) (hf : (cfg5.win 3).flush t = true) :
    (dat5 (F := Ideal) V c).flushed 3 t
      = ((cfg5.win 3).blk t).view.read (Elt Ideal) (agg5 (V c main_v45) (V c main_v60) (V c main_v61)) := by
  have h9 : t.val % 10 = 9 := (flush5_3 t).mp hf
  obtain ⟨-, -, -, -, -, -, e30, e31⟩ := idx_facts5 t
  show (cfg5.win 3).cut (grid5.coords t) ((dat5 (F := Ideal) V c).after 3 t) = _
  rw [after5_3]
  unfold outsAt5
  funext y
  obtain ⟨p, q, rfl⟩ : ∃ (p : Fin 5120) (q : Fin 512), y = ix2 p q := ⟨y 0, y 1, eq_ix2 y⟩
  show k5_pay3 (F := Ideal) (soutsAt5 V c t.val t.isLt) (iblk5 V c 2 t) (ix2 p q)
    = agg5 (V c main_v45) (V c main_v60) (V c main_v61) (((cfg5.win 3).blk t).view.emb (ix2 p q))
  exact (k5_pay3_apply _ _ p q).trans (congrArg₂ (fun x y : EReal => max (x + y) 0)
    (acc5_last V c t h9 p q _ _
      (by show win5_3.index t (0 : Fin 2) * 5120 + 1 * p.val = 5120 * (t.val / 10) + p.val; omega)
      (by show win5_3.index t (1 : Fin 2) * 512 + 1 * q.val = q.val; omega))
    (bblk5_apply V c t q _
      (by show win5_3.index t (1 : Fin 2) * 512 + 1 * q.val = q.val; omega)))

theorem cover5 (i : S10240x512.Idx) :
    ∃ t : Fin cfg5.N, (cfg5.win 3).flush t = true ∧ i ∈ ((cfg5.win 3).blk t).view.set := by
  have hi0 : (i 0).val < 10240 := (i 0).isLt
  have hi1 : (i 1).val < 512 := (i 1).isLt
  obtain ⟨t, ht⟩ : ∃ t : Fin cfg5.N, t.val = 10 * ((i 0).val / 5120) + 9 :=
    ⟨⟨_, show 10 * ((i 0).val / 5120) + 9 < grid5.N by rw [N_5]; omega⟩, rfl⟩
  obtain ⟨-, -, -, -, -, -, e30, e31⟩ := idx_facts5 t
  refine ⟨t, (flush5_3 t).mpr (by omega), ?_⟩
  show i ∈ ((View.whole main_v62).slice (win5_3.rect t)).set
  rw [View.set_slice_whole, Rect.mem_set_unit]
  intro a
  match a with
  | ⟨0, _⟩ =>
    show win5_3.index t (0 : Fin 2) * 5120 ≤ (i 0).val ∧ (i 0).val < win5_3.index t (0 : Fin 2) * 5120 + 5120
    omega
  | ⟨1, _⟩ =>
    show win5_3.index t (1 : Fin 2) * 512 ≤ (i 1).val ∧ (i 1).val < win5_3.index t (1 : Fin 2) * 512 + 512
    omega

theorem agg5_whole (c : Dev nD) :
    ((dat5 (F := Ideal) V c).arrAt 3 cfg5.N : S10240x512.Idx → EReal)
      = agg5 (V c main_v45) (V c main_v60) (V c main_v61) :=
  (dat5 (F := Ideal) V c).arrAt_eq_of_cover 3 (agg5 (V c main_v45) (V c main_v60) (V c main_v61))
    (fun t hf => flushed5_eq V c t hf) cover5

end Region5

end Cert.KernelIdeal.Hand

end
-- ==== Proof.Val.KLayers.lean ====
import proofs.«401117_j39195871543847_2_alg».proof.Proof.KI.Chain
import proofs.«401117_j39195871543847_2_alg».proof.Proof.Val.Dense0
import proofs.«401117_j39195871543847_2_alg».proof.Proof.Val.Dense2
import proofs.«401117_j39195871543847_2_alg».proof.Proof.Val.Dense4
import proofs.«401117_j39195871543847_2_alg».proof.Proof.Val.Dense6
import proofs.«401117_j39195871543847_2_alg».proof.Proof.Val.Agg1
import proofs.«401117_j39195871543847_2_alg».proof.Proof.Val.Agg3
import proofs.«401117_j39195871543847_2_alg».proof.Proof.Val.Agg5
import proofs.«401117_j39195871543847_2_alg».proof.Proof.Val.HostK
import proofs.«401117_j39195871543847_2_alg».proof.Proof.Val.HostRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

abbrev aggOf (A : S10240x10240.Idx → EReal) (T : S10240x512.Idx → EReal) (b : S512.Idx → EReal) : S10240x512.Idx → EReal :=
  fun j => max ((∑ i : Fin 10240, A (ix2 ⟨(j 0).val, (j 0).isLt⟩ i) * T (ix2 i ⟨(j 1).val, (j 1).isLt⟩))
    + b (ix1 ⟨(j 1).val, (j 1).isLt⟩)) 0

theorem agg_congr {A A' : S10240x10240.Idx → EReal} {T T' : S10240x512.Idx → EReal} {b b' : S1x512.Idx → EReal}
    (hA : A = A') (hT : T = T') (hb : b = b') : agg1 A T b = agg1 A' T' b' := by
  subst hA; subst hT; subst hb; rfl

-- The bias as a one-row block reads, at column q, the bias's entry q.
theorem agg_biasRow (A : S10240x10240.Idx → EReal) (T : S10240x512.Idx → EReal) (b : S512.Idx → EReal) :
    agg1 A T (biasRow (F := Ideal) b) = aggOf A T b :=
  funext fun j => by
    show max (_ + (biasRow (F := Ideal) b : S1x512.Idx → EReal) (ix2 (0 : Fin 1) ⟨(j 1).val, (j 1).isLt⟩)) 0 = _
    rw [biasRow_apply]

section Layers

variable (m : (ℓ : Loc nD τ sig) → Buf (Elt Ideal) ℓ) (c : Dev nD)

abbrev adjK : S10240x10240.Idx → EReal := adjDense (F := Ideal) (m ((c : Thread nD τ).loc main_arg1))

abbrev featK : S10240x2208.Idx → EReal := xPad (F := Ideal) (m ((c : Thread nD τ).loc main_arg0))

abbrev wt1K : S2208x512.Idx → EReal := m ((c : Thread nD τ).loc main_arg3)
abbrev wt2K : S512x512.Idx → EReal := m ((c : Thread nD τ).loc main_arg5)
abbrev wt3K : S512x512.Idx → EReal := m ((c : Thread nD τ).loc main_arg7)
abbrev wt4K : S512x2.Idx → EReal := m ((c : Thread nD τ).loc main_arg9)

abbrev b1K : S512.Idx → EReal := m ((c : Thread nD τ).loc main_arg4)
abbrev b2K : S512.Idx → EReal := m ((c : Thread nD τ).loc main_arg6)
abbrev b3K : S512.Idx → EReal := m ((c : Thread nD τ).loc main_arg8)

abbrev h1K : S10240x512.Idx → EReal := W6 m c main_v56
abbrev h2K : S10240x512.Idx → EReal := W9 m c main_v59
abbrev h3K : S10240x512.Idx → EReal := W12 m c main_v62
abbrev t4K : S10240x2.Idx → EReal := W13 m c main_v63

abbrev chainW : List (Ref sig .tc) :=
  [main_v54, main_v55, main_v56, main_v57, main_v58, main_v59, main_v60, main_v61, main_v62, main_v63]

theorem ne_of_chain {r x : Ref sig .tc} (hx : x ∈ chainW) (h : r ∉ chainW) : r ≠ x := fun e => h (e ▸ hx)
theorem not_mem_single_of_chain {r x : Ref sig .tc} (hx : x ∈ chainW) (h : r ∉ chainW) : r ∉ ([x] : List (Ref sig .tc)) :=
  fun hm => h (List.mem_singleton.mp hm ▸ hx)

theorem W4_keep (r : Ref sig .tc) (h : r ∉ chainW) : W4 m c r = V3 m c r :=
  W4_of_ne m c r (ne_of_chain (by decide) h)
theorem W5_keep (r : Ref sig .tc) (h : r ∉ chainW) : W5 m c r = V3 m c r :=
  (StableHlo.after_of_writes_sub hostOps1 (W4 m c) hostOps1_writes (not_mem_single_of_chain (x := main_v55) (by decide) h)).trans
    (W4_keep m c r h)
theorem W6_keep (r : Ref sig .tc) (h : r ∉ chainW) : W6 m c r = V3 m c r :=
  (W6_of_ne m c r (ne_of_chain (by decide) h)).trans (W5_keep m c r h)
theorem W7_keep (r : Ref sig .tc) (h : r ∉ chainW) : W7 m c r = V3 m c r :=
  (W7_of_ne m c r (ne_of_chain (by decide) h)).trans (W6_keep m c r h)
theorem W8_keep (r : Ref sig .tc) (h : r ∉ chainW) : W8 m c r = V3 m c r :=
  (StableHlo.after_of_writes_sub hostOps3 (W7 m c) hostOps3_writes (not_mem_single_of_chain (x := main_v58) (by decide) h)).trans
    (W7_keep m c r h)
theorem W9_keep (r : Ref sig .tc) (h : r ∉ chainW) : W9 m c r = V3 m c r :=
  (W9_of_ne m c r (ne_of_chain (by decide) h)).trans (W8_keep m c r h)
theorem W10_keep (r : Ref sig .tc) (h : r ∉ chainW) : W10 m c r = V3 m c r :=
  (W10_of_ne m c r (ne_of_chain (by decide) h)).trans (W9_keep m c r h)
theorem W11_keep (r : Ref sig .tc) (h : r ∉ chainW) : W11 m c r = V3 m c r :=
  (StableHlo.after_of_writes_sub hostOps5 (W10 m c) hostOps5_writes (not_mem_single_of_chain (x := main_v61) (by decide) h)).trans
    (W10_keep m c r h)
theorem W12_keep (r : Ref sig .tc) (h : r ∉ chainW) : W12 m c r = V3 m c r :=
  (W12_of_ne m c r (ne_of_chain (by decide) h)).trans (W11_keep m c r h)

theorem W5_v54 : W5 m c main_v54 = (dat0 (U3 m) c).arrAt 2 cfg0.N :=
  (StableHlo.after_of_writes_sub hostOps1 (W4 m c) hostOps1_writes (by decide : main_v54 ∉ hostOps1_W)).trans (W4_out m c)
theorem W8_v57 : W8 m c main_v57 = (dat2 (U6 m) c).arrAt 2 cfg2.N :=
  (StableHlo.after_of_writes_sub hostOps3 (W7 m c) hostOps3_writes (by decide : main_v57 ∉ hostOps3_W)).trans (W7_out m c)
theorem W11_v60 : W11 m c main_v60 = (dat4 (U9 m) c).arrAt 2 cfg4.N :=
  (StableHlo.after_of_writes_sub hostOps5 (W10 m c) hostOps5_writes (by decide : main_v60 ∉ hostOps5_W)).trans (W10_out m c)

theorem U5_v45 : (U5 m c main_v45 : S10240x10240.Idx → EReal) = adjK m c :=
  (W5_keep m c main_v45 (by decide)).trans (V3_v45 m c)
theorem U8_v45 : (U8 m c main_v45 : S10240x10240.Idx → EReal) = adjK m c :=
  (W8_keep m c main_v45 (by decide)).trans (V3_v45 m c)
theorem U11_v45 : (U11 m c main_v45 : S10240x10240.Idx → EReal) = adjK m c :=
  (W11_keep m c main_v45 (by decide)).trans (V3_v45 m c)

theorem U3_v49 : (U3 m c main_v49 : S10240x2208.Idx → EReal) = featK m c := V3_v49 m c
theorem U3_v50 : (U3 m c main_v50 : S2208x512.Idx → EReal) = wt1K m c :=
  V3_v50 m c
theorem U6_v51 : (U6 m c main_v51 : S512x512.Idx → EReal) = wt2K m c :=
  (W6_keep m c main_v51 (by decide)).trans (V3_v51 m c)
theorem U9_v52 : (U9 m c main_v52 : S512x512.Idx → EReal) = wt3K m c :=
  (W9_keep m c main_v52 (by decide)).trans (V3_v52 m c)
theorem U12_v53 : (U12 m c main_v53 : S512x2.Idx → EReal) = wt4K m c :=
  (W12_keep m c main_v53 (by decide)).trans (V3_v53 m c)

theorem U5_v55 : (U5 m c main_v55 : S1x512.Idx → EReal) = biasRow (F := Ideal) (b1K m c) :=
  (ops1_v55 (W4 m c)).trans (congrArg (biasRow (F := Ideal))
    ((W4_keep m c main_arg4 (by decide)).trans (V3_launch m c main_arg4 (by decide) (by decide) (by decide))))
theorem U8_v58 : (U8 m c main_v58 : S1x512.Idx → EReal) = biasRow (F := Ideal) (b2K m c) :=
  (ops3_v58 (W7 m c)).trans (congrArg (biasRow (F := Ideal))
    ((W7_keep m c main_arg6 (by decide)).trans (V3_launch m c main_arg6 (by decide) (by decide) (by decide))))
theorem U11_v61 : (U11 m c main_v61 : S1x512.Idx → EReal) = biasRow (F := Ideal) (b3K m c) :=
  (ops5_v61 (W10 m c)).trans (congrArg (biasRow (F := Ideal))
    ((W10_keep m c main_arg8 (by decide)).trans (V3_launch m c main_arg8 (by decide) (by decide) (by decide))))

theorem klayer1 : h1K m c = aggOf (adjK m c) (prod0 (featK m c) (wt1K m c)) (b1K m c) :=
  (W6_out m c).trans <| (agg1_whole (U5 m) c).trans <|
    (agg_congr (U5_v45 m c) ((W5_v54 m c).trans ((dense0_final (U3 m) c).trans (congrArg₂ prod0 (U3_v49 m c) (U3_v50 m c))))
      (U5_v55 m c)).trans (agg_biasRow _ _ _)

theorem klayer2 : h2K m c = aggOf (adjK m c) (prod2 (h1K m c) (wt2K m c)) (b2K m c) :=
  (W9_out m c).trans <| (agg3_whole (U8 m) c).trans <|
    (agg_congr (U8_v45 m c) ((W8_v57 m c).trans ((dense2_final (U6 m) c).trans (congrArg₂ prod2 rfl (U6_v51 m c))))
      (U8_v58 m c)).trans (agg_biasRow _ _ _)

theorem klayer3 : h3K m c = aggOf (adjK m c) (prod4 (h2K m c) (wt3K m c)) (b3K m c) :=
  (W12_out m c).trans <| (agg5_whole (U11 m) c).trans <|
    (agg_congr (U11_v45 m c) ((W11_v60 m c).trans ((dense4_final (U9 m) c).trans (congrArg₂ prod4 rfl (U9_v52 m c))))
      (U11_v61 m c)).trans (agg_biasRow _ _ _)

theorem klayer4 : t4K m c = prod6 (h3K m c) (wt4K m c) :=
  (W13_out m c).trans <| (dense6_final (U12 m) c).trans (congrArg₂ prod6 rfl (U12_v53 m c))

theorem klayer1_apply (r : Fin 10240) (q : Fin 512) :
    @Eq EReal (h1K m c (ix2 r q))
      (max ((∑ j : Fin 10240, adjK m c (ix2 r j) * ∑ k : Fin 2208, featK m c (ix2 j k) * wt1K m c (ix2 k q)) + b1K m c (ix1 q)) 0) :=
  congrFun (klayer1 m c) (ix2 r q)

theorem klayer2_apply (r : Fin 10240) (q : Fin 512) :
    @Eq EReal (h2K m c (ix2 r q))
      (max ((∑ j : Fin 10240, adjK m c (ix2 r j) * ∑ k : Fin 512, h1K m c (ix2 j k) * wt2K m c (ix2 k q)) + b2K m c (ix1 q)) 0) :=
  congrFun (klayer2 m c) (ix2 r q)

theorem klayer3_apply (r : Fin 10240) (q : Fin 512) :
    @Eq EReal (h3K m c (ix2 r q))
      (max ((∑ j : Fin 10240, adjK m c (ix2 r j) * ∑ k : Fin 512, h2K m c (ix2 j k) * wt3K m c (ix2 k q)) + b3K m c (ix1 q)) 0) :=
  congrFun (klayer3 m c) (ix2 r q)

theorem klayer4_apply (r : Fin 10240) (f : Fin 2) :
    @Eq EReal (t4K m c (ix2 r f)) (∑ k : Fin 512, h3K m c (ix2 r k) * wt4K m c (ix2 k f)) :=
  congrFun (klayer4 m c) (ix2 r f)

end Layers

end Cert.KernelIdeal.Hand

end
-- ==== Proof.Val.Bridge.lean ====
import proofs.«401117_j39195871543847_2_alg».proof.Defs
import proofs.«401117_j39195871543847_2_alg».proof.Proof.Gen.Pre_finite_inputs
import proofs.«401117_j39195871543847_2_alg».proof.Proof.PreRange
import proofs.«401117_j39195871543847_2_alg».proof.Proof.LibGcnLayer
import proofs.«401117_j39195871543847_2_alg».proof.Proof.RefRead
import proofs.«401117_j39195871543847_2_alg».proof.Proof.RefRunHand
import proofs.«401117_j39195871543847_2_alg».proof.Proof.Val.RefLayers
import proofs.«401117_j39195871543847_2_alg».proof.Proof.Val.RefNorm
import proofs.«401117_j39195871543847_2_alg».proof.Proof.Val.HostK
import proofs.«401117_j39195871543847_2_alg».proof.Proof.Val.HostRead
import proofs.«401117_j39195871543847_2_alg».proof.Proof.Val.KLayers
import proofs.«401117_j39195871543847_2_alg».proof.Proof.KI.Run
import Idealize.ShloMosaic.Lib.ValueIdx
import Idealize.ShloMosaic.Lib.Pipeline.Value
import Idealize.ShloMosaic.PureOps.Ideal.Laws

set_option maxRecDepth 4096

noncomputable section

namespace Cert.Proof.Bridge

section link

open Cert.ReferenceIdeal Cert.ReferenceIdeal.Gen Cert.ReferenceIdeal.ReadP Cert.ReferenceIdeal.RefValue
open Idealize.ShloMosaic

variable (x0 : (⟨S10000x2208, .f32⟩ : BufTy).Contents (Elt Ideal)) (x1 : (⟨S2x160000, .i32⟩ : BufTy).Contents (Elt Ideal))
  (x3 : (⟨S2208x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x2, .f32⟩ : BufTy).Contents (Elt Ideal)) (x10 : (⟨S2, .f32⟩ : BufTy).Contents (Elt Ideal))

theorem refOut_eq_stage : Cert.ReferenceIdeal.ValueH.refOut (F := Ideal) x0 x1 x3 x4 x5 x6 x7 x8 x9 x10
    = val_main_v101 (F := Ideal) x0 x1 x3 x4 x5 x6 x7 x8 x9 x10 := rfl

end link

abbrev pad (r : Fin 10000) : Fin 10240 := ⟨r.val, by have := r.isLt; omega⟩

section core

open Cert.ReferenceIdeal Cert.ReferenceIdeal.Gen Cert.ReferenceIdeal.ReadP Cert.ReferenceIdeal.RefValue
open Idealize.ShloMosaic Idealize.ShloMosaic.ValueIdx Idealize.ShloMosaic.AggSum

variable (x0 : (⟨S10000x2208, .f32⟩ : BufTy).Contents (Elt Ideal)) (x1 : (⟨S2x160000, .i32⟩ : BufTy).Contents (Elt Ideal))
  (x3 : (⟨S2208x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x2, .f32⟩ : BufTy).Contents (Elt Ideal)) (x10 : (⟨S2, .f32⟩ : BufTy).Contents (Elt Ideal))

def IsAdj (A : Fin 10240 → Fin 10240 → EReal) : Prop :=
  ∀ (r j : Fin 10240), A r j = 0 + ∑ e ∈ Finset.univ.filter (fun e : Fin 170000 =>
    (val_main_v6 (F := Ideal) x1 (ix1 e)).toInt = (r.val : ℤ) ∧ (val_main_v5 (F := Ideal) x1 (ix1 e)).toInt = (j.val : ℤ)),
      val_main_v29 (F := Ideal) x1 (ix1 e)

theorem core_layer {K : ℕ} (hr : ∀ k : S2x160000.Idx, 0 ≤ (x1 k).toInt ∧ (x1 k).toInt < 10000)
    (A : Fin 10240 → Fin 10240 → EReal) (hA : IsAdj x1 A)
    (HK : Fin 10240 → Fin K → EReal) (HR : Fin 10000 → Fin K → EReal)
    (hH : ∀ (j : Fin 10240) (h : j.val < 10000) (k : Fin K), HK j k = HR ⟨j.val, h⟩ k) (Wt : Fin K → EReal) (b : EReal)
    (r : Fin 10000) :
    max ((∑ j : Fin 10240, A (pad r) j * ∑ k : Fin K, HK j k * Wt k) + b) 0
      = max ((0 + ∑ e ∈ Finset.univ.filter (fun e : Fin 170000 => (val_main_v6 (F := Ideal) x1 (ix1 e)).toInt = (r.val : ℤ)),
          (∑ k : Fin K, HR ⟨(val_main_v5 (F := Ideal) x1 (ix1 e)).toInt.toNat, src_lt x1 hr e⟩ k * Wt k)
            * val_main_v29 (F := Ideal) x1 (ix1 e)) + b) 0 :=
  layer_relu_dense_eq_sparse (E := 170000) (N := 10000) (NP := 10240) (K := K) (by decide)
    (fun e => val_main_v29 (F := Ideal) x1 (ix1 e)) (norm_nonneg x1)
    (fun e => (val_main_v6 (F := Ideal) x1 (ix1 e)).toInt) (fun e => (val_main_v5 (F := Ideal) x1 (ix1 e)).toInt)
    (src_range x1 hr) (r.val : ℤ) (A (pad r)) (hA (pad r)) HK HR hH Wt b

theorem core_L1 (hr : ∀ k : S2x160000.Idx, 0 ≤ (x1 k).toInt ∧ (x1 k).toInt < 10000)
    (A : Fin 10240 → Fin 10240 → EReal) (hA : IsAdj x1 A)
    (X : Fin 10240 → Fin 2208 → EReal) (hX : ∀ (j : Fin 10240) (h : j.val < 10000) (k : Fin 2208), X j k = x0 (ix2 ⟨j.val, h⟩ k))
    (K1 : Fin 10240 → Fin 512 → EReal)
    (h1 : ∀ (r : Fin 10240) (q : Fin 512),
      K1 r q = max ((∑ j : Fin 10240, A r j * ∑ k : Fin 2208, X j k * x3 (ix2 k q)) + x4 (ix1 q)) 0)
    (r : Fin 10000) (q : Fin 512) : K1 (pad r) q = val_main_v47 (F := Ideal) x0 x1 x3 x4 (ix2 r q) := by
  rw [h1, ref_layer1 x0 x1 x3 x4 hr r q]
  refine (core_layer x1 hr A hA X (fun j k => x0 (ix2 j k)) hX (fun k => x3 (ix2 k q)) (x4 (ix1 q)) r).trans ?_
  simp only [val_main_v30_coords]

theorem core_L2 (hr : ∀ k : S2x160000.Idx, 0 ≤ (x1 k).toInt ∧ (x1 k).toInt < 10000)
    (A : Fin 10240 → Fin 10240 → EReal) (hA : IsAdj x1 A)
    (K1 K2 : Fin 10240 → Fin 512 → EReal)
    (hL1 : ∀ (r : Fin 10000) (q : Fin 512), K1 (pad r) q = val_main_v47 (F := Ideal) x0 x1 x3 x4 (ix2 r q))
    (h2 : ∀ (r : Fin 10240) (q : Fin 512),
      K2 r q = max ((∑ j : Fin 10240, A r j * ∑ k : Fin 512, K1 j k * x5 (ix2 k q)) + x6 (ix1 q)) 0)
    (r : Fin 10000) (q : Fin 512) : K2 (pad r) q = val_main_v65 (F := Ideal) x0 x1 x3 x4 x5 x6 (ix2 r q) := by
  rw [h2, ref_layer2 x0 x1 x3 x4 x5 x6 hr r q]
  refine (core_layer x1 hr A hA K1 (fun j k => val_main_v47 (F := Ideal) x0 x1 x3 x4 (ix2 j k))
    (fun j h k => hL1 ⟨j.val, h⟩ k) (fun k => x5 (ix2 k q)) (x6 (ix1 q)) r).trans ?_
  simp only [val_main_v48_coords]

theorem core_L3 (hr : ∀ k : S2x160000.Idx, 0 ≤ (x1 k).toInt ∧ (x1 k).toInt < 10000)
    (A : Fin 10240 → Fin 10240 → EReal) (hA : IsAdj x1 A)
    (K2 K3 : Fin 10240 → Fin 512 → EReal)
    (hL2 : ∀ (r : Fin 10000) (q : Fin 512), K2 (pad r) q = val_main_v65 (F := Ideal) x0 x1 x3 x4 x5 x6 (ix2 r q))
    (h3 : ∀ (r : Fin 10240) (q : Fin 512),
      K3 r q = max ((∑ j : Fin 10240, A r j * ∑ k : Fin 512, K2 j k * x7 (ix2 k q)) + x8 (ix1 q)) 0)
    (r : Fin 10000) (q : Fin 512) : K3 (pad r) q = val_main_v83 (F := Ideal) x0 x1 x3 x4 x5 x6 x7 x8 (ix2 r q) := by
  rw [h3, ref_layer3 x0 x1 x3 x4 x5 x6 x7 x8 hr r q]
  refine (core_layer x1 hr A hA K2 (fun j k => val_main_v65 (F := Ideal) x0 x1 x3 x4 x5 x6 (ix2 j k))
    (fun j h k => hL2 ⟨j.val, h⟩ k) (fun k => x7 (ix2 k q)) (x8 (ix1 q)) r).trans ?_
  simp only [val_main_v66_coords]

theorem core_T4 (K3 : Fin 10240 → Fin 512 → EReal) (K4 : Fin 10240 → Fin 2 → EReal)
    (hL3 : ∀ (r : Fin 10000) (q : Fin 512), K3 (pad r) q = val_main_v83 (F := Ideal) x0 x1 x3 x4 x5 x6 x7 x8 (ix2 r q))
    (h4 : ∀ (r : Fin 10240) (f : Fin 2), K4 r f = ∑ k : Fin 512, K3 r k * x9 (ix2 k f))
    (r : Fin 10000) (f : Fin 2) : K4 (pad r) f = val_main_v84 (F := Ideal) x0 x1 x3 x4 x5 x6 x7 x8 x9 (ix2 r f) := by
  rw [h4, val_main_v84_coords]
  exact Finset.sum_congr rfl fun k _ => by rw [hL3 r k]

end core

section kernelTail

open Cert.KernelIdeal Cert.KernelIdeal.Gen Cert.KernelIdeal.Hand
open Idealize.ShloMosaic Idealize.ShloMosaic.ValueIdx

theorem aggTailOf_apply (t4 : FVec Ideal S10240x2 .f32) (s d : IVec S170000 32) (w : FVec Ideal S170000 .f32)
    (b4 : FVec Ideal S2 .f32) (hs : ∀ e : Fin 170000, 0 ≤ (s (ix1 e)).toInt ∧ (s (ix1 e)).toInt < 10000)
    (i : Fin 10000) (f : Fin 2) :
    (aggTailOf (F := Ideal) t4 s d w b4 : S10000x2.Idx → EReal) (ix2 i f)
      = (0 + ∑ e ∈ Finset.univ.filter (fun e : Fin 170000 => (d (ix1 e)).toInt = (i.val : ℤ)),
          (t4 : S10240x2.Idx → EReal) (ix2 ⟨(s (ix1 e)).toInt.toNat, by have := hs e; omega⟩ f)
            * (w : S170000.Idx → EReal) (ix1 e)) + (b4 : S2.Idx → EReal) (ix1 f) := by
  have hagg := Cert.ReferenceIdeal.RefValue.gather_scale_scatter_apply (by decide)
    gather_S10000x2_S170000x1_S170000x2_1_0_n_n_0_1_12 rfl rfl rfl rfl rfl rfl rfl
    scatter_S10000x2_S170000x1_S170000x2_1_0_0_1 rfl rfl rfl rfl
    (extractStridedSlice S10000x2 ![0, 0] t4 slices_S10240x2_S10000x2_0_0)
    (broadcastInDim S10000x2 ![] bcast_S_S10000x2 (constant (F := Ideal) S_ .f32 0x00000000#32))
    (asCol (wrapNeg 10000#32 s)) (asCol d)
    (broadcastInDim S170000x2 ![0, 1] bcast_S170000x1_S170000x2_0_1 (asCol w)) s d w
    (fun e => by rw [asCol_apply, wrapNeg_apply_of_nonneg _ _ _ (hs e).1])
    (fun e => asCol_apply d e 0)
    (fun e f => by
      refine (broadcastInDim_apply _ bcast_S170000x1_S170000x2_0_1 (asCol w) (ix2 e f) (ix2 e (0 : Fin 1)) (fun a => match a with
        | ⟨0, _⟩ => rfl
        | ⟨1, _⟩ => rfl)).trans ?_
      exact asCol_apply w e 0)
    (fun j => by
      refine (broadcastInDim_apply _ bcast_S_S10000x2 _ j (fun a => a.elim0) (fun a => a.elim0)).trans ?_
      rw [constant_apply, Ideal.ofBits_zero_f32])
    hs i f
  have hbias : (broadcastInDim S10000x2 ![0, 1] bcast_S1x2_S10000x2_0_1 (broadcastInDim S1x2 ![1] bcast_S2_S1x2_1 b4)
      : S10000x2.Idx → EReal) (ix2 i f) = (b4 : S2.Idx → EReal) (ix1 f) := by
    refine (broadcastInDim_apply _ bcast_S1x2_S10000x2_0_1 _ (ix2 i f) (ix2 (0 : Fin 1) f) (fun a => match a with
      | ⟨0, _⟩ => rfl
      | ⟨1, _⟩ => rfl)).trans ?_
    exact broadcastInDim_apply _ bcast_S2_S1x2_1 b4 (ix2 (0 : Fin 1) f) (ix1 f) (fun a => match a with
      | ⟨0, _⟩ => rfl)
  have hslice : ∀ j : Fin 10000, (extractStridedSlice S10000x2 ![0, 0] t4 slices_S10240x2_S10000x2_0_0
      : S10000x2.Idx → EReal) (ix2 j f) = (t4 : S10240x2.Idx → EReal) (ix2 ⟨j.val, by have := j.isLt; omega⟩ f) := fun j =>
    extractStridedSlice_apply ![0, 0] t4 slices_S10240x2_S10000x2_0_0 _ _ (fun a => match a with
      | ⟨0, _⟩ => by show j.val = 0 + j.val; omega
      | ⟨1, _⟩ => by show f.val = 0 + f.val; omega)
  unfold aggTailOf
  rw [addf_apply, hagg, hbias]
  refine congrArg (fun t => (0 + t) + (b4 : S2.Idx → EReal) (ix1 f)) (Finset.sum_congr rfl fun e _ => ?_)
  exact congrArg (· * (w : S170000.Idx → EReal) (ix1 e)) (hslice ⟨(s (ix1 e)).toInt.toNat, by have := hs e; omega⟩)

theorem logSoftmax_eq_tailR (z : FVec Ideal S10000x2 .f32) :
    logSoftmax (F := Ideal) z = Cert.ReferenceIdeal.RefValue.tailR z := rfl

theorem tail_agree (x0 : (⟨Cert.ReferenceIdeal.S10000x2208, .f32⟩ : BufTy).Contents (Elt Ideal))
    (x1 : (⟨Cert.ReferenceIdeal.S2x160000, .i32⟩ : BufTy).Contents (Elt Ideal))
    (x3 : (⟨Cert.ReferenceIdeal.S2208x512, .f32⟩ : BufTy).Contents (Elt Ideal))
    (x4 : (⟨Cert.ReferenceIdeal.S512, .f32⟩ : BufTy).Contents (Elt Ideal))
    (x5 : (⟨Cert.ReferenceIdeal.S512x512, .f32⟩ : BufTy).Contents (Elt Ideal))
    (x6 : (⟨Cert.ReferenceIdeal.S512, .f32⟩ : BufTy).Contents (Elt Ideal))
    (x7 : (⟨Cert.ReferenceIdeal.S512x512, .f32⟩ : BufTy).Contents (Elt Ideal))
    (x8 : (⟨Cert.ReferenceIdeal.S512, .f32⟩ : BufTy).Contents (Elt Ideal))
    (x9 : (⟨Cert.ReferenceIdeal.S512x2, .f32⟩ : BufTy).Contents (Elt Ideal))
    (x10 : (⟨Cert.ReferenceIdeal.S2, .f32⟩ : BufTy).Contents (Elt Ideal))
    (hr : ∀ k : Cert.ReferenceIdeal.S2x160000.Idx, 0 ≤ (x1 k).toInt ∧ (x1 k).toInt < 10000)
    (t4 : FVec Ideal S10240x2 .f32)
    (hT4 : ∀ (r : Fin 10000) (f : Fin 2), (t4 : S10240x2.Idx → EReal) (ix2 (pad r) f)
      = Cert.ReferenceIdeal.ReadP.val_main_v84 (F := Ideal) x0 x1 x3 x4 x5 x6 x7 x8 x9 (ix2 r f)) :
    tailK (F := Ideal) t4 x1 x10
      = Cert.ReferenceIdeal.ReadP.val_main_v101 (F := Ideal) x0 x1 x3 x4 x5 x6 x7 x8 x9 x10 := by
  rw [Cert.ReferenceIdeal.RefValue.val_main_v101_tail]
  unfold tailK
  rw [logSoftmax_eq_tailR]
  refine congrArg Cert.ReferenceIdeal.RefValue.tailR (funext fun idx => ?_)
  obtain ⟨i, f, rfl⟩ : ∃ (i : Fin 10000) (f : Fin 2), idx = ix2 i f := ⟨idx 0, idx 1, eq_ix2 idx⟩
  rw [Cert.ReferenceIdeal.RefValue.ref_layer4 x0 x1 x3 x4 x5 x6 x7 x8 x9 x10 hr i f,
    aggTailOf_apply t4 (srcIdx x1) (dstIdx x1) (edgeNorm (F := Ideal) x1) x10
      (fun e => Cert.ReferenceIdeal.RefValue.src_range x1 hr e) i f]
  refine congrArg (fun t => (0 + t) + (x10 : S2.Idx → EReal) (ix1 f)) (Finset.sum_congr rfl fun e _ => ?_)
  exact congrArg (· * Cert.ReferenceIdeal.ReadP.val_main_v29 (F := Ideal) x1 (ix1 e))
    (hT4 ⟨_, Cert.ReferenceIdeal.RefValue.src_lt x1 hr e⟩ f)

end kernelTail

section layersTail

open Cert.ReferenceIdeal Cert.ReferenceIdeal.Gen Cert.ReferenceIdeal.ReadP Cert.ReferenceIdeal.RefValue
open Idealize.ShloMosaic Idealize.ShloMosaic.ValueIdx

variable (x0 : (⟨S10000x2208, .f32⟩ : BufTy).Contents (Elt Ideal)) (x1 : (⟨S2x160000, .i32⟩ : BufTy).Contents (Elt Ideal))
  (x3 : (⟨S2208x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x2, .f32⟩ : BufTy).Contents (Elt Ideal)) (x10 : (⟨S2, .f32⟩ : BufTy).Contents (Elt Ideal))

-- The four layers chained: each padded kernel layer agrees with the reference's on the 10000 real rows, so the tails agree.
theorem tail_of_layers (hr : ∀ k : S2x160000.Idx, 0 ≤ (x1 k).toInt ∧ (x1 k).toInt < 10000)
    (A : Fin 10240 → Fin 10240 → EReal) (hA : IsAdj x1 A)
    (X : Fin 10240 → Fin 2208 → EReal) (hX : ∀ (j : Fin 10240) (h : j.val < 10000) (k : Fin 2208), X j k = x0 (ix2 ⟨j.val, h⟩ k))
    (K1 K2 K3 : Fin 10240 → Fin 512 → EReal) (t4 : FVec Ideal Cert.KernelIdeal.S10240x2 .f32)
    (h1 : ∀ (r : Fin 10240) (q : Fin 512),
      K1 r q = max ((∑ j : Fin 10240, A r j * ∑ k : Fin 2208, X j k * x3 (ix2 k q)) + x4 (ix1 q)) 0)
    (h2 : ∀ (r : Fin 10240) (q : Fin 512),
      K2 r q = max ((∑ j : Fin 10240, A r j * ∑ k : Fin 512, K1 j k * x5 (ix2 k q)) + x6 (ix1 q)) 0)
    (h3 : ∀ (r : Fin 10240) (q : Fin 512),
      K3 r q = max ((∑ j : Fin 10240, A r j * ∑ k : Fin 512, K2 j k * x7 (ix2 k q)) + x8 (ix1 q)) 0)
    (h4 : ∀ (r : Fin 10240) (f : Fin 2),
      (t4 : Cert.KernelIdeal.S10240x2.Idx → EReal) (ix2 r f) = ∑ k : Fin 512, K3 r k * x9 (ix2 k f)) :
    Cert.KernelIdeal.Hand.tailK (F := Ideal) t4 x1 x10 = val_main_v101 (F := Ideal) x0 x1 x3 x4 x5 x6 x7 x8 x9 x10 :=
  tail_agree x0 x1 x3 x4 x5 x6 x7 x8 x9 x10 hr t4
    (core_T4 x0 x1 x3 x4 x5 x6 x7 x8 x9 K3 (fun r f => (t4 : Cert.KernelIdeal.S10240x2.Idx → EReal) (ix2 r f))
      (core_L3 x0 x1 x3 x4 x5 x6 x7 x8 hr A hA K2 K3
        (core_L2 x0 x1 x3 x4 x5 x6 hr A hA K1 K2 (core_L1 x0 x1 x3 x4 hr A hA X hX K1 h1) h2) h3) h4)

end layersTail

section top

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (c : Dev nD)

theorem edge_words (hpre : Cert.Pre_KernelIdeal m) (k : S2x160000.Idx) :
    0 ≤ ((m ((c : Thread nD τ).loc main_arg1) : IVec S2x160000 32) k).toInt
      ∧ ((m ((c : Thread nD τ).loc main_arg1) : IVec S2x160000 32) k).toInt < 10000 :=
  Cert.Proof.PreRange.edge_range (F := Ideal) _ _ _ _ _ _ _ _ _ _ _ (hpre c) k

theorem result_eq (hpre : Cert.Pre_KernelIdeal m) :
    Cert.ReferenceIdeal.ValueH.refOut (F := Ideal) (m ((c : Thread nD τ).loc main_arg0)) (m ((c : Thread nD τ).loc main_arg1))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))
      = V15 m (outsK m) c main_v81 := by
  rw [refOut_eq_stage]
  refine Eq.trans ?_ (V15_v81 m (outsK m) c).symm
  have hr := edge_words m c hpre
  exact (tail_of_layers _ _ _ _ _ _ _ _ _ _ hr
    (fun r j => (adjDense (F := Ideal) (m ((c : Thread nD τ).loc main_arg1)) : S10240x10240.Idx → EReal) (ix2 r j))
    (fun r j => adjDense_apply _ hr r j)
    (fun j k => (xPad (F := Ideal) (m ((c : Thread nD τ).loc main_arg0)) : S10240x2208.Idx → EReal) (ix2 j k))
    (fun j h k => (xPad_apply _ j k).trans (dif_pos h))
    (fun r q => h1K m c (ix2 r q)) (fun r q => h2K m c (ix2 r q)) (fun r q => h3K m c (ix2 r q))
    (W13 m c main_v63) (klayer1_apply m c) (klayer2_apply m c) (klayer3_apply m c) (klayer4_apply m c)).symm

end top

end Cert.Proof.Bridge

end
-- ==== Proof.lean ====
/-
  A four-layer graph convolution on 10,000 nodes and 170,000 weighted edges (160,000 given ones and a self loop per
  node), computed two ways. The reference sums, for each node, the rows of H·W over the edges that end there, each times
  the edge's weight; the kernel forms the 10,240 × 10,240 weighted adjacency A once and takes A·(H·W) as two matrix
  products per layer. Every weight is non-negative, so over the extended reals a sum of weights distributes over a
  factor and A(i,·)·T regroups, edge by edge, into the reference's sum; rows and columns past 10,000 are empty sums.
  This needs every entry of the edge table to be a node number (the precondition's last conjunct) and no finiteness.
-/
import proofs.«401117_j39195871543847_2_alg».proof.Defs
import proofs.«401117_j39195871543847_2_alg».proof.Proof.Gen.Kernel
import proofs.«401117_j39195871543847_2_alg».proof.Proof.Gen.KernelIdeal
import proofs.«401117_j39195871543847_2_alg».proof.Proof.Gen.ReferenceIdeal
import proofs.«401117_j39195871543847_2_alg».proof.Proof.Gen.Pre_finite_inputs
import proofs.«401117_j39195871543847_2_alg».proof.Proof.K.Run
import proofs.«401117_j39195871543847_2_alg».proof.Proof.KI.Run
import proofs.«401117_j39195871543847_2_alg».proof.Proof.RefRunHand
import proofs.«401117_j39195871543847_2_alg».proof.Proof.Val.Bridge
import Idealize.ShloMosaic.Adequacy
import Idealize.ShloMosaic.Init

noncomputable section

namespace Cert.Proof

open Idealize.ShloMosaic Idealize.ShloMosaic.TcCoe Idealize.SL.Sem

/-- Each frame is the program's run with the result dropped. -/
theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.ValueH.run (F := Ideal) m ρ)

theorem preserves : Cert.preserves_Kernel_KernelIdeal := trivial

/-- The reference ends at its composed term of its arguments; agreement makes them the kernel's arguments, and there
    that term is the host tail of what the kernel's last region left. -/
theorem algebraic : Cert.algebraic_KernelIdeal_ReferenceIdeal := by
  intro m ρ m' ρ' hpre hagree
  refine ⟨fun c => Cert.KernelIdeal.Gen.V15 m (Cert.KernelIdeal.Hand.outsK m) c Cert.KernelIdeal.main_v81,
    Cert.KernelIdeal.Hand.run_main (F := Ideal) m ρ, ?_⟩
  refine (θ_run Cert.ReferenceIdeal.defs _ _).mono (fun _ h c => ⟨?_, (h c).2⟩)
    (Cert.ReferenceIdeal.ValueH.run (F := Ideal) m' ρ')
  obtain ⟨e0, e1, _, e3, e4, e5, e6, e7, e8, e9, e10⟩ := hagree c
  rw [(h c).1, e0, e1, e3, e4, e5, e6, e7, e8, e9, e10]
  exact Cert.Proof.Bridge.result_eq m c hpre

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
